-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg14
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg10 : FVec F S128 .f32) (main_arg11 : FVec F S128x128 .f32) (main_arg12 : FVec F S128 .f32) (main_arg13 : FVec F S128x10 .f32) (main_arg14 : FVec F S10 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg13
  let main_cst_18 : FVec F S_ .f32 := constant S_ .f32 0x7F800000#32
  let main_v50 : FVec F S128x10 .f32 := broadcastInDim S128x10 ![] bcast_S_S128x10 main_cst_18
  fn_part3 (F := F) main_arg14 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x10 .f32) (main_arg14 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : IVec S2x1600000 32) (main_arg2 : IVec S100000 1) (main_arg3 : FVec F S1600000 .f32) (main_arg4 : IVec S100000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1600000x1 : Shape := ⟨2, ![1600000, 1]⟩
abbrev S1600000x128 : Shape := ⟨2, ![1600000, 128]⟩
abbrev S1x128 : Shape := ⟨2, ![1, 128]⟩
abbrev S400x128 : Shape := ⟨2, ![400, 128]⟩
abbrev S400x1 : Shape := ⟨2, ![400, 1]⟩
abbrev S20000x128 : Shape := ⟨2, ![20000, 128]⟩
abbrev S400x20000 : Shape := ⟨2, ![400, 20000]⟩
abbrev S100000x1 : Shape := ⟨2, ![100000, 1]⟩
abbrev S10000x128 : Shape := ⟨2, ![10000, 128]⟩
abbrev S1700000x128 : Shape := ⟨2, ![1700000, 128]⟩
abbrev S512x128 : Shape := ⟨2, ![512, 128]⟩
abbrev S20000x1 : Shape := ⟨2, ![20000, 1]⟩
abbrev S20000x512 : Shape := ⟨2, ![20000, 512]⟩
abbrev S1x10 : Shape := ⟨2, ![1, 10]⟩
abbrev S512x10 : Shape := ⟨2, ![512, 10]⟩

abbrev nBuf : Space → Nat
  | .hbm => 146
  | .vmem => 65
  | .smem => 0
  | _ => 0

abbrev hbmTy0_0 (i : Nat) : BufTy := match i % 128 with
  | 0 => ⟨S100000x128, .f32⟩
  | 1 => ⟨S2x1600000, .i32⟩
  | 2 => ⟨S100000, .i1⟩
  | 3 => ⟨S1600000, .f32⟩
  | 4 => ⟨S100000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S1600000x128, .bf16⟩
  | 68 => ⟨S1600000x1, .i32⟩
  | 69 => ⟨S_, .f32⟩
  | 70 => ⟨S128, .f32⟩
  | 71 => ⟨S1x128, .f32⟩
  | 72 => ⟨S100000x128, .f32⟩
  | 73 => ⟨S100000x1, .i1⟩
  | 74 => ⟨S100000x128, .i1⟩
  | 75 => ⟨S100000x128, .f32⟩
  | 76 => ⟨S_, .f32⟩
  | 77 => ⟨S128, .f32⟩
  | 78 => ⟨S1x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S1700000x128, .bf16⟩
  | 93 => ⟨S1700000x1, .i32⟩
  | 94 => ⟨S1x128, .f32⟩
  | 95 => ⟨S100000x128, .f32⟩
  | 96 => ⟨S_, .f32⟩
  | 97 => ⟨S128, .f32⟩
  | 98 => ⟨S1x128, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S1700000x1, .f32⟩
  | 110 => ⟨S1700000x128, .f32⟩
  | 111 => ⟨S1700000x128, .f32⟩
  | 112 => ⟨S1700000x128, .bf16⟩
  | 113 => ⟨S1700000x1, .i32⟩
  | 114 => ⟨S1x128, .f32⟩
  | 115 => ⟨S100000x128, .f32⟩
  | 116 => ⟨S_, .f32⟩
  | 117 => ⟨S128, .f32⟩
  | 118 => ⟨S1x128, .f32⟩
  | 119 => ⟨S100000x128, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x128, .f32⟩
  | 1 => ⟨S1700000x1, .f32⟩
  | 2 => ⟨S1700000x128, .f32⟩
  | 3 => ⟨S1700000x128, .f32⟩
  | 4 => ⟨S1700000x128, .bf16⟩
  | 5 => ⟨S1700000x1, .i32⟩
  | 6 => ⟨S1x128, .f32⟩
  | 7 => ⟨S100000x128, .f32⟩
  | 8 => ⟨S100000x128, .bf16⟩
  | 9 => ⟨S100000x1, .i32⟩
  | 10 => ⟨S_, .f32⟩
  | 11 => ⟨S128, .f32⟩
  | 12 => ⟨S1x128, .f32⟩
  | 13 => ⟨S512x128, .f32⟩
  | 14 => ⟨S1x128, .f32⟩
  | 15 => ⟨S512x128, .f32⟩
  | 16 => ⟨S1x10, .f32⟩
  | 17 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S400x128, .bf16⟩
  | .local _ .vmem, ⟨1, _⟩ => ⟨S400x128, .bf16⟩
  | .local _ .vmem, ⟨2, _⟩ => ⟨S400x1, .i32⟩
  | .local _ .vmem, ⟨3, _⟩ => ⟨S400x1, .i32⟩
  | .local _ .vmem, ⟨4, _⟩ => ⟨S1x128, .f32⟩
  | .local _ .vmem, ⟨5, _⟩ => ⟨S20000x128, .f32⟩
  | .local _ .vmem, ⟨6, _⟩ => ⟨S20000x128, .f32⟩
  | .local _ .vmem, ⟨7, _⟩ => ⟨S20000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S400x128, .bf16⟩
  | .local _ .vmem, ⟨15, _⟩ => ⟨S400x128, .bf16⟩
  | .local _ .vmem, ⟨16, _⟩ => ⟨S400x1, .i32⟩
  | .local _ .vmem, ⟨17, _⟩ => ⟨S400x1, .i32⟩
  | .local _ .vmem, ⟨18, _⟩ => ⟨S1x128, .f32⟩
  | .local _ .vmem, ⟨19, _⟩ => ⟨S20000x128, .f32⟩
  | .local _ .vmem, ⟨20, _⟩ => ⟨S20000x128, .f32⟩
  | .local _ .vmem, ⟨21, _⟩ => ⟨S20000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S400x128, .bf16⟩
  | .local _ .vmem, ⟨29, _⟩ => ⟨S400x128, .bf16⟩
  | .local _ .vmem, ⟨30, _⟩ => ⟨S400x1, .i32⟩
  | .local _ .vmem, ⟨31, _⟩ => ⟨S400x1, .i32⟩
  | .local _ .vmem, ⟨32, _⟩ => ⟨S1x128, .f32⟩
  | .local _ .vmem, ⟨33, _⟩ => ⟨S20000x128, .f32⟩
  | .local _ .vmem, ⟨34, _⟩ => ⟨S20000x128, .f32⟩
  | .local _ .vmem, ⟨35, _⟩ => ⟨S20000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S400x128, .bf16⟩
  | .local _ .vmem, ⟨43, _⟩ => ⟨S400x128, .bf16⟩
  | .local _ .vmem, ⟨44, _⟩ => ⟨S400x1, .i32⟩
  | .local _ .vmem, ⟨45, _⟩ => ⟨S400x1, .i32⟩
  | .local _ .vmem, ⟨46, _⟩ => ⟨S1x128, .f32⟩
  | .local _ .vmem, ⟨47, _⟩ => ⟨S20000x128, .f32⟩
  | .local _ .vmem, ⟨48, _⟩ => ⟨S20000x128, .f32⟩
  | .local _ .vmem, ⟨49, _⟩ => ⟨S20000x128, .f32⟩
  | .local _ .vmem, ⟨50, _⟩ => ⟨S20000x128, .bf16⟩
  | .local _ .vmem, ⟨51, _⟩ => ⟨S20000x128, .bf16⟩
  | .local _ .vmem, ⟨52, _⟩ => ⟨S20000x1, .i32⟩
  | .local _ .vmem, ⟨53, _⟩ => ⟨S20000x1, .i32⟩
  | .local _ .vmem, ⟨54, _⟩ => ⟨S1x128, .f32⟩
  | .local _ .vmem, ⟨55, _⟩ => ⟨S512x128, .f32⟩
  | .local _ .vmem, ⟨56, _⟩ => ⟨S512x128, .f32⟩
  | .local _ .vmem, ⟨57, _⟩ => ⟨S512x128, .f32⟩
  | .local _ .vmem, ⟨58, _⟩ => ⟨S128x128, .f32⟩
  | .local _ .vmem, ⟨59, _⟩ => ⟨S1x128, .f32⟩
  | .local _ .vmem, ⟨60, _⟩ => ⟨S512x128, .f32⟩
  | .local _ .vmem, ⟨61, _⟩ => ⟨S512x128, .f32⟩
  | .local _ .vmem, ⟨62, _⟩ => ⟨S128x10, .f32⟩
  | .local _ .vmem, ⟨63, _⟩ => ⟨S1x10, .f32⟩
  | .local _ .vmem, ⟨64, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_c_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_18 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc6_scratch0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_scratch0 : Ref sig .tc := ⟨.vmem, 56, rfl⟩
abbrev cc8_stg0_0 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc9_stg0_0 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem3_0 : DmaSem sig := 51
abbrev cc8_sem0_0 : DmaSem sig := 52
abbrev cc8_sem1_0 : DmaSem sig := 53
abbrev cc8_sem2_0 : DmaSem sig := 54
abbrev cc8_sem3_0 : DmaSem sig := 55
abbrev cc9_sem0_0 : DmaSem sig := 56
abbrev cc9_sem1_0 : DmaSem sig := 57
abbrev cc9_sem2_0 : DmaSem sig := 58
abbrev cc9_sem3_0 : DmaSem sig := 59

abbrev nD : Nat := 1
abbrev τ : Topo := Topo.v7x

variable {F : FTy → Type} [FloatOps F]

abbrev grid0 : Pipeline.Grid := ⟨2, ![5, 4000], ![false, false]⟩

def k0_cond2 (i : grid0.Coords) : BitVec 1 :=
  let arg1 : BitVec 32 := BitVec.ofNat 32 (i 1).val
  let c3999_i32 : BitVec 32 := 3999#32
  let v22 : BitVec 1 := Scalar.cmpi .eq arg1 c3999_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S20000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![5, 4250], ![false, false]⟩

def k2_cond2 (i : grid2.Coords) : BitVec 1 :=
  let arg1 : BitVec 32 := BitVec.ofNat 32 (i 1).val
  let c4249_i32 : BitVec 32 := 4249#32
  let v22 : BitVec 1 := Scalar.cmpi .eq arg1 c4249_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S400x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S20000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![5, 4250], ![false, false]⟩

def k4_cond2 (i : grid4.Coords) : BitVec 1 :=
  let arg1 : BitVec 32 := BitVec.ofNat 32 (i 1).val
  let c4249_i32 : BitVec 32 := 4249#32
  let v22 : BitVec 1 := Scalar.cmpi .eq arg1 c4249_i32
  let v23 : BitVec 32 := Scalar.extui v22
  let c0_i32_8 : BitVec 32 := 0#32
  let v24 : BitVec 1 := Scalar.cmpi .ne v23 c0_i32_8
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S400x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S400x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S20000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![5, 4250], ![false, false]⟩

def k6_cond2 (i : grid6.Coords) : BitVec 1 :=
  let arg1 : BitVec 32 := BitVec.ofNat 32 (i 1).val
  let c4249_i32 : BitVec 32 := 4249#32
  let v22 : BitVec 1 := Scalar.cmpi .eq arg1 c4249_i32
  let v23 : BitVec 32 := Scalar.extui v22
  let c0_i32_8 : BitVec 32 := 0#32
  let v24 : BitVec 1 := Scalar.cmpi .ne v23 c0_i32_8
  v24

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S400x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S400x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S20000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![1, 5], ![false, false]⟩

def k7_cond2 (i : grid7.Coords) : BitVec 1 :=
  let arg1 : BitVec 32 := BitVec.ofNat 32 (i 1).val
  let c4_i32 : BitVec 32 := 4#32
  let v22 : BitVec 1 := Scalar.cmpi .eq arg1 c4_i32
  let v23 : BitVec 32 := Scalar.extui v22
  let c0_i32_8 : BitVec 32 := 0#32
  let v24 : BitVec 1 := Scalar.cmpi .ne v23 c0_i32_8
  v24

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S20000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S20000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S512x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true, false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S512x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S128x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bitsLt_bf16_f32 : FTy.bits .bf16 < FTy.bits .f32
  shapeCasts_S1600000_S1600000x1 : S1600000.ShapeCasts S1600000x1
  bcast_S_S128 : S_.BroadcastsInDim S128 (![] : Fin 0 → Fin S128.rank)
  shapeCasts_S128_S1x128 : S128.ShapeCasts S1x128
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S400x1_S400x1_0_0 : ∀ a, (![0, 0] : Fin 2 → Nat) a + S400x1.size a ≤ S400x1.size a
  h_S400x1 : 0 < S400x1.numel
  shapeCasts_S400x1_S400x1 : S400x1.ShapeCasts S400x1
  iota_S400x20000_d1_w32 : S400x20000.Iotas .tc 32 [1]
  broadcasts_S400x1_S400x20000 : S400x1.Broadcasts S400x20000
  natLt_1_32 : 1 < 32
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  broadcasts_S1x128_S10000x128 : S1x128.Broadcasts S10000x128
  bcast_S1700000x1_S1700000x128_0_1 : S1700000x1.BroadcastsInDim S1700000x128 (![0, 1] : Fin 2 → Fin S1700000x128.rank)
  shapeCasts_S1700000_S1700000x1 : S1700000.ShapeCasts S1700000x1
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x512_d1_w32 : S20000x512.Iotas .tc 32 [1]
  broadcasts_S20000x1_S20000x512 : S20000x1.Broadcasts S20000x512
  broadcasts_S1x128_S512x128 : S1x128.Broadcasts S512x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1600000x1_S1600000x128_1_0_n_n_0_1_1128_wf : GatherDims.WF S100000x128 S1600000x1 S1600000x128 [1] [0] [] [0] [] 1 ![1, 128]
  dot_S400x20000_S400x128_S20000x128_0_0_1_1_n_n_wf : DotDims.WF S400x20000 S400x128 S20000x128 [0] [0] [1] [1] [] []
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  dot_S20000x512_S20000x128_S512x128_0_0_1_1_n_n_wf : DotDims.WF S20000x512 S20000x128 S512x128 [0] [0] [1] [1] [] []
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S1600000x128.size a
  hwx0_0 : ∀ i : grid0.Coords, EltTy.bits .bf16 = 32 ∨ (Rect.block (s := S1600000x128) S400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S1600000x1.size a
  hwx0_1 : ∀ i : grid0.Coords, EltTy.bits .i32 = 32 ∨ (Rect.block (s := S1600000x1) S400x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x128.size a ≤ S100000x128.size a
  hwx0_3 : ∀ i : grid0.Coords, EltTy.bits .f32 = 32 ∨ (Rect.block (s := S100000x128) S20000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x128.size a ≤ S1700000x128.size a
  hwx2_0 : ∀ i : grid2.Coords, EltTy.bits .bf16 = 32 ∨ (Rect.block (s := S1700000x128) S400x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x1.size a ≤ S1700000x1.size a
  hwx2_1 : ∀ i : grid2.Coords, EltTy.bits .i32 = 32 ∨ (Rect.block (s := S1700000x1) S400x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x128.size a ≤ S100000x128.size a
  hwx2_3 : ∀ i : grid2.Coords, EltTy.bits .f32 = 32 ∨ (Rect.block (s := S100000x128) S20000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x128.size a ≤ S1700000x128.size a
  hwx4_0 : ∀ i : grid4.Coords, EltTy.bits .bf16 = 32 ∨ (Rect.block (s := S1700000x128) S400x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S400x1.size a ≤ S1700000x1.size a
  hwx4_1 : ∀ i : grid4.Coords, EltTy.bits .i32 = 32 ∨ (Rect.block (s := S1700000x1) S400x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S20000x128.size a ≤ S100000x128.size a
  hwx4_3 : ∀ i : grid4.Coords, EltTy.bits .f32 = 32 ∨ (Rect.block (s := S100000x128) S20000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x128.size a ≤ S1700000x128.size a
  hwx6_0 : ∀ i : grid6.Coords, EltTy.bits .bf16 = 32 ∨ (Rect.block (s := S1700000x128) S400x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S400x1.size a ≤ S1700000x1.size a
  hwx6_1 : ∀ i : grid6.Coords, EltTy.bits .i32 = 32 ∨ (Rect.block (s := S1700000x1) S400x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S20000x128.size a ≤ S100000x128.size a
  hwx6_3 : ∀ i : grid6.Coords, EltTy.bits .f32 = 32 ∨ (Rect.block (s := S100000x128) S20000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x128.size a ≤ S100000x128.size a
  hwx7_0 : ∀ i : grid7.Coords, EltTy.bits .bf16 = 32 ∨ (Rect.block (s := S100000x128) S20000x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S20000x1.size a ≤ S100000x1.size a
  hwx7_1 : ∀ i : grid7.Coords, EltTy.bits .i32 = 32 ∨ (Rect.block (s := S100000x1) S20000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S512x128.size a
  hwx7_3 : ∀ i : grid7.Coords, EltTy.bits .f32 = 32 ∨ (Rect.block (s := S512x128) S512x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S512x128.size a ≤ S512x128.size a
  hwx8_3 : ∀ i : grid8.Coords, EltTy.bits .f32 = 32 ∨ (Rect.block (s := S512x128) S512x128.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S512x128.size a ≤ S512x128.size a
  hwx9_0 : ∀ i : grid9.Coords, EltTy.bits .f32 = 32 ∨ (Rect.block (s := S512x128) S512x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x10.size a ≤ S128x10.size a
  hwx9_1 : ∀ i : grid9.Coords, EltTy.bits .f32 = 32 ∨ (Rect.block (s := S128x10) S128x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S512x10.size a ≤ S512x10.size a
  hwx9_3 : ∀ i : grid9.Coords, EltTy.bits .f32 = 32 ∨ (Rect.block (s := S512x10) S512x10.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S400x20000_S400x128_S20000x128_0_0_1_1_n_n : DotDims S400x20000 S400x128 S20000x128 where
  lhsContracting := [0]
  rhsContracting := [0]
  lhsNonContracting := [1]
  rhsNonContracting := [1]
  lhsBatch := []
  rhsBatch := []
  wf := dot_S400x20000_S400x128_S20000x128_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def dot_S20000x512_S20000x128_S512x128_0_0_1_1_n_n : DotDims S20000x512 S20000x128 S512x128 where
  lhsContracting := [0]
  rhsContracting := [0]
  lhsNonContracting := [1]
  rhsNonContracting := [1]
  lhsBatch := []
  rhsBatch := []
  wf := dot_S20000x512_S20000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v40) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S20000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S20000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v63) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S20000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v80) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S400x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S400x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S20000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v98) S20000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S20000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v102) S512x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v102) S512x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v104) S512x128.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v104) S512x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S128x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v106) S512x10.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S512x10 : Shape := ⟨2, ![512, 10]⟩
abbrev S1x10 : Shape := ⟨2, ![1, 10]⟩

abbrev nBuf : Space → Nat
  | .hbm => 227
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i1⟩
  | 3 => ⟨S1600000, .f32⟩
  | 4 => ⟨S100000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x1, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x1, .i1⟩
  | 36 => ⟨S100000x128, .i1⟩
  | 37 => ⟨S100000x128, .f32⟩
  | 38 => ⟨S100000, .i32⟩
  | 39 => ⟨S1700000, .i32⟩
  | 40 => ⟨S1700000, .i32⟩
  | 41 => ⟨S_, .f32⟩
  | 42 => ⟨S1700000, .f32⟩
  | 43 => ⟨S_, .f32⟩
  | 44 => ⟨S100000, .f32⟩
  | 45 => ⟨S1700000x1, .i32⟩
  | 46 => ⟨S100000, .f32⟩
  | 47 => ⟨S_, .f32⟩
  | 48 => ⟨S100000, .f32⟩
  | 49 => ⟨S100000, .i1⟩
  | 50 => ⟨S100000, .f32⟩
  | 51 => ⟨S_, .f32⟩
  | 52 => ⟨S_, .f32⟩
  | 53 => ⟨S100000, .f32⟩
  | 54 => ⟨S100000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000, .f32⟩
  | 73 => ⟨S1700000, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000, .i32⟩
  | 98 => ⟨S1700000, .i32⟩
  | 99 => ⟨S1700000, .i32⟩
  | 100 => ⟨S_, .f32⟩
  | 101 => ⟨S1700000, .f32⟩
  | 102 => ⟨S_, .f32⟩
  | 103 => ⟨S100000, .f32⟩
  | 104 => ⟨S1700000x1, .i32⟩
  | 105 => ⟨S100000, .f32⟩
  | 106 => ⟨S_, .f32⟩
  | 107 => ⟨S100000, .f32⟩
  | 108 => ⟨S100000, .i1⟩
  | 109 => ⟨S100000, .f32⟩
  | 110 => ⟨S_, .f32⟩
  | 111 => ⟨S_, .f32⟩
  | 112 => ⟨S100000, .f32⟩
  | 113 => ⟨S100000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S100000x128, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x128, .f32⟩
  | 15 => ⟨S1700000x1, .f32⟩
  | 16 => ⟨S1700000x128, .f32⟩
  | 17 => ⟨S1700000x128, .f32⟩
  | 18 => ⟨S_, .f32⟩
  | 19 => ⟨S100000x128, .f32⟩
  | 20 => ⟨S1700000x1, .i32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000, .i32⟩
  | 29 => ⟨S1700000, .i32⟩
  | 30 => ⟨S1700000, .i32⟩
  | 31 => ⟨S_, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S100000x128, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x128, .f32⟩
  | 74 => ⟨S1700000x1, .f32⟩
  | 75 => ⟨S1700000x128, .f32⟩
  | 76 => ⟨S1700000x128, .f32⟩
  | 77 => ⟨S_, .f32⟩
  | 78 => ⟨S100000x128, .f32⟩
  | 79 => ⟨S1700000x1, .i32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S512x128, .f32⟩
  | 86 => ⟨S100000x1, .i32⟩
  | 87 => ⟨S512x128, .f32⟩
  | 88 => ⟨S512x128, .f32⟩
  | 89 => ⟨S1x128, .f32⟩
  | 90 => ⟨S512x128, .f32⟩
  | 91 => ⟨S512x128, .f32⟩
  | 92 => ⟨S_, .f32⟩
  | 93 => ⟨S512x128, .f32⟩
  | 94 => ⟨S512x128, .f32⟩
  | 95 => ⟨S512x10, .f32⟩
  | 96 => ⟨S1x10, .f32⟩
  | 97 => ⟨S512x10, .f32⟩
  | 98 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call0_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_cst : Ref sig .tc := ⟨.hbm, 94, rfl⟩
abbrev main_call2_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_c_19 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_20 : Ref sig .tc := ⟨.hbm, 134, rfl⟩
abbrev main_v90 : Ref sig .tc := ⟨.hbm, 135, rfl⟩
abbrev main_v91 : Ref sig .tc := ⟨.hbm, 136, rfl⟩
abbrev main_c_21 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_22 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call4_cst : Ref sig .tc := ⟨.hbm, 153, rfl⟩
abbrev main_call4_v0 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_23 : Ref sig .tc := ⟨.hbm, 159, rfl⟩
abbrev main_v110 : Ref sig .tc := ⟨.hbm, 160, rfl⟩
abbrev main_cst_24 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_25 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_26 : Ref sig .tc := ⟨.hbm, 169, rfl⟩
abbrev main_call5_v0 : Ref sig .tc := ⟨.hbm, 170, rfl⟩
abbrev main_call5_v1 : Ref sig .tc := ⟨.hbm, 171, rfl⟩
abbrev main_v117 : Ref sig .tc := ⟨.hbm, 172, rfl⟩
abbrev main_c_27 : Ref sig .tc := ⟨.hbm, 173, rfl⟩
abbrev main_v118 : Ref sig .tc := ⟨.hbm, 174, rfl⟩
abbrev main_v119 : Ref sig .tc := ⟨.hbm, 175, rfl⟩
abbrev main_c_28 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_c_29 : Ref sig .tc := ⟨.hbm, 182, rfl⟩
abbrev main_v125 : Ref sig .tc := ⟨.hbm, 183, rfl⟩
abbrev main_v126 : Ref sig .tc := ⟨.hbm, 184, rfl⟩
abbrev main_c_30 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_31 : Ref sig .tc := ⟨.hbm, 193, rfl⟩
abbrev main_v134 : Ref sig .tc := ⟨.hbm, 194, rfl⟩
abbrev main_v135 : Ref sig .tc := ⟨.hbm, 195, rfl⟩
abbrev main_c_32 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_cst_34 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_call6_cst : Ref sig .tc := ⟨.hbm, 220, rfl⟩
abbrev main_call6_v0 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KB.Reg0.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rF0 : Rect S400x128 := Rect.unit (s := S400x128) ![0, 0] S400x128.size inb_S400x128_S400x128_0_0
abbrev rI0 : Rect S400x1 := Rect.unit (s := S400x1) ![0, 0] S400x1.size inb_S400x1_S400x1_0_0
abbrev rB0 : Rect S1x128 := Rect.unit (s := S1x128) ![0, 0] S1x128.size inb_S1x128_S1x128_0_0
abbrev rA0 : Rect S20000x128 := Rect.unit (s := S20000x128) ![0, 0] S20000x128.size inb_S20000x128_S20000x128_0_0

def upd0 (i : grid0.Coords) (x1 : Vec F S400x1 .i32) (acc : Vec F S20000x128 .f32) (x0 : Vec F S400x128 .bf16) : Vec F S20000x128 .f32 :=
  k0_pay2 i (View.ld x1 rI0) (View.ld acc rA0) (View.ld x0 rF0)

def accAt0 (c : Dev nD) : (n : ℕ) → n < cfg0.N → Vec F S20000x128 .f32
  | 0, hn => upd0 (grid0.coords ⟨0, hn⟩) (iblk0 V c 1 ⟨0, hn⟩) (k0_pay1 (F := F)) (iblk0 V c 0 ⟨0, hn⟩)
  | n + 1, hn => upd0 (grid0.coords ⟨n + 1, hn⟩) (iblk0 V c 1 ⟨n + 1, hn⟩)
      (if (n + 1) % 4000 = 0 then k0_pay1 (F := F) else accAt0 c n (Nat.lt_of_succ_lt hn)) (iblk0 V c 0 ⟨n + 1, hn⟩)

theorem accAt0_first (c : Dev nD) (t : Fin cfg0.N) (h : t.val % 4000 = 0) :
    accAt0 V c t.val t.isLt = upd0 (grid0.coords t) (iblk0 V c 1 t) (k0_pay1 (F := F)) (iblk0 V c 0 t) := by
  obtain ⟨n, hn⟩ := t
  cases n with
  | zero => rfl
  | succ n => exact congrArg (fun a => upd0 (grid0.coords ⟨n + 1, hn⟩) (iblk0 V c 1 ⟨n + 1, hn⟩) a (iblk0 V c 0 ⟨n + 1, hn⟩)) (if_pos h)

theorem accAt0_next (c : Dev nD) (t : Fin cfg0.N) (h : ¬t.val % 4000 = 0) :
    accAt0 V c t.val t.isLt = upd0 (grid0.coords t) (iblk0 V c 1 t)
      (accAt0 V c (t.val - 1) (Nat.lt_of_le_of_lt (Nat.sub_le _ _) t.isLt)) (iblk0 V c 0 t) := by
  obtain ⟨n, hn⟩ := t
  cases n with
  | zero => exact absurd (Nat.zero_mod _) h
  | succ n => exact congrArg (fun a => upd0 (grid0.coords ⟨n + 1, hn⟩) (iblk0 V c 1 ⟨n + 1, hn⟩) a (iblk0 V c 0 ⟨n + 1, hn⟩)) (if_neg h)

def out0_3 (acc : Vec F S20000x128 .f32) (x2 : Vec F S1x128 .f32) : Vec F S20000x128 .f32 :=
  View.canon [⟨rA0, k0_pay3 (View.ld acc rA0) (View.ld x2 rB0)⟩]

abbrev scM0 : Memref sig .tc .vmem S20000x128 .f32 := Memref.whole cc0_scratch0

abbrev inv0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => inv0 c (owns (c : Thread nD τ) scM0 fullShare (accAt0 V c n hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (accAt0 V c t.val t.isLt) (iblk0 V c 2 t) := by dsimp only [dat0]

theorem share0 (c : Dev nD) : ∀ w, (dat0 V c).q w = fullShare := fun _ => rfl
theorem owed0 (c : Dev nD) : ∀ x, (dat0 V c).owed x = 0 := fun _ => rfl
theorem recorded0 (c : Dev nD) : ∀ t, (dat0 V c).recorded t = Set.univ := fun _ => rfl

abbrev cond0_1 (i : grid0.Coords) : Prop := (Scalar.cmpi .ne (Scalar.extui (Scalar.cmpi .eq (BitVec.ofNat 32 (i 1).val) 0#32)) 0#32) = 1#1

theorem hzA0 : (![0, 0] : Fin S20000x128.rank → Nat) = fun _ => 0 := funext fun a => by fin_cases a <;> rfl

theorem read_writes_last0 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA0, w⟩ :: L)) = w := by
  rw [View.read_writes_eq_canon v f _ (fun y => ⟨⟨rA0, w⟩, List.mem_cons_self, View.mem_set_unit_zero hzA0 inb_S20000x128_S20000x128_0_0 y⟩)]
  exact View.canon_cons_unit_zero hzA0 _ w L

-- Joins the two cases of the reset, so that one symbolic run of the body serves first and later steps alike.
theorem acc_read0 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA0, k0_pay1⟩] else f) = if b then k0_pay1 else xs := by
  by_cases h : b
  · rw [dif_pos h, if_pos h, read_writes_last0]
  · rw [dif_neg h, if_neg h, hd h]

set_option maxHeartbeats 1000000 in
theorem run0 (c : Dev nD) (E : Set ℕ) (i : grid0.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd0 i x1 (if cond0_1 i then k0_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond0_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k0_cond2 i = 1#1 then out0_3 a x2 else x3)
                ∗ owns (c : Thread nD τ) arg6 fullShare a) -∗ K ⟨⟩))
      ⊢ wp frame (wpE (defs₀ (F := F)) Variants.none c none) E (cc0__scatter_kernel i arg2 harg2 arg3 harg3 arg4 harg4 arg5 harg5 arg6 harg6) K := by
  subst ha
  simp only [cc0__scatter_kernel_eq_skeleton]; unfold cc0__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k0_cond2 i = 1#1
    · rw [dif_pos hc2, if_pos hc2, read_writes_last0]; unfold out0_3 upd0
      simp only [View.readAt_eq_ld, View.readCov_unit_zero (S := S20000x128) _ hzA0, View.ld_unit_zero (S := S20000x128) hzA0,
        View.canon_unit_zero (S := S20000x128) hzA0, acc_read0 _ _ _ _ hd]
    · rw [dif_neg hc2, if_neg hc2]
  iexists _; isplitr
  swap; · iexact H6
  ipureintro
  sl_unfold_run_names
  rw [read_writes_last0]; unfold upd0
  simp only [View.readAt_eq_ld, acc_read0 _ _ _ _ hd]

theorem coord0_1 (t : Fin cfg0.N) : ((grid0.coords t) 1).val = t.val % 4000 := by
  show t.val / grid0.stride 1 % 4000 = t.val % 4000
  rw [show grid0.stride 1 = 1 from by decide, Nat.div_one]

theorem ofNat32_inj0 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond0_1 (t : Fin cfg0.N) : cond0_1 (grid0.coords t) ↔ t.val % 4000 = 0 := by
  have hlt : ((grid0.coords t) 1).val < 4000 := ((grid0.coords t) 1).isLt
  unfold cond0_1
  rw [Scalar.guard_iff, Scalar.cmpi, IntOp.cmpi_eq, ofNat32_inj0 (by omega) (by omega), coord0_1]

theorem hcond0_2 (t : Fin cfg0.N) : k0_cond2 (grid0.coords t) = 1#1 ↔ t.val % 4000 = 3999 := by
  have hlt : ((grid0.coords t) 1).val < 4000 := ((grid0.coords t) 1).isLt
  unfold k0_cond2
  rw [Scalar.guard_iff, Scalar.cmpi, IntOp.cmpi_eq, ofNat32_inj0 (by omega) (by omega), coord0_1]

theorem idleAt0_3 (t : Fin cfg0.N) (h : ¬k0_cond2 (grid0.coords t) = 1#1) : cfg0.idle 3 (grid0.coords t) = true := by
  show (!(k0_cond2 (grid0.coords t) == 1#1)) = true
  rw [Bool.not_eq_true', beq_eq_false_iff_ne]; exact h

theorem liveAt0_3 (t : Fin cfg0.N) (h : k0_cond2 (grid0.coords t) = 1#1) : cfg0.idle 3 (grid0.coords t) = false := by
  show (!(k0_cond2 (grid0.coords t) == 1#1)) = false
  rw [Bool.not_eq_false', beq_iff_eq]; exact h

theorem coord0_0 (t : Fin cfg0.N) : ((grid0.coords t) 0).val = t.val / 4000 := by
  show t.val / grid0.stride 0 % grid0.bound 0 = t.val / 4000
  rw [show grid0.stride 0 = 4000 from by decide]
  exact Nat.mod_eq_of_lt (Nat.div_lt_of_lt_mul (lt_of_lt_of_eq t.isLt (show cfg0.N = 4000 * grid0.bound 0 from by decide)))

theorem index0_3 (t : Fin cfg0.N) : (cfg0.win 3).index t = ![t.val / 4000, 0] := by
  have ht : t.val < 20000 := lt_of_lt_of_eq t.isLt (show cfg0.N = 20000 from N_0)
  show cc0_transform_3 (grid0.coords t) = _
  unfold cc0_transform_3
  dsimp only
  rw [BitVec.toNat_ofNat, coord0_0, Nat.mod_eq_of_lt (show t.val / 4000 < 2 ^ 32 by omega)]
  rfl

theorem flushH0_3 (t : Fin cfg0.N) : (cfg0.win 3).flush t = true ↔ t.val % 4000 = 3999 := by
  have hN : cfg0.N = 20000 := N_0
  have ht : t.val < 20000 := lt_of_lt_of_eq t.isLt hN
  rw [(cfg0.win 3).flush_out rfl]
  constructor
  · rintro (h | ⟨h, hne⟩)
    · have h' : t.val + 1 = 20000 := h.trans hN
      omega
    · by_contra hc
      apply hne
      rw [index0_3, index0_3]
      have e : (t.val + 1) / 4000 = t.val / 4000 := by omega
      show ![(t.val + 1) / 4000, 0] = ![t.val / 4000, 0]
      rw [e]
  · intro h
    by_cases hl : t.val + 1 = 20000
    · exact .inl (hl.trans hN.symm)
    · refine .inr ⟨lt_of_lt_of_eq (show t.val + 1 < 20000 by omega) hN.symm, fun he => ?_⟩
      rw [index0_3, index0_3] at he
      have e0 := congrFun he 0
      have e1 : (t.val + 1) / 4000 = t.val / 4000 := e0
      omega

abbrev bodyAtH0 (t : Fin cfg0.N) : Prog (TpuEff nD τ sig (Elt F) Λ₀ .tc) PUnit :=
  cc0__scatter_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

theorem accAt0_step (c : Dev nD) (t : Fin cfg0.N) :
    accAt0 V c t.val t.isLt = upd0 (grid0.coords t) (iblk0 V c 1 t)
      (if cond0_1 (grid0.coords t) then k0_pay1 (F := F) else accAt0 V c (t.val - 1) (Nat.lt_of_le_of_lt (Nat.sub_le _ _) t.isLt)) (iblk0 V c 0 t) := by
  by_cases h : t.val % 4000 = 0
  · rw [if_pos ((hcond0_1 t).mpr h), accAt0_first V c t h]
  · rw [if_neg (mt (hcond0_1 t).mp h), accAt0_next V c t h]

theorem PhiS0_castSucc (c : Dev nD) (t : Fin cfg0.N) :
    (dat0 V c).Φ t.castSucc = PhiS0 V c t.val (Nat.le_of_lt t.isLt) := by
  dsimp only [dat0]; simp only [Fin.coe_castSucc]

theorem PhiA0_eq (c : Dev nD) :
    (Pipeline.ΦA spec0 c : sProp 𝕄) = inv0 c iprop(∃ d, owns (c : Thread nD τ) scM0 fullShare d) := by
  unfold Pipeline.ΦA; rw [scopedRest0_split]; simp only [scM0, owns_whole]; try rfl

-- At the very first point nothing is known of the accumulator, and nothing is needed: a first step resets it.
theorem Phi0_open (c : Dev nD) (t : Fin cfg0.N) :
    (dat0 V c).Φ t.castSucc ⊢ inv0 c iprop(∃ d, ⌜¬cond0_1 (grid0.coords t) →
      d = accAt0 V c (t.val - 1) (Nat.lt_of_le_of_lt (Nat.sub_le _ _) t.isLt)⌝ ∗ owns (c : Thread nD τ) scM0 fullShare d) := by
  rw [PhiS0_castSucc]
  obtain ⟨n, hn⟩ := t
  cases n with
  | zero =>
    show Pipeline.ΦA spec0 c ⊢ _
    rw [PhiA0_eq]
    refine sep_mono_left (sep_mono_left ?_)
    iintro ⟨%d, H⟩
    iexists d; isplitr
    · ipureintro; exact fun h => absurd ((hcond0_1 ⟨0, hn⟩).mpr (Nat.zero_mod _)) h
    iexact H
  | succ n =>
    show inv0 c _ ⊢ _
    refine sep_mono_left (sep_mono_left ?_)
    iintro H
    iexists _; isplitr
    swap; · iexact H
    ipureintro; exact fun _ => rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

abbrev ms0_0 (t : Fin cfg0.N) : Memref sig .tc .vmem S400x128 .bf16 := win0_0.stage (cfg0.slots t 0)
abbrev ms0_1 (t : Fin cfg0.N) : Memref sig .tc .vmem S400x1 .i32 := win0_1.stage (cfg0.slots t 1)
abbrev ms0_2 (t : Fin cfg0.N) : Memref sig .tc .vmem S1x128 .f32 := win0_2.stage (cfg0.slots t 2)
abbrev ms0_3 (t : Fin cfg0.N) : Memref sig .tc .vmem S20000x128 .f32 := win0_3.stage (cfg0.slots t 3)

theorem leaves0_3 (c : Dev nD) (t : Fin cfg0.N) (d) :
    owns (c : Thread nD τ) (ms0_3 t) fullShare
        (if k0_cond2 (grid0.coords t) = 1#1 then out0_3 (accAt0 V c t.val t.isLt) (iblk0 V c 2 t) else (dat0 V c).before 3 t d)
      ⊢ (dat0 V c).leavesExact 3 t := by
  by_cases h : k0_cond2 (grid0.coords t) = 1#1
  · rewrite [if_pos h, ← after0_3 V c t]
    unfold Dat.leavesExact
    rewrite [liveAt0_3 t h]
    exact .rfl
  · rewrite [if_neg h, Dat.leavesExact_idle (dat0 V c) 3 t (idleAt0_3 t h)
      (by rw [← Bool.not_eq_true]; exact fun hf => h ((hcond0_2 t).mpr ((flushH0_3 t).mp hf)))]
    iintro H; iexists d; iexact H

set_option maxHeartbeats 4800000 in
theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAtH0 t) (fun _ =>
      iprop(inv0 c (owns (c : Thread nD τ) scM0 fullShare (accAt0 V c t.val t.isLt)) ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ (dat0 V c).leavesExact 3 t)) := by
  unfold bodyAtH0
  simp only [before0_0, before0_1, before0_2]
  refine (sep_mono_left (Phi0_open V c t)).trans ?_
  iintro ⟨⟨⟨HS, HR⟩, Hg⟩, Ho, ⟨%d0, H0⟩, ⟨%d1, H1⟩, ⟨%d2, H2⟩, ⟨%d3, H3⟩⟩
  iapply (run0 c Set.univ (grid0.coords t) _ _ _ _ _ _ _ _ _ _ (iblk0 V c 0 t) (iblk0 V c 1 t) (iblk0 V c 2 t) ((dat0 V c).before 3 t d3) _ _ (accAt0_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves0_3 V c t d3)
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem Phi_out0 (c : Dev nD) : ∀ (n : ℕ) (h : n ≤ cfg0.N), n ≠ 0 → PhiS0 V c n h ⊢ Pipeline.ΦA spec0 c
  | 0, _, hz => absurd rfl hz
  | n + 1, h, _ => by
    rw [PhiA0_eq]
    show inv0 c _ ⊢ _
    refine sep_mono_left (sep_mono_left ?_)
    iintro H; iexists _; iexact H

theorem hout0 (c : Dev nD) : (dat0 V c).Φ (Fin.last cfg0.N) ⊢ Pipeline.ΦA spec0 c :=
  Phi_out0 V c cfg0.N (Nat.le_refl _) (by have : cfg0.N = 20000 := N_0; omega)

end Cert.Kernel.Hand

end
-- ==== Proof.KB.Reg1.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "SHx" => S10000x128
local notation "SHw" => S128x128
local notation "SHb" => S1x128
local notation "SHo" => S10000x128
local notation "INBx" => inb_S10000x128_S10000x128_0_0
local notation "INBw" => inb_S128x128_S128x128_0_0
local notation "INBb" => inb_S1x128_S1x128_0_0
local notation "INBo" => inb_S10000x128_S10000x128_0_0

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 := Rect.unit (s := SHx) _ _ INBx
abbrev r1_1 := Rect.unit (s := SHw) _ _ INBw
abbrev r1_2 := Rect.unit (s := SHb) _ _ INBb
abbrev r1_o := Rect.unit (s := SHo) _ _ INBo

def out1_3 (x0 : Vec F SHx .f32) (x1 : Vec F SHw .f32) (x2 : Vec F SHb .f32) : Vec F SHo .f32 :=
  View.canon [⟨r1_o, k1_pay1 (View.ld x0 r1_0) (View.ld x1 r1_1) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) (iblk1 V c 2 t) := by dsimp only [dat1]

theorem share1 (c : Dev nD) : ∀ w, (dat1 V c).q w = fullShare := fun _ => rfl
theorem owed1 (c : Dev nD) : ∀ x, (dat1 V c).owed x = 0 := fun _ => rfl
theorem recorded1 (c : Dev nD) : ∀ t, (dat1 V c).recorded t = Set.univ := fun _ => rfl

theorem hin1 (c : Dev nD) : Pipeline.ΦA spec1 c ⊢ (dat1 V c).Φ 0 := Entails.refl _
theorem hout1 (c : Dev nD) : (dat1 V c).Φ (Fin.last cfg1.N) ⊢ Pipeline.ΦA spec1 c := Entails.refl _

theorem before1 (c : Dev nD) : ∀ w, (cfg1.win w).isOut = false → ∀ t d, (dat1 V c).before w t d = (dat1 V c).after w t
  | 0, h | 1, h | 2, h => (dat1 V c).before_in_eq_fetched _ h (fun _ => rfl) (fun _ _ _ => rfl) fun _ => rfl
  | 3, h => nomatch h

-- The store's rectangle is the whole output shape, so what it leaves reads as `out1_3` of the blocks read, whatever was there before.
theorem body_obligation1 (c : Dev nD) : BodyObligation (dat1 (F := F) V c) (defs₀ (F := F)) Variants.none () Set.univ := fun t => by
  rw [bigSep_W1, bigSep_W1]
  sl_whnfR [defs₀, Defs.onTc]
  sl_unfold [cc1__dense_kernel]
  simp (disch := rfl) only [before1]
  unfold owns
  dsimp only [dat1, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.Kernel.Hand

end
-- ==== Proof.KB.Reg2.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rF2 : Rect S400x128 := Rect.unit (s := S400x128) ![0, 0] S400x128.size inb_S400x128_S400x128_0_0
abbrev rI2 : Rect S400x1 := Rect.unit (s := S400x1) ![0, 0] S400x1.size inb_S400x1_S400x1_0_0
abbrev rB2 : Rect S1x128 := Rect.unit (s := S1x128) ![0, 0] S1x128.size inb_S1x128_S1x128_0_0
abbrev rA2 : Rect S20000x128 := Rect.unit (s := S20000x128) ![0, 0] S20000x128.size inb_S20000x128_S20000x128_0_0

def upd2 (i : grid2.Coords) (x1 : Vec F S400x1 .i32) (acc : Vec F S20000x128 .f32) (x0 : Vec F S400x128 .bf16) : Vec F S20000x128 .f32 :=
  k2_pay2 i (View.ld x1 rI2) (View.ld acc rA2) (View.ld x0 rF2)

def accAt2 (c : Dev nD) : (n : ℕ) → n < cfg2.N → Vec F S20000x128 .f32
  | 0, hn => upd2 (grid2.coords ⟨0, hn⟩) (iblk2 V c 1 ⟨0, hn⟩) (k2_pay1 (F := F)) (iblk2 V c 0 ⟨0, hn⟩)
  | n + 1, hn => upd2 (grid2.coords ⟨n + 1, hn⟩) (iblk2 V c 1 ⟨n + 1, hn⟩)
      (if (n + 1) % 4250 = 0 then k2_pay1 (F := F) else accAt2 c n (Nat.lt_of_succ_lt hn)) (iblk2 V c 0 ⟨n + 1, hn⟩)

theorem accAt2_first (c : Dev nD) (t : Fin cfg2.N) (h : t.val % 4250 = 0) :
    accAt2 V c t.val t.isLt = upd2 (grid2.coords t) (iblk2 V c 1 t) (k2_pay1 (F := F)) (iblk2 V c 0 t) := by
  obtain ⟨n, hn⟩ := t
  cases n with
  | zero => rfl
  | succ n => exact congrArg (fun a => upd2 (grid2.coords ⟨n + 1, hn⟩) (iblk2 V c 1 ⟨n + 1, hn⟩) a (iblk2 V c 0 ⟨n + 1, hn⟩)) (if_pos h)

theorem accAt2_next (c : Dev nD) (t : Fin cfg2.N) (h : ¬t.val % 4250 = 0) :
    accAt2 V c t.val t.isLt = upd2 (grid2.coords t) (iblk2 V c 1 t)
      (accAt2 V c (t.val - 1) (Nat.lt_of_le_of_lt (Nat.sub_le _ _) t.isLt)) (iblk2 V c 0 t) := by
  obtain ⟨n, hn⟩ := t
  cases n with
  | zero => exact absurd (Nat.zero_mod _) h
  | succ n => exact congrArg (fun a => upd2 (grid2.coords ⟨n + 1, hn⟩) (iblk2 V c 1 ⟨n + 1, hn⟩) a (iblk2 V c 0 ⟨n + 1, hn⟩)) (if_neg h)

def out2_3 (acc : Vec F S20000x128 .f32) (x2 : Vec F S1x128 .f32) : Vec F S20000x128 .f32 :=
  View.canon [⟨rA2, k2_pay3 (View.ld acc rA2) (View.ld x2 rB2)⟩]

abbrev scM2 : Memref sig .tc .vmem S20000x128 .f32 := Memref.whole cc2_scratch0

abbrev inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

def PhiS2 (c : Dev nD) : (n : ℕ) → n ≤ cfg2.N → sProp 𝕄
  | 0, _ => Pipeline.ΦA spec2 c
  | n + 1, hn => inv2 c (owns (c : Thread nD τ) scM2 fullShare (accAt2 V c n hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (accAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (accAt2 V c t.val t.isLt) (iblk2 V c 2 t) := by dsimp only [dat2]

theorem share2 (c : Dev nD) : ∀ w, (dat2 V c).q w = fullShare := fun _ => rfl
theorem owed2 (c : Dev nD) : ∀ x, (dat2 V c).owed x = 0 := fun _ => rfl
theorem recorded2 (c : Dev nD) : ∀ t, (dat2 V c).recorded t = Set.univ := fun _ => rfl

abbrev cond2_1 (i : grid2.Coords) : Prop := (Scalar.cmpi .ne (Scalar.extui (Scalar.cmpi .eq (BitVec.ofNat 32 (i 1).val) 0#32)) 0#32) = 1#1

theorem hzA2 : (![0, 0] : Fin S20000x128.rank → Nat) = fun _ => 0 := funext fun a => by fin_cases a <;> rfl

theorem read_writes_last2 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA2, w⟩ :: L)) = w := by
  rw [View.read_writes_eq_canon v f _ (fun y => ⟨⟨rA2, w⟩, List.mem_cons_self, View.mem_set_unit_zero hzA2 inb_S20000x128_S20000x128_0_0 y⟩)]
  exact View.canon_cons_unit_zero hzA2 _ w L

-- Joins the two cases of the reset, so that one symbolic run of the body serves first and later steps alike.
theorem acc_read2 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA2, k2_pay1⟩] else f) = if b then k2_pay1 else xs := by
  by_cases h : b
  · rw [dif_pos h, if_pos h, read_writes_last2]
  · rw [dif_neg h, if_neg h, hd h]

set_option maxHeartbeats 1000000 in
theorem run2 (c : Dev nD) (E : Set ℕ) (i : grid2.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd2 i x1 (if cond2_1 i then k2_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond2_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k2_cond2 i = 1#1 then out2_3 a x2 else x3)
                ∗ owns (c : Thread nD τ) arg6 fullShare a) -∗ K ⟨⟩))
      ⊢ wp frame (wpE (defs₀ (F := F)) Variants.none c none) E (cc2__scatter_kernel i arg2 harg2 arg3 harg3 arg4 harg4 arg5 harg5 arg6 harg6) K := by
  subst ha
  simp only [cc2__scatter_kernel_eq_skeleton]; unfold cc2__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k2_cond2 i = 1#1
    · rw [dif_pos hc2, if_pos hc2, read_writes_last2]; unfold out2_3 upd2
      simp only [View.readAt_eq_ld, View.readCov_unit_zero (S := S20000x128) _ hzA2, View.ld_unit_zero (S := S20000x128) hzA2,
        View.canon_unit_zero (S := S20000x128) hzA2, acc_read2 _ _ _ _ hd]
    · rw [dif_neg hc2, if_neg hc2]
  iexists _; isplitr
  swap; · iexact H6
  ipureintro
  sl_unfold_run_names
  rw [read_writes_last2]; unfold upd2
  simp only [View.readAt_eq_ld, acc_read2 _ _ _ _ hd]

theorem coord2_1 (t : Fin cfg2.N) : ((grid2.coords t) 1).val = t.val % 4250 := by
  show t.val / grid2.stride 1 % 4250 = t.val % 4250
  rw [show grid2.stride 1 = 1 from by decide, Nat.div_one]

theorem ofNat32_inj2 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond2_1 (t : Fin cfg2.N) : cond2_1 (grid2.coords t) ↔ t.val % 4250 = 0 := by
  have hlt : ((grid2.coords t) 1).val < 4250 := ((grid2.coords t) 1).isLt
  unfold cond2_1
  rw [Scalar.guard_iff, Scalar.cmpi, IntOp.cmpi_eq, ofNat32_inj2 (by omega) (by omega), coord2_1]

theorem hcond2_2 (t : Fin cfg2.N) : k2_cond2 (grid2.coords t) = 1#1 ↔ t.val % 4250 = 4249 := by
  have hlt : ((grid2.coords t) 1).val < 4250 := ((grid2.coords t) 1).isLt
  unfold k2_cond2
  rw [Scalar.guard_iff, Scalar.cmpi, IntOp.cmpi_eq, ofNat32_inj2 (by omega) (by omega), coord2_1]

theorem idleAt2_3 (t : Fin cfg2.N) (h : ¬k2_cond2 (grid2.coords t) = 1#1) : cfg2.idle 3 (grid2.coords t) = true := by
  show (!(k2_cond2 (grid2.coords t) == 1#1)) = true
  rw [Bool.not_eq_true', beq_eq_false_iff_ne]; exact h

theorem liveAt2_3 (t : Fin cfg2.N) (h : k2_cond2 (grid2.coords t) = 1#1) : cfg2.idle 3 (grid2.coords t) = false := by
  show (!(k2_cond2 (grid2.coords t) == 1#1)) = false
  rw [Bool.not_eq_false', beq_iff_eq]; exact h

theorem coord2_0 (t : Fin cfg2.N) : ((grid2.coords t) 0).val = t.val / 4250 := by
  show t.val / grid2.stride 0 % grid2.bound 0 = t.val / 4250
  rw [show grid2.stride 0 = 4250 from by decide]
  exact Nat.mod_eq_of_lt (Nat.div_lt_of_lt_mul (lt_of_lt_of_eq t.isLt (show cfg2.N = 4250 * grid2.bound 0 from by decide)))

theorem index2_3 (t : Fin cfg2.N) : (cfg2.win 3).index t = ![t.val / 4250, 0] := by
  have ht : t.val < 21250 := lt_of_lt_of_eq t.isLt (show cfg2.N = 21250 from N_2)
  show cc2_transform_3 (grid2.coords t) = _
  unfold cc2_transform_3
  dsimp only
  rw [BitVec.toNat_ofNat, coord2_0, Nat.mod_eq_of_lt (show t.val / 4250 < 2 ^ 32 by omega)]
  rfl

theorem flushH2_3 (t : Fin cfg2.N) : (cfg2.win 3).flush t = true ↔ t.val % 4250 = 4249 := by
  have hN : cfg2.N = 21250 := N_2
  have ht : t.val < 21250 := lt_of_lt_of_eq t.isLt hN
  rw [(cfg2.win 3).flush_out rfl]
  constructor
  · rintro (h | ⟨h, hne⟩)
    · have h' : t.val + 1 = 21250 := h.trans hN
      omega
    · by_contra hc
      apply hne
      rw [index2_3, index2_3]
      have e : (t.val + 1) / 4250 = t.val / 4250 := by omega
      show ![(t.val + 1) / 4250, 0] = ![t.val / 4250, 0]
      rw [e]
  · intro h
    by_cases hl : t.val + 1 = 21250
    · exact .inl (hl.trans hN.symm)
    · refine .inr ⟨lt_of_lt_of_eq (show t.val + 1 < 21250 by omega) hN.symm, fun he => ?_⟩
      rw [index2_3, index2_3] at he
      have e0 := congrFun he 0
      have e1 : (t.val + 1) / 4250 = t.val / 4250 := e0
      omega

abbrev bodyAtH2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

theorem accAt2_step (c : Dev nD) (t : Fin cfg2.N) :
    accAt2 V c t.val t.isLt = upd2 (grid2.coords t) (iblk2 V c 1 t)
      (if cond2_1 (grid2.coords t) then k2_pay1 (F := F) else accAt2 V c (t.val - 1) (Nat.lt_of_le_of_lt (Nat.sub_le _ _) t.isLt)) (iblk2 V c 0 t) := by
  by_cases h : t.val % 4250 = 0
  · rw [if_pos ((hcond2_1 t).mpr h), accAt2_first V c t h]
  · rw [if_neg (mt (hcond2_1 t).mp h), accAt2_next V c t h]

theorem PhiS2_castSucc (c : Dev nD) (t : Fin cfg2.N) :
    (dat2 V c).Φ t.castSucc = PhiS2 V c t.val (Nat.le_of_lt t.isLt) := by
  dsimp only [dat2]; simp only [Fin.coe_castSucc]

theorem PhiA2_eq (c : Dev nD) :
    (Pipeline.ΦA spec2 c : sProp 𝕄) = inv2 c iprop(∃ d, owns (c : Thread nD τ) scM2 fullShare d) := by
  unfold Pipeline.ΦA; rw [scopedRest2_split]; simp only [scM2, owns_whole]; try rfl

-- At the very first point nothing is known of the accumulator, and nothing is needed: a first step resets it.
theorem Phi2_open (c : Dev nD) (t : Fin cfg2.N) :
    (dat2 V c).Φ t.castSucc ⊢ inv2 c iprop(∃ d, ⌜¬cond2_1 (grid2.coords t) →
      d = accAt2 V c (t.val - 1) (Nat.lt_of_le_of_lt (Nat.sub_le _ _) t.isLt)⌝ ∗ owns (c : Thread nD τ) scM2 fullShare d) := by
  rw [PhiS2_castSucc]
  obtain ⟨n, hn⟩ := t
  cases n with
  | zero =>
    show Pipeline.ΦA spec2 c ⊢ _
    rw [PhiA2_eq]
    refine sep_mono_left (sep_mono_left ?_)
    iintro ⟨%d, H⟩
    iexists d; isplitr
    · ipureintro; exact fun h => absurd ((hcond2_1 ⟨0, hn⟩).mpr (Nat.zero_mod _)) h
    iexact H
  | succ n =>
    show inv2 c _ ⊢ _
    refine sep_mono_left (sep_mono_left ?_)
    iintro H
    iexists _; isplitr
    swap; · iexact H
    ipureintro; exact fun _ => rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

abbrev ms2_0 (t : Fin cfg2.N) : Memref sig .tc .vmem S400x128 .bf16 := win2_0.stage (cfg2.slots t 0)
abbrev ms2_1 (t : Fin cfg2.N) : Memref sig .tc .vmem S400x1 .i32 := win2_1.stage (cfg2.slots t 1)
abbrev ms2_2 (t : Fin cfg2.N) : Memref sig .tc .vmem S1x128 .f32 := win2_2.stage (cfg2.slots t 2)
abbrev ms2_3 (t : Fin cfg2.N) : Memref sig .tc .vmem S20000x128 .f32 := win2_3.stage (cfg2.slots t 3)

theorem leaves2_3 (c : Dev nD) (t : Fin cfg2.N) (d) :
    owns (c : Thread nD τ) (ms2_3 t) fullShare
        (if k2_cond2 (grid2.coords t) = 1#1 then out2_3 (accAt2 V c t.val t.isLt) (iblk2 V c 2 t) else (dat2 V c).before 3 t d)
      ⊢ (dat2 V c).leavesExact 3 t := by
  by_cases h : k2_cond2 (grid2.coords t) = 1#1
  · rewrite [if_pos h, ← after2_3 V c t]
    unfold Dat.leavesExact
    rewrite [liveAt2_3 t h]
    exact .rfl
  · rewrite [if_neg h, Dat.leavesExact_idle (dat2 V c) 3 t (idleAt2_3 t h)
      (by rw [← Bool.not_eq_true]; exact fun hf => h ((hcond2_2 t).mpr ((flushH2_3 t).mp hf)))]
    iintro H; iexists d; iexact H

set_option maxHeartbeats 4800000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAtH2 t) (fun _ =>
      iprop(inv2 c (owns (c : Thread nD τ) scM2 fullShare (accAt2 V c t.val t.isLt)) ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t)) := by
  unfold bodyAtH2
  simp only [before2_0, before2_1, before2_2]
  refine (sep_mono_left (Phi2_open V c t)).trans ?_
  iintro ⟨⟨⟨HS, HR⟩, Hg⟩, Ho, ⟨%d0, H0⟩, ⟨%d1, H1⟩, ⟨%d2, H2⟩, ⟨%d3, H3⟩⟩
  iapply (run2 c Set.univ (grid2.coords t) _ _ _ _ _ _ _ _ _ _ (iblk2 V c 0 t) (iblk2 V c 1 t) (iblk2 V c 2 t) ((dat2 V c).before 3 t d3) _ _ (accAt2_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves2_3 V c t d3)
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem Phi_out2 (c : Dev nD) : ∀ (n : ℕ) (h : n ≤ cfg2.N), n ≠ 0 → PhiS2 V c n h ⊢ Pipeline.ΦA spec2 c
  | 0, _, hz => absurd rfl hz
  | n + 1, h, _ => by
    rw [PhiA2_eq]
    show inv2 c _ ⊢ _
    refine sep_mono_left (sep_mono_left ?_)
    iintro H; iexists _; iexact H

theorem hout2 (c : Dev nD) : (dat2 V c).Φ (Fin.last cfg2.N) ⊢ Pipeline.ΦA spec2 c :=
  Phi_out2 V c cfg2.N (Nat.le_refl _) (by have : cfg2.N = 21250 := N_2; omega)

end Cert.Kernel.Hand

end
-- ==== Proof.KB.Reg3.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "SHx" => S10000x128
local notation "SHw" => S128x128
local notation "SHb" => S1x128
local notation "SHo" => S10000x128
local notation "INBx" => inb_S10000x128_S10000x128_0_0
local notation "INBw" => inb_S128x128_S128x128_0_0
local notation "INBb" => inb_S1x128_S1x128_0_0
local notation "INBo" => inb_S10000x128_S10000x128_0_0

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 := Rect.unit (s := SHx) _ _ INBx
abbrev r3_1 := Rect.unit (s := SHw) _ _ INBw
abbrev r3_2 := Rect.unit (s := SHb) _ _ INBb
abbrev r3_o := Rect.unit (s := SHo) _ _ INBo

def out3_3 (x0 : Vec F SHx .f32) (x1 : Vec F SHw .f32) (x2 : Vec F SHb .f32) : Vec F SHo .f32 :=
  View.canon [⟨r3_o, k3_pay1 (View.ld x0 r3_0) (View.ld x1 r3_1) (View.ld x2 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (iblk3 V c 0 t) (iblk3 V c 1 t) (iblk3 V c 2 t) := by dsimp only [dat3]

theorem share3 (c : Dev nD) : ∀ w, (dat3 V c).q w = fullShare := fun _ => rfl
theorem owed3 (c : Dev nD) : ∀ x, (dat3 V c).owed x = 0 := fun _ => rfl
theorem recorded3 (c : Dev nD) : ∀ t, (dat3 V c).recorded t = Set.univ := fun _ => rfl

theorem hin3 (c : Dev nD) : Pipeline.ΦA spec3 c ⊢ (dat3 V c).Φ 0 := Entails.refl _
theorem hout3 (c : Dev nD) : (dat3 V c).Φ (Fin.last cfg3.N) ⊢ Pipeline.ΦA spec3 c := Entails.refl _

theorem before3 (c : Dev nD) : ∀ w, (cfg3.win w).isOut = false → ∀ t d, (dat3 V c).before w t d = (dat3 V c).after w t
  | 0, h | 1, h | 2, h => (dat3 V c).before_in_eq_fetched _ h (fun _ => rfl) (fun _ _ _ => rfl) fun _ => rfl
  | 3, h => nomatch h

-- The store's rectangle is the whole output shape, so what it leaves reads as `out3_3` of the blocks read, whatever was there before.
theorem body_obligation3 (c : Dev nD) : BodyObligation (dat3 (F := F) V c) (defs₀ (F := F)) Variants.none () Set.univ := fun t => by
  rw [bigSep_W3, bigSep_W3]
  sl_whnfR [defs₀, Defs.onTc]
  sl_unfold [cc3__dense_kernel]
  simp (disch := rfl) only [before3]
  unfold owns
  dsimp only [dat3, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.Kernel.Hand

end
-- ==== Proof.KB.Reg4.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rF4 : Rect S400x128 := Rect.unit (s := S400x128) ![0, 0] S400x128.size inb_S400x128_S400x128_0_0
abbrev rI4 : Rect S400x1 := Rect.unit (s := S400x1) ![0, 0] S400x1.size inb_S400x1_S400x1_0_0
abbrev rB4 : Rect S1x128 := Rect.unit (s := S1x128) ![0, 0] S1x128.size inb_S1x128_S1x128_0_0
abbrev rA4 : Rect S20000x128 := Rect.unit (s := S20000x128) ![0, 0] S20000x128.size inb_S20000x128_S20000x128_0_0

def upd4 (i : grid4.Coords) (x1 : Vec F S400x1 .i32) (acc : Vec F S20000x128 .f32) (x0 : Vec F S400x128 .bf16) : Vec F S20000x128 .f32 :=
  k4_pay2 i (View.ld x1 rI4) (View.ld acc rA4) (View.ld x0 rF4)

def accAt4 (c : Dev nD) : (n : ℕ) → n < cfg4.N → Vec F S20000x128 .f32
  | 0, hn => upd4 (grid4.coords ⟨0, hn⟩) (iblk4 V c 1 ⟨0, hn⟩) (k4_pay1 (F := F)) (iblk4 V c 0 ⟨0, hn⟩)
  | n + 1, hn => upd4 (grid4.coords ⟨n + 1, hn⟩) (iblk4 V c 1 ⟨n + 1, hn⟩)
      (if (n + 1) % 4250 = 0 then k4_pay1 (F := F) else accAt4 c n (Nat.lt_of_succ_lt hn)) (iblk4 V c 0 ⟨n + 1, hn⟩)

theorem accAt4_first (c : Dev nD) (t : Fin cfg4.N) (h : t.val % 4250 = 0) :
    accAt4 V c t.val t.isLt = upd4 (grid4.coords t) (iblk4 V c 1 t) (k4_pay1 (F := F)) (iblk4 V c 0 t) := by
  obtain ⟨n, hn⟩ := t
  cases n with
  | zero => rfl
  | succ n => exact congrArg (fun a => upd4 (grid4.coords ⟨n + 1, hn⟩) (iblk4 V c 1 ⟨n + 1, hn⟩) a (iblk4 V c 0 ⟨n + 1, hn⟩)) (if_pos h)

theorem accAt4_next (c : Dev nD) (t : Fin cfg4.N) (h : ¬t.val % 4250 = 0) :
    accAt4 V c t.val t.isLt = upd4 (grid4.coords t) (iblk4 V c 1 t)
      (accAt4 V c (t.val - 1) (Nat.lt_of_le_of_lt (Nat.sub_le _ _) t.isLt)) (iblk4 V c 0 t) := by
  obtain ⟨n, hn⟩ := t
  cases n with
  | zero => exact absurd (Nat.zero_mod _) h
  | succ n => exact congrArg (fun a => upd4 (grid4.coords ⟨n + 1, hn⟩) (iblk4 V c 1 ⟨n + 1, hn⟩) a (iblk4 V c 0 ⟨n + 1, hn⟩)) (if_neg h)

def out4_3 (acc : Vec F S20000x128 .f32) (x2 : Vec F S1x128 .f32) : Vec F S20000x128 .f32 :=
  View.canon [⟨rA4, k4_pay3 (View.ld acc rA4) (View.ld x2 rB4)⟩]

abbrev scM4 : Memref sig .tc .vmem S20000x128 .f32 := Memref.whole cc4_scratch0

abbrev inv4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

def PhiS4 (c : Dev nD) : (n : ℕ) → n ≤ cfg4.N → sProp 𝕄
  | 0, _ => Pipeline.ΦA spec4 c
  | n + 1, hn => inv4 c (owns (c : Thread nD τ) scM4 fullShare (accAt4 V c n hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (accAt4 V c t.val t.isLt) (iblk4 V c 2 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (accAt4 V c t.val t.isLt) (iblk4 V c 2 t) := by dsimp only [dat4]

theorem share4 (c : Dev nD) : ∀ w, (dat4 V c).q w = fullShare := fun _ => rfl
theorem owed4 (c : Dev nD) : ∀ x, (dat4 V c).owed x = 0 := fun _ => rfl
theorem recorded4 (c : Dev nD) : ∀ t, (dat4 V c).recorded t = Set.univ := fun _ => rfl

abbrev cond4_1 (i : grid4.Coords) : Prop := (Scalar.cmpi .ne (Scalar.extui (Scalar.cmpi .eq (BitVec.ofNat 32 (i 1).val) 0#32)) 0#32) = 1#1

theorem hzA4 : (![0, 0] : Fin S20000x128.rank → Nat) = fun _ => 0 := funext fun a => by fin_cases a <;> rfl

theorem read_writes_last4 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA4, w⟩ :: L)) = w := by
  rw [View.read_writes_eq_canon v f _ (fun y => ⟨⟨rA4, w⟩, List.mem_cons_self, View.mem_set_unit_zero hzA4 inb_S20000x128_S20000x128_0_0 y⟩)]
  exact View.canon_cons_unit_zero hzA4 _ w L

-- Joins the two cases of the reset, so that one symbolic run of the body serves first and later steps alike.
theorem acc_read4 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA4, k4_pay1⟩] else f) = if b then k4_pay1 else xs := by
  by_cases h : b
  · rw [dif_pos h, if_pos h, read_writes_last4]
  · rw [dif_neg h, if_neg h, hd h]

set_option maxHeartbeats 1000000 in
theorem run4 (c : Dev nD) (E : Set ℕ) (i : grid4.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd4 i x1 (if cond4_1 i then k4_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond4_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k4_cond2 i = 1#1 then out4_3 a x2 else x3)
                ∗ owns (c : Thread nD τ) arg6 fullShare a) -∗ K ⟨⟩))
      ⊢ wp frame (wpE (defs₀ (F := F)) Variants.none c none) E (cc4__scatter_kernel i arg2 harg2 arg3 harg3 arg4 harg4 arg5 harg5 arg6 harg6) K := by
  subst ha
  simp only [cc4__scatter_kernel_eq_skeleton]; unfold cc4__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k4_cond2 i = 1#1
    · rw [dif_pos hc2, if_pos hc2, read_writes_last4]; unfold out4_3 upd4
      simp only [View.readAt_eq_ld, View.readCov_unit_zero (S := S20000x128) _ hzA4, View.ld_unit_zero (S := S20000x128) hzA4,
        View.canon_unit_zero (S := S20000x128) hzA4, acc_read4 _ _ _ _ hd]
    · rw [dif_neg hc2, if_neg hc2]
  iexists _; isplitr
  swap; · iexact H6
  ipureintro
  sl_unfold_run_names
  rw [read_writes_last4]; unfold upd4
  simp only [View.readAt_eq_ld, acc_read4 _ _ _ _ hd]

theorem coord4_1 (t : Fin cfg4.N) : ((grid4.coords t) 1).val = t.val % 4250 := by
  show t.val / grid4.stride 1 % 4250 = t.val % 4250
  rw [show grid4.stride 1 = 1 from by decide, Nat.div_one]

theorem ofNat32_inj4 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond4_1 (t : Fin cfg4.N) : cond4_1 (grid4.coords t) ↔ t.val % 4250 = 0 := by
  have hlt : ((grid4.coords t) 1).val < 4250 := ((grid4.coords t) 1).isLt
  unfold cond4_1
  rw [Scalar.guard_iff, Scalar.cmpi, IntOp.cmpi_eq, ofNat32_inj4 (by omega) (by omega), coord4_1]

theorem hcond4_2 (t : Fin cfg4.N) : k4_cond2 (grid4.coords t) = 1#1 ↔ t.val % 4250 = 4249 := by
  have hlt : ((grid4.coords t) 1).val < 4250 := ((grid4.coords t) 1).isLt
  unfold k4_cond2
  rw [Scalar.guard_iff, Scalar.cmpi, IntOp.cmpi_eq, ofNat32_inj4 (by omega) (by omega), coord4_1]

theorem idleAt4_3 (t : Fin cfg4.N) (h : ¬k4_cond2 (grid4.coords t) = 1#1) : cfg4.idle 3 (grid4.coords t) = true := by
  show (!(k4_cond2 (grid4.coords t) == 1#1)) = true
  rw [Bool.not_eq_true', beq_eq_false_iff_ne]; exact h

theorem liveAt4_3 (t : Fin cfg4.N) (h : k4_cond2 (grid4.coords t) = 1#1) : cfg4.idle 3 (grid4.coords t) = false := by
  show (!(k4_cond2 (grid4.coords t) == 1#1)) = false
  rw [Bool.not_eq_false', beq_iff_eq]; exact h

theorem coord4_0 (t : Fin cfg4.N) : ((grid4.coords t) 0).val = t.val / 4250 := by
  show t.val / grid4.stride 0 % grid4.bound 0 = t.val / 4250
  rw [show grid4.stride 0 = 4250 from by decide]
  exact Nat.mod_eq_of_lt (Nat.div_lt_of_lt_mul (lt_of_lt_of_eq t.isLt (show cfg4.N = 4250 * grid4.bound 0 from by decide)))

theorem index4_3 (t : Fin cfg4.N) : (cfg4.win 3).index t = ![t.val / 4250, 0] := by
  have ht : t.val < 21250 := lt_of_lt_of_eq t.isLt (show cfg4.N = 21250 from N_4)
  show cc4_transform_3 (grid4.coords t) = _
  unfold cc4_transform_3
  dsimp only
  rw [BitVec.toNat_ofNat, coord4_0, Nat.mod_eq_of_lt (show t.val / 4250 < 2 ^ 32 by omega)]
  rfl

theorem flushH4_3 (t : Fin cfg4.N) : (cfg4.win 3).flush t = true ↔ t.val % 4250 = 4249 := by
  have hN : cfg4.N = 21250 := N_4
  have ht : t.val < 21250 := lt_of_lt_of_eq t.isLt hN
  rw [(cfg4.win 3).flush_out rfl]
  constructor
  · rintro (h | ⟨h, hne⟩)
    · have h' : t.val + 1 = 21250 := h.trans hN
      omega
    · by_contra hc
      apply hne
      rw [index4_3, index4_3]
      have e : (t.val + 1) / 4250 = t.val / 4250 := by omega
      show ![(t.val + 1) / 4250, 0] = ![t.val / 4250, 0]
      rw [e]
  · intro h
    by_cases hl : t.val + 1 = 21250
    · exact .inl (hl.trans hN.symm)
    · refine .inr ⟨lt_of_lt_of_eq (show t.val + 1 < 21250 by omega) hN.symm, fun he => ?_⟩
      rw [index4_3, index4_3] at he
      have e0 := congrFun he 0
      have e1 : (t.val + 1) / 4250 = t.val / 4250 := e0
      omega

abbrev bodyAtH4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

theorem accAt4_step (c : Dev nD) (t : Fin cfg4.N) :
    accAt4 V c t.val t.isLt = upd4 (grid4.coords t) (iblk4 V c 1 t)
      (if cond4_1 (grid4.coords t) then k4_pay1 (F := F) else accAt4 V c (t.val - 1) (Nat.lt_of_le_of_lt (Nat.sub_le _ _) t.isLt)) (iblk4 V c 0 t) := by
  by_cases h : t.val % 4250 = 0
  · rw [if_pos ((hcond4_1 t).mpr h), accAt4_first V c t h]
  · rw [if_neg (mt (hcond4_1 t).mp h), accAt4_next V c t h]

theorem PhiS4_castSucc (c : Dev nD) (t : Fin cfg4.N) :
    (dat4 V c).Φ t.castSucc = PhiS4 V c t.val (Nat.le_of_lt t.isLt) := by
  dsimp only [dat4]; simp only [Fin.coe_castSucc]

theorem PhiA4_eq (c : Dev nD) :
    (Pipeline.ΦA spec4 c : sProp 𝕄) = inv4 c iprop(∃ d, owns (c : Thread nD τ) scM4 fullShare d) := by
  unfold Pipeline.ΦA; rw [scopedRest4_split]; simp only [scM4, owns_whole]; try rfl

-- At the very first point nothing is known of the accumulator, and nothing is needed: a first step resets it.
theorem Phi4_open (c : Dev nD) (t : Fin cfg4.N) :
    (dat4 V c).Φ t.castSucc ⊢ inv4 c iprop(∃ d, ⌜¬cond4_1 (grid4.coords t) →
      d = accAt4 V c (t.val - 1) (Nat.lt_of_le_of_lt (Nat.sub_le _ _) t.isLt)⌝ ∗ owns (c : Thread nD τ) scM4 fullShare d) := by
  rw [PhiS4_castSucc]
  obtain ⟨n, hn⟩ := t
  cases n with
  | zero =>
    show Pipeline.ΦA spec4 c ⊢ _
    rw [PhiA4_eq]
    refine sep_mono_left (sep_mono_left ?_)
    iintro ⟨%d, H⟩
    iexists d; isplitr
    · ipureintro; exact fun h => absurd ((hcond4_1 ⟨0, hn⟩).mpr (Nat.zero_mod _)) h
    iexact H
  | succ n =>
    show inv4 c _ ⊢ _
    refine sep_mono_left (sep_mono_left ?_)
    iintro H
    iexists _; isplitr
    swap; · iexact H
    ipureintro; exact fun _ => rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

abbrev ms4_0 (t : Fin cfg4.N) : Memref sig .tc .vmem S400x128 .bf16 := win4_0.stage (cfg4.slots t 0)
abbrev ms4_1 (t : Fin cfg4.N) : Memref sig .tc .vmem S400x1 .i32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S20000x128 .f32 := win4_3.stage (cfg4.slots t 3)

theorem leaves4_3 (c : Dev nD) (t : Fin cfg4.N) (d) :
    owns (c : Thread nD τ) (ms4_3 t) fullShare
        (if k4_cond2 (grid4.coords t) = 1#1 then out4_3 (accAt4 V c t.val t.isLt) (iblk4 V c 2 t) else (dat4 V c).before 3 t d)
      ⊢ (dat4 V c).leavesExact 3 t := by
  by_cases h : k4_cond2 (grid4.coords t) = 1#1
  · rewrite [if_pos h, ← after4_3 V c t]
    unfold Dat.leavesExact
    rewrite [liveAt4_3 t h]
    exact .rfl
  · rewrite [if_neg h, Dat.leavesExact_idle (dat4 V c) 3 t (idleAt4_3 t h)
      (by rw [← Bool.not_eq_true]; exact fun hf => h ((hcond4_2 t).mpr ((flushH4_3 t).mp hf)))]
    iintro H; iexists d; iexact H

set_option maxHeartbeats 4800000 in
theorem sound_body4 (c : Dev nD) (t : Fin cfg4.N) :
    iprop((dat4 V c).Φ t.castSucc ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
    ⊢ wp frame (wpE (defs₀ (F := F)) Variants.none c none) Set.univ (bodyAtH4 t) (fun _ =>
      iprop(inv4 c (owns (c : Thread nD τ) scM4 fullShare (accAt4 V c t.val t.isLt)) ∗ (dat4 V c).owesAt () t.castSucc
        ∗ owns (c : Thread nD τ) (ms4_0 t) fullShare (iblk4 V c 0 t)
        ∗ owns (c : Thread nD τ) (ms4_1 t) fullShare (iblk4 V c 1 t)
        ∗ owns (c : Thread nD τ) (ms4_2 t) fullShare (iblk4 V c 2 t)
        ∗ (dat4 V c).leavesExact 3 t)) := by
  unfold bodyAtH4
  simp only [before4_0, before4_1, before4_2]
  refine (sep_mono_left (Phi4_open V c t)).trans ?_
  iintro ⟨⟨⟨HS, HR⟩, Hg⟩, Ho, ⟨%d0, H0⟩, ⟨%d1, H1⟩, ⟨%d2, H2⟩, ⟨%d3, H3⟩⟩
  iapply (run4 c Set.univ (grid4.coords t) _ _ _ _ _ _ _ _ _ _ (iblk4 V c 0 t) (iblk4 V c 1 t) (iblk4 V c 2 t) ((dat4 V c).before 3 t d3) _ _ (accAt4_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves4_3 V c t d3)
  iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem Phi_out4 (c : Dev nD) : ∀ (n : ℕ) (h : n ≤ cfg4.N), n ≠ 0 → PhiS4 V c n h ⊢ Pipeline.ΦA spec4 c
  | 0, _, hz => absurd rfl hz
  | n + 1, h, _ => by
    rw [PhiA4_eq]
    show inv4 c _ ⊢ _
    refine sep_mono_left (sep_mono_left ?_)
    iintro H; iexists _; iexact H

theorem hout4 (c : Dev nD) : (dat4 V c).Φ (Fin.last cfg4.N) ⊢ Pipeline.ΦA spec4 c :=
  Phi_out4 V c cfg4.N (Nat.le_refl _) (by have : cfg4.N = 21250 := N_4; omega)

end Cert.Kernel.Hand

end
-- ==== Proof.KB.Reg5.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "SHx" => S10000x128
local notation "SHw" => S128x128
local notation "SHb" => S1x128
local notation "SHo" => S10000x128
local notation "INBx" => inb_S10000x128_S10000x128_0_0
local notation "INBw" => inb_S128x128_S128x128_0_0
local notation "INBb" => inb_S1x128_S1x128_0_0
local notation "INBo" => inb_S10000x128_S10000x128_0_0

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 := Rect.unit (s := SHx) _ _ INBx
abbrev r5_1 := Rect.unit (s := SHw) _ _ INBw
abbrev r5_2 := Rect.unit (s := SHb) _ _ INBb
abbrev r5_o := Rect.unit (s := SHo) _ _ INBo

def out5_3 (x0 : Vec F SHx .f32) (x1 : Vec F SHw .f32) (x2 : Vec F SHb .f32) : Vec F SHo .f32 :=
  View.canon [⟨r5_o, k5_pay1 (View.ld x0 r5_0) (View.ld x1 r5_1) (View.ld x2 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) : (dat5 V c).after 3 t = out5_3 (iblk5 V c 0 t) (iblk5 V c 1 t) (iblk5 V c 2 t) := by dsimp only [dat5]

theorem share5 (c : Dev nD) : ∀ w, (dat5 V c).q w = fullShare := fun _ => rfl
theorem owed5 (c : Dev nD) : ∀ x, (dat5 V c).owed x = 0 := fun _ => rfl
theorem recorded5 (c : Dev nD) : ∀ t, (dat5 V c).recorded t = Set.univ := fun _ => rfl

theorem hin5 (c : Dev nD) : Pipeline.ΦA spec5 c ⊢ (dat5 V c).Φ 0 := Entails.refl _
theorem hout5 (c : Dev nD) : (dat5 V c).Φ (Fin.last cfg5.N) ⊢ Pipeline.ΦA spec5 c := Entails.refl _

theorem before5 (c : Dev nD) : ∀ w, (cfg5.win w).isOut = false → ∀ t d, (dat5 V c).before w t d = (dat5 V c).after w t
  | 0, h | 1, h | 2, h => (dat5 V c).before_in_eq_fetched _ h (fun _ => rfl) (fun _ _ _ => rfl) fun _ => rfl
  | 3, h => nomatch h

-- The store's rectangle is the whole output shape, so what it leaves reads as `out5_3` of the blocks read, whatever was there before.
theorem body_obligation5 (c : Dev nD) : BodyObligation (dat5 (F := F) V c) (defs₀ (F := F)) Variants.none () Set.univ := fun t => by
  rw [bigSep_W5, bigSep_W5]
  sl_whnfR [defs₀, Defs.onTc]
  sl_unfold [cc5__dense_kernel]
  simp (disch := rfl) only [before5]
  unfold owns
  dsimp only [dat5, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.Kernel.Hand

end
-- ==== Proof.KB.Reg6.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rF6 : Rect S400x128 := Rect.unit (s := S400x128) ![0, 0] S400x128.size inb_S400x128_S400x128_0_0
abbrev rI6 : Rect S400x1 := Rect.unit (s := S400x1) ![0, 0] S400x1.size inb_S400x1_S400x1_0_0
abbrev rB6 : Rect S1x128 := Rect.unit (s := S1x128) ![0, 0] S1x128.size inb_S1x128_S1x128_0_0
abbrev rA6 : Rect S20000x128 := Rect.unit (s := S20000x128) ![0, 0] S20000x128.size inb_S20000x128_S20000x128_0_0

def upd6 (i : grid6.Coords) (x1 : Vec F S400x1 .i32) (acc : Vec F S20000x128 .f32) (x0 : Vec F S400x128 .bf16) : Vec F S20000x128 .f32 :=
  k6_pay2 i (View.ld x1 rI6) (View.ld acc rA6) (View.ld x0 rF6)

def accAt6 (c : Dev nD) : (n : ℕ) → n < cfg6.N → Vec F S20000x128 .f32
  | 0, hn => upd6 (grid6.coords ⟨0, hn⟩) (iblk6 V c 1 ⟨0, hn⟩) (k6_pay1 (F := F)) (iblk6 V c 0 ⟨0, hn⟩)
  | n + 1, hn => upd6 (grid6.coords ⟨n + 1, hn⟩) (iblk6 V c 1 ⟨n + 1, hn⟩)
      (if (n + 1) % 4250 = 0 then k6_pay1 (F := F) else accAt6 c n (Nat.lt_of_succ_lt hn)) (iblk6 V c 0 ⟨n + 1, hn⟩)

theorem accAt6_first (c : Dev nD) (t : Fin cfg6.N) (h : t.val % 4250 = 0) :
    accAt6 V c t.val t.isLt = upd6 (grid6.coords t) (iblk6 V c 1 t) (k6_pay1 (F := F)) (iblk6 V c 0 t) := by
  obtain ⟨n, hn⟩ := t
  cases n with
  | zero => rfl
  | succ n => exact congrArg (fun a => upd6 (grid6.coords ⟨n + 1, hn⟩) (iblk6 V c 1 ⟨n + 1, hn⟩) a (iblk6 V c 0 ⟨n + 1, hn⟩)) (if_pos h)

theorem accAt6_next (c : Dev nD) (t : Fin cfg6.N) (h : ¬t.val % 4250 = 0) :
    accAt6 V c t.val t.isLt = upd6 (grid6.coords t) (iblk6 V c 1 t)
      (accAt6 V c (t.val - 1) (Nat.lt_of_le_of_lt (Nat.sub_le _ _) t.isLt)) (iblk6 V c 0 t) := by
  obtain ⟨n, hn⟩ := t
  cases n with
  | zero => exact absurd (Nat.zero_mod _) h
  | succ n => exact congrArg (fun a => upd6 (grid6.coords ⟨n + 1, hn⟩) (iblk6 V c 1 ⟨n + 1, hn⟩) a (iblk6 V c 0 ⟨n + 1, hn⟩)) (if_neg h)

def out6_3 (acc : Vec F S20000x128 .f32) (x2 : Vec F S1x128 .f32) : Vec F S20000x128 .f32 :=
  View.canon [⟨rA6, k6_pay3 (View.ld acc rA6) (View.ld x2 rB6)⟩]

abbrev scM6 : Memref sig .tc .vmem S20000x128 .f32 := Memref.whole cc6_scratch0

abbrev inv6 (c : Dev nD) (P : sProp 𝕄) : sProp 𝕄 :=
  iprop(iprop(P ∗ Pipeline.scopedRestBut (Ix := Unit) (Name := ℕ) (U := UR sig nD τ) (Lvl := ℕ) (Val := Elt F) spec6 c [cc6_scratch0]) ∗ (∃ r, prngReg c r))

def PhiS6 (c : Dev nD) : (n : ℕ) → n ≤ cfg6.N → sProp 𝕄
  | 0, _ => Pipeline.ΦA spec6 c
  | n + 1, hn => inv6 c (owns (c : Thread nD τ) scM6 fullShare (accAt6 V c n hn))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (accAt6 V c t.val t.isLt) (iblk6 V c 2 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = out6_3 (accAt6 V c t.val t.isLt) (iblk6 V c 2 t) := by dsimp only [dat6]

theorem share6 (c : Dev nD) : ∀ w, (dat6 V c).q w = fullShare := fun _ => rfl
theorem owed6 (c : Dev nD) : ∀ x, (dat6 V c).owed x = 0 := fun _ => rfl
theorem recorded6 (c : Dev nD) : ∀ t, (dat6 V c).recorded t = Set.univ := fun _ => rfl

abbrev cond6_1 (i : grid6.Coords) : Prop := (Scalar.cmpi .ne (Scalar.extui (Scalar.cmpi .eq (BitVec.ofNat 32 (i 1).val) 0#32)) 0#32) = 1#1

theorem hzA6 : (![0, 0] : Fin S20000x128.rank → Nat) = fun _ => 0 := funext fun a => by fin_cases a <;> rfl

theorem read_writes_last6 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA6, w⟩ :: L)) = w := by
  rw [View.read_writes_eq_canon v f _ (fun y => ⟨⟨rA6, w⟩, List.mem_cons_self, View.mem_set_unit_zero hzA6 inb_S20000x128_S20000x128_0_0 y⟩)]
  exact View.canon_cons_unit_zero hzA6 _ w L

-- Joins the two cases of the reset, so that one symbolic run of the body serves first and later steps alike.
theorem acc_read6 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA6, k6_pay1⟩] else f) = if b then k6_pay1 else xs := by
  by_cases h : b
  · rw [dif_pos h, if_pos h, read_writes_last6]
  · rw [dif_neg h, if_neg h, hd h]

set_option maxHeartbeats 1000000 in
theorem run6 (c : Dev nD) (E : Set ℕ) (i : grid6.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd6 i x1 (if cond6_1 i then k6_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond6_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k6_cond2 i = 1#1 then out6_3 a x2 else x3)
                ∗ owns (c : Thread nD τ) arg6 fullShare a) -∗ K ⟨⟩))
      ⊢ wp frame (wpE (defs₀ (F := F)) Variants.none c none) E (cc6__scatter_kernel i arg2 harg2 arg3 harg3 arg4 harg4 arg5 harg5 arg6 harg6) K := by
  subst ha
  simp only [cc6__scatter_kernel_eq_skeleton]; unfold cc6__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k6_cond2 i = 1#1
    · rw [dif_pos hc2, if_pos hc2, read_writes_last6]; unfold out6_3 upd6
      simp only [View.readAt_eq_ld, View.readCov_unit_zero (S := S20000x128) _ hzA6, View.ld_unit_zero (S := S20000x128) hzA6,
        View.canon_unit_zero (S := S20000x128) hzA6, acc_read6 _ _ _ _ hd]
    · rw [dif_neg hc2, if_neg hc2]
  iexists _; isplitr
  swap; · iexact H6
  ipureintro
  sl_unfold_run_names
  rw [read_writes_last6]; unfold upd6
  simp only [View.readAt_eq_ld, acc_read6 _ _ _ _ hd]

theorem coord6_1 (t : Fin cfg6.N) : ((grid6.coords t) 1).val = t.val % 4250 := by
  show t.val / grid6.stride 1 % 4250 = t.val % 4250
  rw [show grid6.stride 1 = 1 from by decide, Nat.div_one]

theorem ofNat32_inj6 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond6_1 (t : Fin cfg6.N) : cond6_1 (grid6.coords t) ↔ t.val % 4250 = 0 := by
  have hlt : ((grid6.coords t) 1).val < 4250 := ((grid6.coords t) 1).isLt
  unfold cond6_1
  rw [Scalar.guard_iff, Scalar.cmpi, IntOp.cmpi_eq, ofNat32_inj6 (by omega) (by omega), coord6_1]

theorem hcond6_2 (t : Fin cfg6.N) : k6_cond2 (grid6.coords t) = 1#1 ↔ t.val % 4250 = 4249 := by
  have hlt : ((grid6.coords t) 1).val < 4250 := ((grid6.coords t) 1).isLt
  unfold k6_cond2
  rw [Scalar.guard_iff, Scalar.cmpi, IntOp.cmpi_eq, ofNat32_inj6 (by omega) (by omega), coord6_1]

theorem idleAt6_3 (t : Fin cfg6.N) (h : ¬k6_cond2 (grid6.coords t) = 1#1) : cfg6.idle 3 (grid6.coords t) = true := by
  show (!(k6_cond2 (grid6.coords t) == 1#1)) = true
  rw [Bool.not_eq_true', beq_eq_false_iff_ne]; exact h

theorem liveAt6_3 (t : Fin cfg6.N) (h : k6_cond2 (grid6.coords t) = 1#1) : cfg6.idle 3 (grid6.coords t) = false := by
  show (!(k6_cond2 (grid6.coords t) == 1#1)) = false
  rw [Bool.not_eq_false', beq_iff_eq]; exact h

theorem coord6_0 (t : Fin cfg6.N) : ((grid6.coords t) 0).val = t.val / 4250 := by
  show t.val / grid6.stride 0 % grid6.bound 0 = t.val / 4250
  rw [show grid6.stride 0 = 4250 from by decide]
  exact Nat.mod_eq_of_lt (Nat.div_lt_of_lt_mul (lt_of_lt_of_eq t.isLt (show cfg6.N = 4250 * grid6.bound 0 from by decide)))

theorem index6_3 (t : Fin cfg6.N) : (cfg6.win 3).index t = ![t.val / 4250, 0] := by
  have ht : t.val < 21250 := lt_of_lt_of_eq t.isLt (show cfg6.N = 21250 from N_6)
  show cc6_transform_3 (grid6.coords t) = _
  unfold cc6_transform_3
  dsimp only
  rw [BitVec.toNat_ofNat, coord6_0, Nat.mod_eq_of_lt (show t.val / 4250 < 2 ^ 32 by omega)]
  rfl

theorem flushH6_3 (t : Fin cfg6.N) : (cfg6.win 3).flush t = true ↔ t.val % 4250 = 4249 := by
  have hN : cfg6.N = 21250 := N_6
  have ht : t.val < 21250 := lt_of_lt_of_eq t.isLt hN
  rw [(cfg6.win 3).flush_out rfl]
  constructor
  · rintro (h | ⟨h, hne⟩)
    · have h' : t.val + 1 = 21250 := h.trans hN
      omega
    · by_contra hc
      apply hne
      rw [index6_3, index6_3]
      have e : (t.val + 1) / 4250 = t.val / 4250 := by omega
      show ![(t.val + 1) / 4250, 0] = ![t.val / 4250, 0]
      rw [e]
  · intro h
    by_cases hl : t.val + 1 = 21250
    · exact .inl (hl.trans hN.symm)
    · refine .inr ⟨lt_of_lt_of_eq (show t.val + 1 < 21250 by omega) hN.symm, fun he => ?_⟩
      rw [index6_3, index6_3] at he
      have e0 := congrFun he 0
      have e1 : (t.val + 1) / 4250 = t.val / 4250 := e0
      omega

abbrev bodyAtH6 (t : Fin cfg6.N) : Prog (TpuEff nD τ sig (Elt F) Λ₀ .tc) PUnit :=
  cc6__scatter_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (Memref.whole cc6_scratch0) (Memref.isWhole_whole _)

theorem accAt6_step (c : Dev nD) (t : Fin cfg6.N) :
    accAt6 V c t.val t.isLt = upd6 (grid6.coords t) (iblk6 V c 1 t)
      (if cond6_1 (grid6.coords t) then k6_pay1 (F := F) else accAt6 V c (t.val - 1) (Nat.lt_of_le_of_lt (Nat.sub_le _ _) t.isLt)) (iblk6 V c 0 t) := by
  by_cases h : t.val % 4250 = 0
  · rw [if_pos ((hcond6_1 t).mpr h), accAt6_first V c t h]
  · rw [if_neg (mt (hcond6_1 t).mp h), accAt6_next V c t h]

theorem PhiS6_castSucc (c : Dev nD) (t : Fin cfg6.N) :
    (dat6 V c).Φ t.castSucc = PhiS6 V c t.val (Nat.le_of_lt t.isLt) := by
  dsimp only [dat6]; simp only [Fin.coe_castSucc]

theorem PhiA6_eq (c : Dev nD) :
    (Pipeline.ΦA spec6 c : sProp 𝕄) = inv6 c iprop(∃ d, owns (c : Thread nD τ) scM6 fullShare d) := by
  unfold Pipeline.ΦA; rw [scopedRest6_split]; simp only [scM6, owns_whole]; try rfl

-- At the very first point nothing is known of the accumulator, and nothing is needed: a first step resets it.
theorem Phi6_open (c : Dev nD) (t : Fin cfg6.N) :
    (dat6 V c).Φ t.castSucc ⊢ inv6 c iprop(∃ d, ⌜¬cond6_1 (grid6.coords t) →
      d = accAt6 V c (t.val - 1) (Nat.lt_of_le_of_lt (Nat.sub_le _ _) t.isLt)⌝ ∗ owns (c : Thread nD τ) scM6 fullShare d) := by
  rw [PhiS6_castSucc]
  obtain ⟨n, hn⟩ := t
  cases n with
  | zero =>
    show Pipeline.ΦA spec6 c ⊢ _
    rw [PhiA6_eq]
    refine sep_mono_left (sep_mono_left ?_)
    iintro ⟨%d, H⟩
    iexists d; isplitr
    · ipureintro; exact fun h => absurd ((hcond6_1 ⟨0, hn⟩).mpr (Nat.zero_mod _)) h
    iexact H
  | succ n =>
    show inv6 c _ ⊢ _
    refine sep_mono_left (sep_mono_left ?_)
    iintro H
    iexists _; isplitr
    swap; · iexact H
    ipureintro; exact fun _ => rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

abbrev ms6_0 (t : Fin cfg6.N) : Memref sig .tc .vmem S400x128 .bf16 := win6_0.stage (cfg6.slots t 0)
abbrev ms6_1 (t : Fin cfg6.N) : Memref sig .tc .vmem S400x1 .i32 := win6_1.stage (cfg6.slots t 1)
abbrev ms6_2 (t : Fin cfg6.N) : Memref sig .tc .vmem S1x128 .f32 := win6_2.stage (cfg6.slots t 2)
abbrev ms6_3 (t : Fin cfg6.N) : Memref sig .tc .vmem S20000x128 .f32 := win6_3.stage (cfg6.slots t 3)

theorem leaves6_3 (c : Dev nD) (t : Fin cfg6.N) (d) :
    owns (c : Thread nD τ) (ms6_3 t) fullShare
        (if k6_cond2 (grid6.coords t) = 1#1 then out6_3 (accAt6 V c t.val t.isLt) (iblk6 V c 2 t) else (dat6 V c).before 3 t d)
      ⊢ (dat6 V c).leavesExact 3 t := by
  by_cases h : k6_cond2 (grid6.coords t) = 1#1
  · rewrite [if_pos h, ← after6_3 V c t]
    unfold Dat.leavesExact
    rewrite [liveAt6_3 t h]
    exact .rfl
  · rewrite [if_neg h, Dat.leavesExact_idle (dat6 V c) 3 t (idleAt6_3 t h)
      (by rw [← Bool.not_eq_true]; exact fun hf => h ((hcond6_2 t).mpr ((flushH6_3 t).mp hf)))]
    iintro H; iexists d; iexact H

set_option maxHeartbeats 4800000 in
theorem sound_body6 (c : Dev nD) (t : Fin cfg6.N) :
    iprop((dat6 V c).Φ t.castSucc ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))
      ∗ (∃ d, owns (c : Thread nD τ) (ms6_3 t) fullShare ((dat6 V c).before 3 t d)))
    ⊢ wp frame (wpE (defs₀ (F := F)) Variants.none c none) Set.univ (bodyAtH6 t) (fun _ =>
      iprop(inv6 c (owns (c : Thread nD τ) scM6 fullShare (accAt6 V c t.val t.isLt)) ∗ (dat6 V c).owesAt () t.castSucc
        ∗ owns (c : Thread nD τ) (ms6_0 t) fullShare (iblk6 V c 0 t)
        ∗ owns (c : Thread nD τ) (ms6_1 t) fullShare (iblk6 V c 1 t)
        ∗ owns (c : Thread nD τ) (ms6_2 t) fullShare (iblk6 V c 2 t)
        ∗ (dat6 V c).leavesExact 3 t)) := by
  unfold bodyAtH6
  simp only [before6_0, before6_1, before6_2]
  refine (sep_mono_left (Phi6_open V c t)).trans ?_
  iintro ⟨⟨⟨HS, HR⟩, Hg⟩, Ho, ⟨%d0, H0⟩, ⟨%d1, H1⟩, ⟨%d2, H2⟩, ⟨%d3, H3⟩⟩
  iapply (run6 c Set.univ (grid6.coords t) _ _ _ _ _ _ _ _ _ _ (iblk6 V c 0 t) (iblk6 V c 1 t) (iblk6 V c 2 t) ((dat6 V c).before 3 t d3) _ _ (accAt6_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves6_3 V c t d3)
  iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := .rfl

theorem Phi_out6 (c : Dev nD) : ∀ (n : ℕ) (h : n ≤ cfg6.N), n ≠ 0 → PhiS6 V c n h ⊢ Pipeline.ΦA spec6 c
  | 0, _, hz => absurd rfl hz
  | n + 1, h, _ => by
    rw [PhiA6_eq]
    show inv6 c _ ⊢ _
    refine sep_mono_left (sep_mono_left ?_)
    iintro H; iexists _; iexact H

theorem hout6 (c : Dev nD) : (dat6 V c).Φ (Fin.last cfg6.N) ⊢ Pipeline.ΦA spec6 c :=
  Phi_out6 V c cfg6.N (Nat.le_refl _) (by have : cfg6.N = 21250 := N_6; omega)

end Cert.Kernel.Hand

end
-- ==== Proof.KB.Reg7.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rF7 : Rect S20000x128 := Rect.unit (s := S20000x128) ![0, 0] S20000x128.size inb_S20000x128_S20000x128_0_0
abbrev rI7 : Rect S20000x1 := Rect.unit (s := S20000x1) ![0, 0] S20000x1.size inb_S20000x1_S20000x1_0_0
abbrev rB7 : Rect S1x128 := Rect.unit (s := S1x128) ![0, 0] S1x128.size inb_S1x128_S1x128_0_0
abbrev rA7 : Rect S512x128 := Rect.unit (s := S512x128) ![0, 0] S512x128.size inb_S512x128_S512x128_0_0

def upd7 (i : grid7.Coords) (x1 : Vec F S20000x1 .i32) (acc : Vec F S512x128 .f32) (x0 : Vec F S20000x128 .bf16) : Vec F S512x128 .f32 :=
  k7_pay2 i (View.ld x1 rI7) (View.ld acc rA7) (View.ld x0 rF7)

def accAt7 (c : Dev nD) : (n : ℕ) → n < cfg7.N → Vec F S512x128 .f32
  | 0, hn => upd7 (grid7.coords ⟨0, hn⟩) (iblk7 V c 1 ⟨0, hn⟩) (k7_pay1 (F := F)) (iblk7 V c 0 ⟨0, hn⟩)
  | n + 1, hn => upd7 (grid7.coords ⟨n + 1, hn⟩) (iblk7 V c 1 ⟨n + 1, hn⟩)
      (if (n + 1) % 5 = 0 then k7_pay1 (F := F) else accAt7 c n (Nat.lt_of_succ_lt hn)) (iblk7 V c 0 ⟨n + 1, hn⟩)

theorem accAt7_first (c : Dev nD) (t : Fin cfg7.N) (h : t.val % 5 = 0) :
    accAt7 V c t.val t.isLt = upd7 (grid7.coords t) (iblk7 V c 1 t) (k7_pay1 (F := F)) (iblk7 V c 0 t) := by
  obtain ⟨n, hn⟩ := t
  cases n with
  | zero => rfl
  | succ n => exact congrArg (fun a => upd7 (grid7.coords ⟨n + 1, hn⟩) (iblk7 V c 1 ⟨n + 1, hn⟩) a (iblk7 V c 0 ⟨n + 1, hn⟩)) (if_pos h)

theorem accAt7_next (c : Dev nD) (t : Fin cfg7.N) (h : ¬t.val % 5 = 0) :
    accAt7 V c t.val t.isLt = upd7 (grid7.coords t) (iblk7 V c 1 t)
      (accAt7 V c (t.val - 1) (Nat.lt_of_le_of_lt (Nat.sub_le _ _) t.isLt)) (iblk7 V c 0 t) := by
  obtain ⟨n, hn⟩ := t
  cases n with
  | zero => exact absurd (Nat.zero_mod _) h
  | succ n => exact congrArg (fun a => upd7 (grid7.coords ⟨n + 1, hn⟩) (iblk7 V c 1 ⟨n + 1, hn⟩) a (iblk7 V c 0 ⟨n + 1, hn⟩)) (if_neg h)

def out7_3 (acc : Vec F S512x128 .f32) (x2 : Vec F S1x128 .f32) : Vec F S512x128 .f32 :=
  View.canon [⟨rA7, k7_pay3 (View.ld acc rA7) (View.ld x2 rB7)⟩]

abbrev scM7 : Memref sig .tc .vmem S512x128 .f32 := Memref.whole cc7_scratch0

abbrev inv7 (c : Dev nD) (P : sProp 𝕄) : sProp 𝕄 :=
  iprop(iprop(P ∗ Pipeline.scopedRestBut (Ix := Unit) (Name := ℕ) (U := UR sig nD τ) (Lvl := ℕ) (Val := Elt F) spec7 c [cc7_scratch0]) ∗ (∃ r, prngReg c r))

def PhiS7 (c : Dev nD) : (n : ℕ) → n ≤ cfg7.N → sProp 𝕄
  | 0, _ => Pipeline.ΦA spec7 c
  | n + 1, hn => inv7 c (owns (c : Thread nD τ) scM7 fullShare (accAt7 V c n hn))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (accAt7 V c t.val t.isLt) (iblk7 V c 2 t)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = out7_3 (accAt7 V c t.val t.isLt) (iblk7 V c 2 t) := by dsimp only [dat7]

theorem share7 (c : Dev nD) : ∀ w, (dat7 V c).q w = fullShare := fun _ => rfl
theorem owed7 (c : Dev nD) : ∀ x, (dat7 V c).owed x = 0 := fun _ => rfl
theorem recorded7 (c : Dev nD) : ∀ t, (dat7 V c).recorded t = Set.univ := fun _ => rfl

abbrev cond7_1 (i : grid7.Coords) : Prop := (Scalar.cmpi .ne (Scalar.extui (Scalar.cmpi .eq (BitVec.ofNat 32 (i 1).val) 0#32)) 0#32) = 1#1

theorem hzA7 : (![0, 0] : Fin S512x128.rank → Nat) = fun _ => 0 := funext fun a => by fin_cases a <;> rfl

theorem read_writes_last7 {sg : RefSig} {κ : Kind} {sp : Space} (v : View sg κ sp S512x128 .f32) (f : v.ty.Contents (Elt F))
    (w : Vec F S512x128 .f32) (L : List (View.Piece (Elt F) S512x128 .f32)) :
    v.read (Elt F) (v.writes (Elt F) f (⟨rA7, w⟩ :: L)) = w := by
  rw [View.read_writes_eq_canon v f _ (fun y => ⟨⟨rA7, w⟩, List.mem_cons_self, View.mem_set_unit_zero hzA7 inb_S512x128_S512x128_0_0 y⟩)]
  exact View.canon_cons_unit_zero hzA7 _ w L

-- Joins the two cases of the reset, so that one symbolic run of the body serves first and later steps alike.
theorem acc_read7 {sg : RefSig} {κ : Kind} {sp : Space} (v : View sg κ sp S512x128 .f32) (f : v.ty.Contents (Elt F))
    (b : Prop) [Decidable b] (xs : Vec F S512x128 .f32) (hd : ¬b → v.read (Elt F) f = xs) :
    v.read (Elt F) (if _ : b then v.writes (Elt F) f [⟨rA7, k7_pay1⟩] else f) = if b then k7_pay1 else xs := by
  by_cases h : b
  · rw [dif_pos h, if_pos h, read_writes_last7]
  · rw [dif_neg h, if_neg h, hd h]

set_option maxHeartbeats 1000000 in
theorem run7 (c : Dev nD) (E : Set ℕ) (i : grid7.Coords)
    (arg2 : Memref sig .tc .vmem S20000x128 .bf16) (harg2 : arg2.IsWhole)
    (arg3 : Memref sig .tc .vmem S20000x1 .i32) (harg3 : arg3.IsWhole)
    (arg4 : Memref sig .tc .vmem S1x128 .f32) (harg4 : arg4.IsWhole)
    (arg5 : Memref sig .tc .vmem S512x128 .f32) (harg5 : arg5.IsWhole)
    (arg6 : Memref sig .tc .vmem S512x128 .f32) (harg6 : arg6.IsWhole)
    (x0 : Vec F S20000x128 .bf16) (x1 : Vec F S20000x1 .i32) (x2 : Vec F S1x128 .f32) (x3 xs a : Vec F S512x128 .f32)
    (ha : a = upd7 i x1 (if cond7_1 i then k7_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond7_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k7_cond2 i = 1#1 then out7_3 a x2 else x3)
                ∗ owns (c : Thread nD τ) arg6 fullShare a) -∗ K ⟨⟩))
      ⊢ wp frame (wpE (defs₀ (F := F)) Variants.none c none) E (cc7__scatter_kernel i arg2 harg2 arg3 harg3 arg4 harg4 arg5 harg5 arg6 harg6) K := by
  subst ha
  simp only [cc7__scatter_kernel_eq_skeleton]; unfold cc7__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k7_cond2 i = 1#1
    · rw [dif_pos hc2, if_pos hc2, read_writes_last7]; unfold out7_3 upd7
      simp only [View.readAt_eq_ld, View.readCov_unit_zero (S := S512x128) _ hzA7, View.ld_unit_zero (S := S512x128) hzA7,
        View.canon_unit_zero (S := S512x128) hzA7, acc_read7 _ _ _ _ hd]
    · rw [dif_neg hc2, if_neg hc2]
  iexists _; isplitr
  swap; · iexact H6
  ipureintro
  sl_unfold_run_names
  rw [read_writes_last7]; unfold upd7
  simp only [View.readAt_eq_ld, acc_read7 _ _ _ _ hd]

theorem coord7_1 (t : Fin cfg7.N) : ((grid7.coords t) 1).val = t.val % 5 := by
  show t.val / grid7.stride 1 % 5 = t.val % 5
  rw [show grid7.stride 1 = 1 from by decide, Nat.div_one]

theorem ofNat32_inj7 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond7_1 (t : Fin cfg7.N) : cond7_1 (grid7.coords t) ↔ t.val % 5 = 0 := by
  have hlt : ((grid7.coords t) 1).val < 5 := ((grid7.coords t) 1).isLt
  unfold cond7_1
  rw [Scalar.guard_iff, Scalar.cmpi, IntOp.cmpi_eq, ofNat32_inj7 (by omega) (by omega), coord7_1]

theorem hcond7_2 (t : Fin cfg7.N) : k7_cond2 (grid7.coords t) = 1#1 ↔ t.val % 5 = 4 := by
  have hlt : ((grid7.coords t) 1).val < 5 := ((grid7.coords t) 1).isLt
  unfold k7_cond2
  rw [Scalar.guard_iff, Scalar.cmpi, IntOp.cmpi_eq, ofNat32_inj7 (by omega) (by omega), coord7_1]

theorem idleAt7_3 (t : Fin cfg7.N) (h : ¬k7_cond2 (grid7.coords t) = 1#1) : cfg7.idle 3 (grid7.coords t) = true := by
  show (!(k7_cond2 (grid7.coords t) == 1#1)) = true
  rw [Bool.not_eq_true', beq_eq_false_iff_ne]; exact h

theorem liveAt7_3 (t : Fin cfg7.N) (h : k7_cond2 (grid7.coords t) = 1#1) : cfg7.idle 3 (grid7.coords t) = false := by
  show (!(k7_cond2 (grid7.coords t) == 1#1)) = false
  rw [Bool.not_eq_false', beq_iff_eq]; exact h

theorem coord7_0 (t : Fin cfg7.N) : ((grid7.coords t) 0).val = t.val / 5 := by
  show t.val / grid7.stride 0 % grid7.bound 0 = t.val / 5
  rw [show grid7.stride 0 = 5 from by decide]
  exact Nat.mod_eq_of_lt (Nat.div_lt_of_lt_mul (lt_of_lt_of_eq t.isLt (show cfg7.N = 5 * grid7.bound 0 from by decide)))

theorem index7_3 (t : Fin cfg7.N) : (cfg7.win 3).index t = ![t.val / 5, 0] := by
  have ht : t.val < 5 := lt_of_lt_of_eq t.isLt (show cfg7.N = 5 from N_7)
  show cc7_transform_3 (grid7.coords t) = _
  unfold cc7_transform_3
  dsimp only
  rw [BitVec.toNat_ofNat, coord7_0, Nat.mod_eq_of_lt (show t.val / 5 < 2 ^ 32 by omega)]
  rfl

theorem flushH7_3 (t : Fin cfg7.N) : (cfg7.win 3).flush t = true ↔ t.val % 5 = 4 := by
  have hN : cfg7.N = 5 := N_7
  have ht : t.val < 5 := lt_of_lt_of_eq t.isLt hN
  rw [(cfg7.win 3).flush_out rfl]
  constructor
  · rintro (h | ⟨h, hne⟩)
    · have h' : t.val + 1 = 5 := h.trans hN
      omega
    · by_contra hc
      apply hne
      rw [index7_3, index7_3]
      have e : (t.val + 1) / 5 = t.val / 5 := by omega
      show ![(t.val + 1) / 5, 0] = ![t.val / 5, 0]
      rw [e]
  · intro h
    by_cases hl : t.val + 1 = 5
    · exact .inl (hl.trans hN.symm)
    · refine .inr ⟨lt_of_lt_of_eq (show t.val + 1 < 5 by omega) hN.symm, fun he => ?_⟩
      rw [index7_3, index7_3] at he
      have e0 := congrFun he 0
      have e1 : (t.val + 1) / 5 = t.val / 5 := e0
      omega

abbrev bodyAtH7 (t : Fin cfg7.N) : Prog (TpuEff nD τ sig (Elt F) Λ₀ .tc) PUnit :=
  cc7__scatter_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (Memref.whole cc7_scratch0) (Memref.isWhole_whole _)

theorem accAt7_step (c : Dev nD) (t : Fin cfg7.N) :
    accAt7 V c t.val t.isLt = upd7 (grid7.coords t) (iblk7 V c 1 t)
      (if cond7_1 (grid7.coords t) then k7_pay1 (F := F) else accAt7 V c (t.val - 1) (Nat.lt_of_le_of_lt (Nat.sub_le _ _) t.isLt)) (iblk7 V c 0 t) := by
  by_cases h : t.val % 5 = 0
  · rw [if_pos ((hcond7_1 t).mpr h), accAt7_first V c t h]
  · rw [if_neg (mt (hcond7_1 t).mp h), accAt7_next V c t h]

theorem PhiS7_castSucc (c : Dev nD) (t : Fin cfg7.N) :
    (dat7 V c).Φ t.castSucc = PhiS7 V c t.val (Nat.le_of_lt t.isLt) := by
  dsimp only [dat7]; simp only [Fin.coe_castSucc]

theorem PhiA7_eq (c : Dev nD) :
    (Pipeline.ΦA spec7 c : sProp 𝕄) = inv7 c iprop(∃ d, owns (c : Thread nD τ) scM7 fullShare d) := by
  unfold Pipeline.ΦA; rw [scopedRest7_split]; simp only [scM7, owns_whole]; try rfl

-- At the very first point nothing is known of the accumulator, and nothing is needed: a first step resets it.
theorem Phi7_open (c : Dev nD) (t : Fin cfg7.N) :
    (dat7 V c).Φ t.castSucc ⊢ inv7 c iprop(∃ d, ⌜¬cond7_1 (grid7.coords t) →
      d = accAt7 V c (t.val - 1) (Nat.lt_of_le_of_lt (Nat.sub_le _ _) t.isLt)⌝ ∗ owns (c : Thread nD τ) scM7 fullShare d) := by
  rw [PhiS7_castSucc]
  obtain ⟨n, hn⟩ := t
  cases n with
  | zero =>
    show Pipeline.ΦA spec7 c ⊢ _
    rw [PhiA7_eq]
    refine sep_mono_left (sep_mono_left ?_)
    iintro ⟨%d, H⟩
    iexists d; isplitr
    · ipureintro; exact fun h => absurd ((hcond7_1 ⟨0, hn⟩).mpr (Nat.zero_mod _)) h
    iexact H
  | succ n =>
    show inv7 c _ ⊢ _
    refine sep_mono_left (sep_mono_left ?_)
    iintro H
    iexists _; isplitr
    swap; · iexact H
    ipureintro; exact fun _ => rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

abbrev ms7_0 (t : Fin cfg7.N) : Memref sig .tc .vmem S20000x128 .bf16 := win7_0.stage (cfg7.slots t 0)
abbrev ms7_1 (t : Fin cfg7.N) : Memref sig .tc .vmem S20000x1 .i32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S512x128 .f32 := win7_3.stage (cfg7.slots t 3)

theorem leaves7_3 (c : Dev nD) (t : Fin cfg7.N) (d) :
    owns (c : Thread nD τ) (ms7_3 t) fullShare
        (if k7_cond2 (grid7.coords t) = 1#1 then out7_3 (accAt7 V c t.val t.isLt) (iblk7 V c 2 t) else (dat7 V c).before 3 t d)
      ⊢ (dat7 V c).leavesExact 3 t := by
  by_cases h : k7_cond2 (grid7.coords t) = 1#1
  · rewrite [if_pos h, ← after7_3 V c t]
    unfold Dat.leavesExact
    rewrite [liveAt7_3 t h]
    exact .rfl
  · rewrite [if_neg h, Dat.leavesExact_idle (dat7 V c) 3 t (idleAt7_3 t h)
      (by rw [← Bool.not_eq_true]; exact fun hf => h ((hcond7_2 t).mpr ((flushH7_3 t).mp hf)))]
    iintro H; iexists d; iexact H

set_option maxHeartbeats 4800000 in
theorem sound_body7 (c : Dev nD) (t : Fin cfg7.N) :
    iprop((dat7 V c).Φ t.castSucc ∗ (dat7 V c).owesAt () t.castSucc
      ∗ (∃ d, owns (c : Thread nD τ) (ms7_0 t) fullShare ((dat7 V c).before 0 t d))
      ∗ (∃ d, owns (c : Thread nD τ) (ms7_1 t) fullShare ((dat7 V c).before 1 t d))
      ∗ (∃ d, owns (c : Thread nD τ) (ms7_2 t) fullShare ((dat7 V c).before 2 t d))
      ∗ (∃ d, owns (c : Thread nD τ) (ms7_3 t) fullShare ((dat7 V c).before 3 t d)))
    ⊢ wp frame (wpE (defs₀ (F := F)) Variants.none c none) Set.univ (bodyAtH7 t) (fun _ =>
      iprop(inv7 c (owns (c : Thread nD τ) scM7 fullShare (accAt7 V c t.val t.isLt)) ∗ (dat7 V c).owesAt () t.castSucc
        ∗ owns (c : Thread nD τ) (ms7_0 t) fullShare (iblk7 V c 0 t)
        ∗ owns (c : Thread nD τ) (ms7_1 t) fullShare (iblk7 V c 1 t)
        ∗ owns (c : Thread nD τ) (ms7_2 t) fullShare (iblk7 V c 2 t)
        ∗ (dat7 V c).leavesExact 3 t)) := by
  unfold bodyAtH7
  simp only [before7_0, before7_1, before7_2]
  refine (sep_mono_left (Phi7_open V c t)).trans ?_
  iintro ⟨⟨⟨HS, HR⟩, Hg⟩, Ho, ⟨%d0, H0⟩, ⟨%d1, H1⟩, ⟨%d2, H2⟩, ⟨%d3, H3⟩⟩
  iapply (run7 c Set.univ (grid7.coords t) _ _ _ _ _ _ _ _ _ _ (iblk7 V c 0 t) (iblk7 V c 1 t) (iblk7 V c 2 t) ((dat7 V c).before 3 t d3) _ _ (accAt7_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves7_3 V c t d3)
  iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := .rfl

theorem Phi_out7 (c : Dev nD) : ∀ (n : ℕ) (h : n ≤ cfg7.N), n ≠ 0 → PhiS7 V c n h ⊢ Pipeline.ΦA spec7 c
  | 0, _, hz => absurd rfl hz
  | n + 1, h, _ => by
    rw [PhiA7_eq]
    show inv7 c _ ⊢ _
    refine sep_mono_left (sep_mono_left ?_)
    iintro H; iexists _; iexact H

theorem hout7 (c : Dev nD) : (dat7 V c).Φ (Fin.last cfg7.N) ⊢ Pipeline.ΦA spec7 c :=
  Phi_out7 V c cfg7.N (Nat.le_refl _) (by have : cfg7.N = 5 := N_7; omega)

end Cert.Kernel.Hand

end
-- ==== Proof.KB.Reg8.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "SHx" => S512x128
local notation "SHw" => S128x128
local notation "SHb" => S1x128
local notation "SHo" => S512x128
local notation "INBx" => inb_S512x128_S512x128_0_0
local notation "INBw" => inb_S128x128_S128x128_0_0
local notation "INBb" => inb_S1x128_S1x128_0_0
local notation "INBo" => inb_S512x128_S512x128_0_0

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 := Rect.unit (s := SHx) _ _ INBx
abbrev r8_1 := Rect.unit (s := SHw) _ _ INBw
abbrev r8_2 := Rect.unit (s := SHb) _ _ INBb
abbrev r8_o := Rect.unit (s := SHo) _ _ INBo

def out8_3 (x0 : Vec F SHx .f32) (x1 : Vec F SHw .f32) (x2 : Vec F SHb .f32) : Vec F SHo .f32 :=
  View.canon [⟨r8_o, k8_pay1 (View.ld x0 r8_0) (View.ld x1 r8_1) (View.ld x2 r8_2)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (iblk8 V c 0 t) (iblk8 V c 1 t) (iblk8 V c 2 t) := by dsimp only [dat8]

theorem share8 (c : Dev nD) : ∀ w, (dat8 V c).q w = fullShare := fun _ => rfl
theorem owed8 (c : Dev nD) : ∀ x, (dat8 V c).owed x = 0 := fun _ => rfl
theorem recorded8 (c : Dev nD) : ∀ t, (dat8 V c).recorded t = Set.univ := fun _ => rfl

theorem hin8 (c : Dev nD) : Pipeline.ΦA spec8 c ⊢ (dat8 V c).Φ 0 := Entails.refl _
theorem hout8 (c : Dev nD) : (dat8 V c).Φ (Fin.last cfg8.N) ⊢ Pipeline.ΦA spec8 c := Entails.refl _

theorem before8 (c : Dev nD) : ∀ w, (cfg8.win w).isOut = false → ∀ t d, (dat8 V c).before w t d = (dat8 V c).after w t
  | 0, h | 1, h | 2, h => (dat8 V c).before_in_eq_fetched _ h (fun _ => rfl) (fun _ _ _ => rfl) fun _ => rfl
  | 3, h => nomatch h

-- The store's rectangle is the whole output shape, so what it leaves reads as `out8_3` of the blocks read, whatever was there before.
theorem body_obligation8 (c : Dev nD) : BodyObligation (dat8 (F := F) V c) (defs₀ (F := F)) Variants.none () Set.univ := fun t => by
  rw [bigSep_W8, bigSep_W8]
  sl_whnfR [defs₀, Defs.onTc]
  sl_unfold [cc8__dense_kernel]
  simp (disch := rfl) only [before8]
  unfold owns
  dsimp only [dat8, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.Kernel.Hand

end
-- ==== Proof.KB.Reg9.lean ====
import proofs.«417880_j4011499454825_1_alg».proof.Proof.Gen.Kernel.Launch
import proofs.«417880_j4011499454825_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "SHx" => S512x128
local notation "SHw" => S128x10
local notation "SHb" => S1x10
local notation "SHo" => S512x10
local notation "INBx" => inb_S512x128_S512x128_0_0
local notation "INBw" => inb_S128x10_S128x10_0_0
local notation "INBb" => inb_S1x10_S1x10_0_0
local notation "INBo" => inb_S512x10_S512x10_0_0

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 := Rect.unit (s := SHx) _ _ INBx
abbrev r9_1 := Rect.unit (s := SHw) _ _ INBw
abbrev r9_2 := Rect.unit (s := SHb) _ _ INBb
abbrev r9_o := Rect.unit (s := SHo) _ _ INBo

def out9_3 (x0 : Vec F SHx .f32) (x1 : Vec F SHw .f32) (x2 : Vec F SHb .f32) : Vec F SHo .f32 :=
  View.canon [⟨r9_o, k9_pay1 (View.ld x0 r9_0) (View.ld x1 r9_1) (View.ld x2 r9_2)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := rfl

theorem after9_3 (c : Dev nD) (t : Fin cfg9.N) : (dat9 V c).after 3 t = out9_3 (iblk9 V c 0 t) (iblk9 V c 1 t) (iblk9 V c 2 t) := by dsimp only [dat9]

theorem share9 (c : Dev nD) : ∀ w, (dat9 V c).q w = fullShare := fun _ => rfl
theorem owed9 (c : Dev nD) : ∀ x, (dat9 V c).owed x = 0 := fun _ => rfl
theorem recorded9 (c : Dev nD) : ∀ t, (dat9 V c).recorded t = Set.univ := fun _ => rfl

theorem hin9 (c : Dev nD) : Pipeline.ΦA spec9 c ⊢ (dat9 V c).Φ 0 := Entails.refl _
theorem hout9 (c : Dev nD) : (dat9 V c).Φ (Fin.last cfg9.N) ⊢ Pipeline.ΦA spec9 c := Entails.refl _

theorem before9 (c : Dev nD) : ∀ w, (cfg9.win w).isOut = false → ∀ t d, (dat9 V c).before w t d = (dat9 V c).after w t
  | 0, h | 1, h | 2, h => (dat9 V c).before_in_eq_fetched _ h (fun _ => rfl) (fun _ _ _ => rfl) fun _ => rfl
  | 3, h => nomatch h

-- The store's rectangle is the whole output shape, so what it leaves reads as `out9_3` of the blocks read, whatever was there before.
theorem body_obligation9 (c : Dev nD) : BodyObligation (dat9 (F := F) V c) (defs₀ (F := F)) Variants.none () Set.univ := fun t => by
  rw [bigSep_W9, bigSep_W9]
  sl_whnfR [defs₀, Defs.onTc]
  sl_unfold [cc9__dense_kernel]
  simp (disch := rfl) only [before9]
  unfold owns
  dsimp only [dat9, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.Kernel.Hand

end
-- ==== Proof.KB.Launch.lean ====
import proofs.«417880_j4011499454825_1_alg».proof.Proof.KB.Reg0
import proofs.«417880_j4011499454825_1_alg».proof.Proof.KB.Reg1
import proofs.«417880_j4011499454825_1_alg».proof.Proof.KB.Reg2
import proofs.«417880_j4011499454825_1_alg».proof.Proof.KB.Reg3
import proofs.«417880_j4011499454825_1_alg».proof.Proof.KB.Reg4
import proofs.«417880_j4011499454825_1_alg».proof.Proof.KB.Reg5
import proofs.«417880_j4011499454825_1_alg».proof.Proof.KB.Reg6
import proofs.«417880_j4011499454825_1_alg».proof.Proof.KB.Reg7
import proofs.«417880_j4011499454825_1_alg».proof.Proof.KB.Reg8
import proofs.«417880_j4011499454825_1_alg».proof.Proof.KB.Reg9
import proofs.«417880_j4011499454825_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev Vin0 : (c : Dev nD) → (b : Ref sig .tc) → Buf (Elt F) ((c : Thread nD τ).loc b) := fun c b => W3 m c b
def W4 (c : Dev nD) : Valuation τ sig (Elt F) :=
  Function.update (W3 m c) main_v44 ((dat0 (Vin0 m) c).arrAt 3 cfg0.N)
abbrev W5 (c : Dev nD) : Valuation τ sig (Elt F) := StableHlo.after hostOps1 (W4 m c)
abbrev W6 (c : Dev nD) : Valuation τ sig (Elt F) := StableHlo.after hostOps1_1 (W5 m c)
abbrev W7 (c : Dev nD) : Valuation τ sig (Elt F) := StableHlo.after hostOps1_2 (W6 m c)
abbrev Vin1 : (c : Dev nD) → (b : Ref sig .tc) → Buf (Elt F) ((c : Thread nD τ).loc b) := fun c b => W7 m c b
def W8 (c : Dev nD) : Valuation τ sig (Elt F) :=
  Function.update (W7 m c) main_v49 ((dat1 (Vin1 m) c).arrAt 3 cfg1.N)
abbrev W9 (c : Dev nD) : Valuation τ sig (Elt F) := StableHlo.after hostOps2 (W8 m c)
abbrev Vin2 : (c : Dev nD) → (b : Ref sig .tc) → Buf (Elt F) ((c : Thread nD τ).loc b) := fun c b => W9 m c b
def W10 (c : Dev nD) : Valuation τ sig (Elt F) :=
  Function.update (W9 m c) main_v63 ((dat2 (Vin2 m) c).arrAt 3 cfg2.N)
abbrev W11 (c : Dev nD) : Valuation τ sig (Elt F) := StableHlo.after hostOps3 (W10 m c)
abbrev Vin3 : (c : Dev nD) → (b : Ref sig .tc) → Buf (Elt F) ((c : Thread nD τ).loc b) := fun c b => W11 m c b
def W12 (c : Dev nD) : Valuation τ sig (Elt F) :=
  Function.update (W11 m c) main_v66 ((dat3 (Vin3 m) c).arrAt 3 cfg3.N)
abbrev W13 (c : Dev nD) : Valuation τ sig (Elt F) := StableHlo.after hostOps4 (W12 m c)
abbrev Vin4 : (c : Dev nD) → (b : Ref sig .tc) → Buf (Elt F) ((c : Thread nD τ).loc b) := fun c b => W13 m c b
def W14 (c : Dev nD) : Valuation τ sig (Elt F) :=
  Function.update (W13 m c) main_v80 ((dat4 (Vin4 m) c).arrAt 3 cfg4.N)
abbrev W15 (c : Dev nD) : Valuation τ sig (Elt F) := StableHlo.after hostOps5 (W14 m c)
abbrev Vin5 : (c : Dev nD) → (b : Ref sig .tc) → Buf (Elt F) ((c : Thread nD τ).loc b) := fun c b => W15 m c b
def W16 (c : Dev nD) : Valuation τ sig (Elt F) :=
  Function.update (W15 m c) main_v83 ((dat5 (Vin5 m) c).arrAt 3 cfg5.N)
abbrev W17 (c : Dev nD) : Valuation τ sig (Elt F) := StableHlo.after hostOps6 (W16 m c)
abbrev Vin6 : (c : Dev nD) → (b : Ref sig .tc) → Buf (Elt F) ((c : Thread nD τ).loc b) := fun c b => W17 m c b
def W18 (c : Dev nD) : Valuation τ sig (Elt F) :=
  Function.update (W17 m c) main_v97 ((dat6 (Vin6 m) c).arrAt 3 cfg6.N)
abbrev W19 (c : Dev nD) : Valuation τ sig (Elt F) := StableHlo.after hostOps7 (W18 m c)
abbrev Vin7 : (c : Dev nD) → (b : Ref sig .tc) → Buf (Elt F) ((c : Thread nD τ).loc b) := fun c b => W19 m c b
def W20 (c : Dev nD) : Valuation τ sig (Elt F) :=
  Function.update (W19 m c) main_v102 ((dat7 (Vin7 m) c).arrAt 3 cfg7.N)
abbrev W21 (c : Dev nD) : Valuation τ sig (Elt F) := StableHlo.after hostOps8 (W20 m c)
abbrev Vin8 : (c : Dev nD) → (b : Ref sig .tc) → Buf (Elt F) ((c : Thread nD τ).loc b) := fun c b => W21 m c b
def W22 (c : Dev nD) : Valuation τ sig (Elt F) :=
  Function.update (W21 m c) main_v104 ((dat8 (Vin8 m) c).arrAt 3 cfg8.N)
abbrev W23 (c : Dev nD) : Valuation τ sig (Elt F) := StableHlo.after hostOps9 (W22 m c)
abbrev Vin9 : (c : Dev nD) → (b : Ref sig .tc) → Buf (Elt F) ((c : Thread nD τ).loc b) := fun c b => W23 m c b
def W24 (c : Dev nD) : Valuation τ sig (Elt F) :=
  Function.update (W23 m c) main_v106 ((dat9 (Vin9 m) c).arrAt 3 cfg9.N)

theorem W4_of_ne (c : Dev nD) (x : DevRef τ sig) (hx : x ≠ Proc.devRef .tc main_v44) : W4 m c x = W3 m c x :=
  Function.update_of_ne hx _ _
theorem W4_out (c : Dev nD) : W4 m c (Proc.devRef .tc main_v44) = (dat0 (Vin0 m) c).arrAt 3 cfg0.N :=
  Function.update_self _ _ _
theorem W8_of_ne (c : Dev nD) (x : DevRef τ sig) (hx : x ≠ Proc.devRef .tc main_v49) : W8 m c x = W7 m c x :=
  Function.update_of_ne hx _ _
theorem W8_out (c : Dev nD) : W8 m c (Proc.devRef .tc main_v49) = (dat1 (Vin1 m) c).arrAt 3 cfg1.N :=
  Function.update_self _ _ _
theorem W10_of_ne (c : Dev nD) (x : DevRef τ sig) (hx : x ≠ Proc.devRef .tc main_v63) : W10 m c x = W9 m c x :=
  Function.update_of_ne hx _ _
theorem W10_out (c : Dev nD) : W10 m c (Proc.devRef .tc main_v63) = (dat2 (Vin2 m) c).arrAt 3 cfg2.N :=
  Function.update_self _ _ _
theorem W12_of_ne (c : Dev nD) (x : DevRef τ sig) (hx : x ≠ Proc.devRef .tc main_v66) : W12 m c x = W11 m c x :=
  Function.update_of_ne hx _ _
theorem W12_out (c : Dev nD) : W12 m c (Proc.devRef .tc main_v66) = (dat3 (Vin3 m) c).arrAt 3 cfg3.N :=
  Function.update_self _ _ _
theorem W14_of_ne (c : Dev nD) (x : DevRef τ sig) (hx : x ≠ Proc.devRef .tc main_v80) : W14 m c x = W13 m c x :=
  Function.update_of_ne hx _ _
theorem W14_out (c : Dev nD) : W14 m c (Proc.devRef .tc main_v80) = (dat4 (Vin4 m) c).arrAt 3 cfg4.N :=
  Function.update_self _ _ _
theorem W16_of_ne (c : Dev nD) (x : DevRef τ sig) (hx : x ≠ Proc.devRef .tc main_v83) : W16 m c x = W15 m c x :=
  Function.update_of_ne hx _ _
theorem W16_out (c : Dev nD) : W16 m c (Proc.devRef .tc main_v83) = (dat5 (Vin5 m) c).arrAt 3 cfg5.N :=
  Function.update_self _ _ _
theorem W18_of_ne (c : Dev nD) (x : DevRef τ sig) (hx : x ≠ Proc.devRef .tc main_v97) : W18 m c x = W17 m c x :=
  Function.update_of_ne hx _ _
theorem W18_out (c : Dev nD) : W18 m c (Proc.devRef .tc main_v97) = (dat6 (Vin6 m) c).arrAt 3 cfg6.N :=
  Function.update_self _ _ _
theorem W20_of_ne (c : Dev nD) (x : DevRef τ sig) (hx : x ≠ Proc.devRef .tc main_v102) : W20 m c x = W19 m c x :=
  Function.update_of_ne hx _ _
theorem W20_out (c : Dev nD) : W20 m c (Proc.devRef .tc main_v102) = (dat7 (Vin7 m) c).arrAt 3 cfg7.N :=
  Function.update_self _ _ _
theorem W22_of_ne (c : Dev nD) (x : DevRef τ sig) (hx : x ≠ Proc.devRef .tc main_v104) : W22 m c x = W21 m c x :=
  Function.update_of_ne hx _ _
theorem W22_out (c : Dev nD) : W22 m c (Proc.devRef .tc main_v104) = (dat8 (Vin8 m) c).arrAt 3 cfg8.N :=
  Function.update_self _ _ _
theorem W24_of_ne (c : Dev nD) (x : DevRef τ sig) (hx : x ≠ Proc.devRef .tc main_v106) : W24 m c x = W23 m c x :=
  Function.update_of_ne hx _ _
theorem W24_out (c : Dev nD) : W24 m c (Proc.devRef .tc main_v106) = (dat9 (Vin9 m) c).arrAt 3 cfg9.N :=
  Function.update_self _ _ _

def outs : Outs (F := F) := fun J r c =>
  match J with
  | 4 => W4 m c r
  | 8 => W8 m c r
  | 10 => W10 m c r
  | 12 => W12 m c r
  | 14 => W14 m c r
  | 16 => W16 m c r
  | 18 => W18 m c r
  | 20 => W20 m c r
  | 22 => W22 m c r
  | 24 => W24 m c r
  | _ => W0 m c r

/-- Updating `f` at `a` to `g a` gives `g`, when `g` agrees with `f` off `a`. -/
theorem update_at_eq {α : Type} [DecidableEq α] {β : α → Type} {f f' g : (a : α) → β a} {a : α} (hf : f = f')
    (h : ∀ x, x ≠ a → g x = f' x) : Function.update f a (g a) = g :=
  hf ▸ Function.update_eq_iff.mpr ⟨rfl, fun x hx => (h x hx).symm⟩

theorem V4_eq (c : Dev nD) : V4 m (outs m) c = W4 m c := update_at_eq rfl (W4_of_ne m c)
theorem V7_eq (c : Dev nD) : V7 m (outs m) c = W7 m c :=
  congrArg (StableHlo.after hostOps1_2) (congrArg (StableHlo.after hostOps1_1) (congrArg (StableHlo.after hostOps1) (V4_eq m c)))
theorem V8_eq (c : Dev nD) : V8 m (outs m) c = W8 m c := update_at_eq (V7_eq m c) (W8_of_ne m c)
theorem V9_eq (c : Dev nD) : V9 m (outs m) c = W9 m c := congrArg (StableHlo.after hostOps2) (V8_eq m c)
theorem V10_eq (c : Dev nD) : V10 m (outs m) c = W10 m c := update_at_eq (V9_eq m c) (W10_of_ne m c)
theorem V11_eq (c : Dev nD) : V11 m (outs m) c = W11 m c := congrArg (StableHlo.after hostOps3) (V10_eq m c)
theorem V12_eq (c : Dev nD) : V12 m (outs m) c = W12 m c := update_at_eq (V11_eq m c) (W12_of_ne m c)
theorem V13_eq (c : Dev nD) : V13 m (outs m) c = W13 m c := congrArg (StableHlo.after hostOps4) (V12_eq m c)
theorem V14_eq (c : Dev nD) : V14 m (outs m) c = W14 m c := update_at_eq (V13_eq m c) (W14_of_ne m c)
theorem V15_eq (c : Dev nD) : V15 m (outs m) c = W15 m c := congrArg (StableHlo.after hostOps5) (V14_eq m c)
theorem V16_eq (c : Dev nD) : V16 m (outs m) c = W16 m c := update_at_eq (V15_eq m c) (W16_of_ne m c)
theorem V17_eq (c : Dev nD) : V17 m (outs m) c = W17 m c := congrArg (StableHlo.after hostOps6) (V16_eq m c)
theorem V18_eq (c : Dev nD) : V18 m (outs m) c = W18 m c := update_at_eq (V17_eq m c) (W18_of_ne m c)
theorem V19_eq (c : Dev nD) : V19 m (outs m) c = W19 m c := congrArg (StableHlo.after hostOps7) (V18_eq m c)
theorem V20_eq (c : Dev nD) : V20 m (outs m) c = W20 m c := update_at_eq (V19_eq m c) (W20_of_ne m c)
theorem V21_eq (c : Dev nD) : V21 m (outs m) c = W21 m c := congrArg (StableHlo.after hostOps8) (V20_eq m c)
theorem V22_eq (c : Dev nD) : V22 m (outs m) c = W22 m c := update_at_eq (V21_eq m c) (W22_of_ne m c)
theorem V23_eq (c : Dev nD) : V23 m (outs m) c = W23 m c := congrArg (StableHlo.after hostOps9) (V22_eq m c)
theorem V24_eq (c : Dev nD) : V24 m (outs m) c = W24 m c := update_at_eq (V23_eq m c) (W24_of_ne m c)

def pdats : (p : Fin 10) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c
  | ⟨9, _⟩ => fun c => dat9 (Vin9 m) c

abbrev 𝒱₀ : Variants := Variants.none
abbrev L : GSem nD τ sig → Finset Unit := fun _ => ∅
abbrev lv : GSem nD τ sig → Unit → ℕ := fun _ _ => 0
/-- The state carried beside the buffers between two items. -/
abbrev R (c : Dev nD) : sProp 𝕄 := iprop((∃ r, prngReg c r) ∗ ∃ W, owes (c : Thread nD τ) (0 : CellTallies nD τ sig Unit) W)
abbrev E : Fin 11 → Dev nD → sProp 𝕄 := fun _ c => R c

/-- The thread state at equal valuations. -/
theorem seam {c : Dev nD} {V W : Valuation τ sig (Elt F)} (h : V = W) :
    iprop(StableHlo.held (c : Thread nD τ) (Pipeline.ucRefs τ sig) V ∗ R (F := F) c)
      ⊢ iprop(StableHlo.held (c : Thread nD τ) (Pipeline.ucRefs τ sig) W ∗ R (F := F) c) := h ▸ .rfl

set_option backward.isDefEq.respectTransparency.types false in
/-- Region `p` as a segment: entered with the unscoped buffers at `Vi`, left at `Vo`, which is `Vi` but at output window `o`'s array, there `arrAt o N`. -/
def region (pd : (p : Fin 10) → (c : Dev nD) → Dat τ (Elt F) Unit ℕ (UR sig nD τ) ℕ (cfgs p) c) (p : Fin 10)
    (ln : Pipeline.LaunchFacts (nD := nD) (τ := τ) cfgs p) (o : Fin (cfgs p).W)
    (hio : ∀ w, w ≠ o → ((cfgs p).win w).isOut = false) (Vi Vo : Dev nD → Valuation τ sig (Elt F))
    (hne : ∀ c x, x ≠ Proc.devRef .tc (Pipeline.arrRef (cfgs p).spec o) → Vo c x = Vi c x)
    (hself : ∀ c, Vo c (Proc.devRef .tc (Pipeline.arrRef (cfgs p).spec o)) = (pd p c).arrAt o (cfgs p).N)
    (hA : ∀ c w, (pd p c).A w = Vi c (Proc.devRef .tc (Pipeline.arrRef (cfgs p).spec w)))
    (hq : ∀ c w, (pd p c).q w = fullShare) (howed : ∀ c t, (pd p c).owed t = 0)
    (hrec : ∀ c t, (pd p c).recorded t = Set.univ)
    (hb : ∀ c, BodyObligation (pd p c) (defs₀ (F := F)) Variants.none () Set.univ)
    (hΦ0 : ∀ c, Pipeline.ΦA (cfgs p).spec c ⊢ (pd p c).Φ 0)
    (hΦN : ∀ c, (pd p c).Φ (Fin.last (cfgs p).N) ⊢ Pipeline.ΦA (cfgs p).spec c) :
    Pipeline.RegionSeg (pcfgs (F := F)) adm pd () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm pd ln.win ln.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr
      · ipureintro; exact fun x _ => Or.inl ((hrec c 0).symm ▸ Set.mem_univ x)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hF : ∀ w, (pd p c).arrAt w (cfgs p).N = Vo c (Proc.devRef .tc (Pipeline.arrRef (cfgs p).spec w)) := fun w => by
      by_cases h : w = o
      · subst h; exact (hself c).symm
      · exact (((pd p c).arrAt_in w (hio w h) _).trans (hA c w)).trans
          (hne c _ (StableHlo.devRef_ne_of_ne fun e => h (ln.win.arr_inj e))).symm
    have hjoin := Pipeline.unscopedBufs_of_arrays (p := p) (pcfgs (F := F)) adm (Ix := Unit) (Name := ℕ) (U := UR sig nD τ) (Lvl := ℕ)
      ln.win ln.arr_whole c pd ((pd p c).share_full (hq c)) (fun b => Vi c b) (fun b => Vo c b) ((pd p c).arrAt · (cfgs p).N) hF
      fun b hb => hne c _ (StableHlo.devRef_ne_of_ne fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ 𝒱₀ L lv 0 :=
  region (pdats m) 0 launch0 (3 : Fin 4) (by decide) (W3 m) (W4 m) (W4_of_ne m) (W4_out m) (A_eq0 (Vin0 m)) (share0 (Vin0 m))
    (owed0 (Vin0 m)) (recorded0 (Vin0 m)) (body_obligation0 (Vin0 m)) (hin0 (Vin0 m)) (hout0 (Vin0 m))
def reg1 : Pipeline.RegionSeg (pcfgs (F := F)) adm (pdats m) () defs₀ 𝒱₀ L lv 1 :=
  region (pdats m) 1 launch1 (3 : Fin 4) (by decide) (W7 m) (W8 m) (W8_of_ne m) (W8_out m) (A_eq1 (Vin1 m)) (share1 (Vin1 m))
    (owed1 (Vin1 m)) (recorded1 (Vin1 m)) (body_obligation1 (Vin1 m)) (hin1 (Vin1 m)) (hout1 (Vin1 m))
def reg2 : Pipeline.RegionSeg (pcfgs (F := F)) adm (pdats m) () defs₀ 𝒱₀ L lv 2 :=
  region (pdats m) 2 launch2 (3 : Fin 4) (by decide) (W9 m) (W10 m) (W10_of_ne m) (W10_out m) (A_eq2 (Vin2 m)) (share2 (Vin2 m))
    (owed2 (Vin2 m)) (recorded2 (Vin2 m)) (body_obligation2 (Vin2 m)) (hin2 (Vin2 m)) (hout2 (Vin2 m))
def reg3 : Pipeline.RegionSeg (pcfgs (F := F)) adm (pdats m) () defs₀ 𝒱₀ L lv 3 :=
  region (pdats m) 3 launch3 (3 : Fin 4) (by decide) (W11 m) (W12 m) (W12_of_ne m) (W12_out m) (A_eq3 (Vin3 m)) (share3 (Vin3 m))
    (owed3 (Vin3 m)) (recorded3 (Vin3 m)) (body_obligation3 (Vin3 m)) (hin3 (Vin3 m)) (hout3 (Vin3 m))
def reg4 : Pipeline.RegionSeg (pcfgs (F := F)) adm (pdats m) () defs₀ 𝒱₀ L lv 4 :=
  region (pdats m) 4 launch4 (3 : Fin 4) (by decide) (W13 m) (W14 m) (W14_of_ne m) (W14_out m) (A_eq4 (Vin4 m)) (share4 (Vin4 m))
    (owed4 (Vin4 m)) (recorded4 (Vin4 m)) (body_obligation4 (Vin4 m)) (hin4 (Vin4 m)) (hout4 (Vin4 m))
def reg5 : Pipeline.RegionSeg (pcfgs (F := F)) adm (pdats m) () defs₀ 𝒱₀ L lv 5 :=
  region (pdats m) 5 launch5 (3 : Fin 4) (by decide) (W15 m) (W16 m) (W16_of_ne m) (W16_out m) (A_eq5 (Vin5 m)) (share5 (Vin5 m))
    (owed5 (Vin5 m)) (recorded5 (Vin5 m)) (body_obligation5 (Vin5 m)) (hin5 (Vin5 m)) (hout5 (Vin5 m))
def reg6 : Pipeline.RegionSeg (pcfgs (F := F)) adm (pdats m) () defs₀ 𝒱₀ L lv 6 :=
  region (pdats m) 6 launch6 (3 : Fin 4) (by decide) (W17 m) (W18 m) (W18_of_ne m) (W18_out m) (A_eq6 (Vin6 m)) (share6 (Vin6 m))
    (owed6 (Vin6 m)) (recorded6 (Vin6 m)) (body_obligation6 (Vin6 m)) (hin6 (Vin6 m)) (hout6 (Vin6 m))
def reg7 : Pipeline.RegionSeg (pcfgs (F := F)) adm (pdats m) () defs₀ 𝒱₀ L lv 7 :=
  region (pdats m) 7 launch7 (3 : Fin 4) (by decide) (W19 m) (W20 m) (W20_of_ne m) (W20_out m) (A_eq7 (Vin7 m)) (share7 (Vin7 m))
    (owed7 (Vin7 m)) (recorded7 (Vin7 m)) (body_obligation7 (Vin7 m)) (hin7 (Vin7 m)) (hout7 (Vin7 m))
def reg8 : Pipeline.RegionSeg (pcfgs (F := F)) adm (pdats m) () defs₀ 𝒱₀ L lv 8 :=
  region (pdats m) 8 launch8 (3 : Fin 4) (by decide) (W21 m) (W22 m) (W22_of_ne m) (W22_out m) (A_eq8 (Vin8 m)) (share8 (Vin8 m))
    (owed8 (Vin8 m)) (recorded8 (Vin8 m)) (body_obligation8 (Vin8 m)) (hin8 (Vin8 m)) (hout8 (Vin8 m))
def reg9 : Pipeline.RegionSeg (pcfgs (F := F)) adm (pdats m) () defs₀ 𝒱₀ L lv 9 :=
  region (pdats m) 9 launch9 (3 : Fin 4) (by decide) (W23 m) (W24 m) (W24_of_ne m) (W24_out m) (A_eq9 (Vin9 m)) (share9 (Vin9 m))
    (owed9 (Vin9 m)) (recorded9 (Vin9 m)) (body_obligation9 (Vin9 m)) (hin9 (Vin9 m)) (hout9 (Vin9 m))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE10 (c : Dev nD) : E (F := F) 10 c ⊢ (iprop(∃ W, owes (c : Thread nD τ) (0 : CellTallies nD τ sig Unit) W) : sProp 𝕄) := by
  iintro ⟨-, HO⟩; iexact HO

/-- Memory `μ` holds each argument array of core `c` as launched. -/
abbrev kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)

/-- From any memory with zero counters every weakly fair execution terminates, each argument array as launched. -/
theorem frame_all (ρ : Dev nD → PrngReg) : θ_run defs (onTc (τ := τ) (main (F := F))) ⟨m, fun _ => 0, ρ⟩ (fun r => ∀ c : Dev nD, kept m r.2.mem c) :=
  frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE10
    (reg0 m) (fun _ => .rfl) (fun c => seam (V4_eq m c).symm)
    (reg1 m) (fun c => seam (V7_eq m c)) (fun c => seam (V8_eq m c).symm)
    (reg2 m) (fun c => seam (V9_eq m c)) (fun c => seam (V10_eq m c).symm)
    (reg3 m) (fun c => seam (V11_eq m c)) (fun c => seam (V12_eq m c).symm)
    (reg4 m) (fun c => seam (V13_eq m c)) (fun c => seam (V14_eq m c).symm)
    (reg5 m) (fun c => seam (V15_eq m c)) (fun c => seam (V16_eq m c).symm)
    (reg6 m) (fun c => seam (V17_eq m c)) (fun c => seam (V18_eq m c).symm)
    (reg7 m) (fun c => seam (V19_eq m c)) (fun c => seam (V20_eq m c).symm)
    (reg8 m) (fun c => seam (V21_eq m c)) (fun c => seam (V22_eq m c).symm)
    (reg9 m) (fun c => seam (V23_eq m c)) (fun c => seam (V24_eq m c).symm)

end Cert.Kernel.Hand

end
-- ==== Proof.KI.Reg0.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rF0 : Rect S400x128 := Rect.unit (s := S400x128) ![0, 0] S400x128.size inb_S400x128_S400x128_0_0
abbrev rI0 : Rect S400x1 := Rect.unit (s := S400x1) ![0, 0] S400x1.size inb_S400x1_S400x1_0_0
abbrev rB0 : Rect S1x128 := Rect.unit (s := S1x128) ![0, 0] S1x128.size inb_S1x128_S1x128_0_0
abbrev rA0 : Rect S20000x128 := Rect.unit (s := S20000x128) ![0, 0] S20000x128.size inb_S20000x128_S20000x128_0_0

def upd0 (i : grid0.Coords) (x1 : Vec F S400x1 .i32) (acc : Vec F S20000x128 .f32) (x0 : Vec F S400x128 .bf16) : Vec F S20000x128 .f32 :=
  k0_pay2 i (View.ld x1 rI0) (View.ld acc rA0) (View.ld x0 rF0)

def accAt0 (c : Dev nD) : (n : ℕ) → n < cfg0.N → Vec F S20000x128 .f32
  | 0, hn => upd0 (grid0.coords ⟨0, hn⟩) (iblk0 V c 1 ⟨0, hn⟩) (k0_pay1 (F := F)) (iblk0 V c 0 ⟨0, hn⟩)
  | n + 1, hn => upd0 (grid0.coords ⟨n + 1, hn⟩) (iblk0 V c 1 ⟨n + 1, hn⟩)
      (if (n + 1) % 4000 = 0 then k0_pay1 (F := F) else accAt0 c n (Nat.lt_of_succ_lt hn)) (iblk0 V c 0 ⟨n + 1, hn⟩)

theorem accAt0_first (c : Dev nD) (t : Fin cfg0.N) (h : t.val % 4000 = 0) :
    accAt0 V c t.val t.isLt = upd0 (grid0.coords t) (iblk0 V c 1 t) (k0_pay1 (F := F)) (iblk0 V c 0 t) := by
  obtain ⟨n, hn⟩ := t
  cases n with
  | zero => rfl
  | succ n => exact congrArg (fun a => upd0 (grid0.coords ⟨n + 1, hn⟩) (iblk0 V c 1 ⟨n + 1, hn⟩) a (iblk0 V c 0 ⟨n + 1, hn⟩)) (if_pos h)

theorem accAt0_next (c : Dev nD) (t : Fin cfg0.N) (h : ¬t.val % 4000 = 0) :
    accAt0 V c t.val t.isLt = upd0 (grid0.coords t) (iblk0 V c 1 t)
      (accAt0 V c (t.val - 1) (Nat.lt_of_le_of_lt (Nat.sub_le _ _) t.isLt)) (iblk0 V c 0 t) := by
  obtain ⟨n, hn⟩ := t
  cases n with
  | zero => exact absurd (Nat.zero_mod _) h
  | succ n => exact congrArg (fun a => upd0 (grid0.coords ⟨n + 1, hn⟩) (iblk0 V c 1 ⟨n + 1, hn⟩) a (iblk0 V c 0 ⟨n + 1, hn⟩)) (if_neg h)

def out0_3 (acc : Vec F S20000x128 .f32) (x2 : Vec F S1x128 .f32) : Vec F S20000x128 .f32 :=
  View.canon [⟨rA0, k0_pay3 (View.ld acc rA0) (View.ld x2 rB0)⟩]

abbrev scM0 : Memref sig .tc .vmem S20000x128 .f32 := Memref.whole cc0_scratch0

abbrev inv0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => inv0 c (owns (c : Thread nD τ) scM0 fullShare (accAt0 V c n hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (accAt0 V c t.val t.isLt) (iblk0 V c 2 t) := by dsimp only [dat0]

theorem share0 (c : Dev nD) : ∀ w, (dat0 V c).q w = fullShare := fun _ => rfl
theorem owed0 (c : Dev nD) : ∀ x, (dat0 V c).owed x = 0 := fun _ => rfl
theorem recorded0 (c : Dev nD) : ∀ t, (dat0 V c).recorded t = Set.univ := fun _ => rfl

abbrev cond0_1 (i : grid0.Coords) : Prop := (Scalar.cmpi .ne (Scalar.extui (Scalar.cmpi .eq (BitVec.ofNat 32 (i 1).val) 0#32)) 0#32) = 1#1

theorem hzA0 : (![0, 0] : Fin S20000x128.rank → Nat) = fun _ => 0 := funext fun a => by fin_cases a <;> rfl

theorem read_writes_last0 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA0, w⟩ :: L)) = w := by
  rw [View.read_writes_eq_canon v f _ (fun y => ⟨⟨rA0, w⟩, List.mem_cons_self, View.mem_set_unit_zero hzA0 inb_S20000x128_S20000x128_0_0 y⟩)]
  exact View.canon_cons_unit_zero hzA0 _ w L

-- Joins the two cases of the reset, so that one symbolic run of the body serves first and later steps alike.
theorem acc_read0 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA0, k0_pay1⟩] else f) = if b then k0_pay1 else xs := by
  by_cases h : b
  · rw [dif_pos h, if_pos h, read_writes_last0]
  · rw [dif_neg h, if_neg h, hd h]

set_option maxHeartbeats 1000000 in
theorem run0 (c : Dev nD) (E : Set ℕ) (i : grid0.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd0 i x1 (if cond0_1 i then k0_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond0_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k0_cond2 i = 1#1 then out0_3 a x2 else x3)
                ∗ owns (c : Thread nD τ) arg6 fullShare a) -∗ K ⟨⟩))
      ⊢ wp frame (wpE (defs₀ (F := F)) Variants.none c none) E (cc0__scatter_kernel i arg2 harg2 arg3 harg3 arg4 harg4 arg5 harg5 arg6 harg6) K := by
  subst ha
  simp only [cc0__scatter_kernel_eq_skeleton]; unfold cc0__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k0_cond2 i = 1#1
    · rw [dif_pos hc2, if_pos hc2, read_writes_last0]; unfold out0_3 upd0
      simp only [View.readAt_eq_ld, View.readCov_unit_zero (S := S20000x128) _ hzA0, View.ld_unit_zero (S := S20000x128) hzA0,
        View.canon_unit_zero (S := S20000x128) hzA0, acc_read0 _ _ _ _ hd]
    · rw [dif_neg hc2, if_neg hc2]
  iexists _; isplitr
  swap; · iexact H6
  ipureintro
  sl_unfold_run_names
  rw [read_writes_last0]; unfold upd0
  simp only [View.readAt_eq_ld, acc_read0 _ _ _ _ hd]

theorem coord0_1 (t : Fin cfg0.N) : ((grid0.coords t) 1).val = t.val % 4000 := by
  show t.val / grid0.stride 1 % 4000 = t.val % 4000
  rw [show grid0.stride 1 = 1 from by decide, Nat.div_one]

theorem ofNat32_inj0 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond0_1 (t : Fin cfg0.N) : cond0_1 (grid0.coords t) ↔ t.val % 4000 = 0 := by
  have hlt : ((grid0.coords t) 1).val < 4000 := ((grid0.coords t) 1).isLt
  unfold cond0_1
  rw [Scalar.guard_iff, Scalar.cmpi, IntOp.cmpi_eq, ofNat32_inj0 (by omega) (by omega), coord0_1]

theorem hcond0_2 (t : Fin cfg0.N) : k0_cond2 (grid0.coords t) = 1#1 ↔ t.val % 4000 = 3999 := by
  have hlt : ((grid0.coords t) 1).val < 4000 := ((grid0.coords t) 1).isLt
  unfold k0_cond2
  rw [Scalar.guard_iff, Scalar.cmpi, IntOp.cmpi_eq, ofNat32_inj0 (by omega) (by omega), coord0_1]

theorem idleAt0_3 (t : Fin cfg0.N) (h : ¬k0_cond2 (grid0.coords t) = 1#1) : cfg0.idle 3 (grid0.coords t) = true := by
  show (!(k0_cond2 (grid0.coords t) == 1#1)) = true
  rw [Bool.not_eq_true', beq_eq_false_iff_ne]; exact h

theorem liveAt0_3 (t : Fin cfg0.N) (h : k0_cond2 (grid0.coords t) = 1#1) : cfg0.idle 3 (grid0.coords t) = false := by
  show (!(k0_cond2 (grid0.coords t) == 1#1)) = false
  rw [Bool.not_eq_false', beq_iff_eq]; exact h

theorem coord0_0 (t : Fin cfg0.N) : ((grid0.coords t) 0).val = t.val / 4000 := by
  show t.val / grid0.stride 0 % grid0.bound 0 = t.val / 4000
  rw [show grid0.stride 0 = 4000 from by decide]
  exact Nat.mod_eq_of_lt (Nat.div_lt_of_lt_mul (lt_of_lt_of_eq t.isLt (show cfg0.N = 4000 * grid0.bound 0 from by decide)))

theorem index0_3 (t : Fin cfg0.N) : (cfg0.win 3).index t = ![t.val / 4000, 0] := by
  have ht : t.val < 20000 := lt_of_lt_of_eq t.isLt (show cfg0.N = 20000 from N_0)
  show cc0_transform_3 (grid0.coords t) = _
  unfold cc0_transform_3
  dsimp only
  rw [BitVec.toNat_ofNat, coord0_0, Nat.mod_eq_of_lt (show t.val / 4000 < 2 ^ 32 by omega)]
  rfl

theorem flushH0_3 (t : Fin cfg0.N) : (cfg0.win 3).flush t = true ↔ t.val % 4000 = 3999 := by
  have hN : cfg0.N = 20000 := N_0
  have ht : t.val < 20000 := lt_of_lt_of_eq t.isLt hN
  rw [(cfg0.win 3).flush_out rfl]
  constructor
  · rintro (h | ⟨h, hne⟩)
    · have h' : t.val + 1 = 20000 := h.trans hN
      omega
    · by_contra hc
      apply hne
      rw [index0_3, index0_3]
      have e : (t.val + 1) / 4000 = t.val / 4000 := by omega
      show ![(t.val + 1) / 4000, 0] = ![t.val / 4000, 0]
      rw [e]
  · intro h
    by_cases hl : t.val + 1 = 20000
    · exact .inl (hl.trans hN.symm)
    · refine .inr ⟨lt_of_lt_of_eq (show t.val + 1 < 20000 by omega) hN.symm, fun he => ?_⟩
      rw [index0_3, index0_3] at he
      have e0 := congrFun he 0
      have e1 : (t.val + 1) / 4000 = t.val / 4000 := e0
      omega

abbrev bodyAtH0 (t : Fin cfg0.N) : Prog (TpuEff nD τ sig (Elt F) Λ₀ .tc) PUnit :=
  cc0__scatter_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

theorem accAt0_step (c : Dev nD) (t : Fin cfg0.N) :
    accAt0 V c t.val t.isLt = upd0 (grid0.coords t) (iblk0 V c 1 t)
      (if cond0_1 (grid0.coords t) then k0_pay1 (F := F) else accAt0 V c (t.val - 1) (Nat.lt_of_le_of_lt (Nat.sub_le _ _) t.isLt)) (iblk0 V c 0 t) := by
  by_cases h : t.val % 4000 = 0
  · rw [if_pos ((hcond0_1 t).mpr h), accAt0_first V c t h]
  · rw [if_neg (mt (hcond0_1 t).mp h), accAt0_next V c t h]

theorem PhiS0_castSucc (c : Dev nD) (t : Fin cfg0.N) :
    (dat0 V c).Φ t.castSucc = PhiS0 V c t.val (Nat.le_of_lt t.isLt) := by
  dsimp only [dat0]; simp only [Fin.coe_castSucc]

theorem PhiA0_eq (c : Dev nD) :
    (Pipeline.ΦA spec0 c : sProp 𝕄) = inv0 c iprop(∃ d, owns (c : Thread nD τ) scM0 fullShare d) := by
  unfold Pipeline.ΦA; rw [scopedRest0_split]; simp only [scM0, owns_whole]; try rfl

-- At the very first point nothing is known of the accumulator, and nothing is needed: a first step resets it.
theorem Phi0_open (c : Dev nD) (t : Fin cfg0.N) :
    (dat0 V c).Φ t.castSucc ⊢ inv0 c iprop(∃ d, ⌜¬cond0_1 (grid0.coords t) →
      d = accAt0 V c (t.val - 1) (Nat.lt_of_le_of_lt (Nat.sub_le _ _) t.isLt)⌝ ∗ owns (c : Thread nD τ) scM0 fullShare d) := by
  rw [PhiS0_castSucc]
  obtain ⟨n, hn⟩ := t
  cases n with
  | zero =>
    show Pipeline.ΦA spec0 c ⊢ _
    rw [PhiA0_eq]
    refine sep_mono_left (sep_mono_left ?_)
    iintro ⟨%d, H⟩
    iexists d; isplitr
    · ipureintro; exact fun h => absurd ((hcond0_1 ⟨0, hn⟩).mpr (Nat.zero_mod _)) h
    iexact H
  | succ n =>
    show inv0 c _ ⊢ _
    refine sep_mono_left (sep_mono_left ?_)
    iintro H
    iexists _; isplitr
    swap; · iexact H
    ipureintro; exact fun _ => rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

abbrev ms0_0 (t : Fin cfg0.N) : Memref sig .tc .vmem S400x128 .bf16 := win0_0.stage (cfg0.slots t 0)
abbrev ms0_1 (t : Fin cfg0.N) : Memref sig .tc .vmem S400x1 .i32 := win0_1.stage (cfg0.slots t 1)
abbrev ms0_2 (t : Fin cfg0.N) : Memref sig .tc .vmem S1x128 .f32 := win0_2.stage (cfg0.slots t 2)
abbrev ms0_3 (t : Fin cfg0.N) : Memref sig .tc .vmem S20000x128 .f32 := win0_3.stage (cfg0.slots t 3)

theorem leaves0_3 (c : Dev nD) (t : Fin cfg0.N) (d) :
    owns (c : Thread nD τ) (ms0_3 t) fullShare
        (if k0_cond2 (grid0.coords t) = 1#1 then out0_3 (accAt0 V c t.val t.isLt) (iblk0 V c 2 t) else (dat0 V c).before 3 t d)
      ⊢ (dat0 V c).leavesExact 3 t := by
  by_cases h : k0_cond2 (grid0.coords t) = 1#1
  · rewrite [if_pos h, ← after0_3 V c t]
    unfold Dat.leavesExact
    rewrite [liveAt0_3 t h]
    exact .rfl
  · rewrite [if_neg h, Dat.leavesExact_idle (dat0 V c) 3 t (idleAt0_3 t h)
      (by rw [← Bool.not_eq_true]; exact fun hf => h ((hcond0_2 t).mpr ((flushH0_3 t).mp hf)))]
    iintro H; iexists d; iexact H

set_option maxHeartbeats 4800000 in
theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAtH0 t) (fun _ =>
      iprop(inv0 c (owns (c : Thread nD τ) scM0 fullShare (accAt0 V c t.val t.isLt)) ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ (dat0 V c).leavesExact 3 t)) := by
  unfold bodyAtH0
  simp only [before0_0, before0_1, before0_2]
  refine (sep_mono_left (Phi0_open V c t)).trans ?_
  iintro ⟨⟨⟨HS, HR⟩, Hg⟩, Ho, ⟨%d0, H0⟩, ⟨%d1, H1⟩, ⟨%d2, H2⟩, ⟨%d3, H3⟩⟩
  iapply (run0 c Set.univ (grid0.coords t) _ _ _ _ _ _ _ _ _ _ (iblk0 V c 0 t) (iblk0 V c 1 t) (iblk0 V c 2 t) ((dat0 V c).before 3 t d3) _ _ (accAt0_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves0_3 V c t d3)
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem Phi_out0 (c : Dev nD) : ∀ (n : ℕ) (h : n ≤ cfg0.N), n ≠ 0 → PhiS0 V c n h ⊢ Pipeline.ΦA spec0 c
  | 0, _, hz => absurd rfl hz
  | n + 1, h, _ => by
    rw [PhiA0_eq]
    show inv0 c _ ⊢ _
    refine sep_mono_left (sep_mono_left ?_)
    iintro H; iexists _; iexact H

theorem hout0 (c : Dev nD) : (dat0 V c).Φ (Fin.last cfg0.N) ⊢ Pipeline.ΦA spec0 c :=
  Phi_out0 V c cfg0.N (Nat.le_refl _) (by have : cfg0.N = 20000 := N_0; omega)

end Cert.KernelIdeal.Hand

end
-- ==== Proof.KI.Reg1.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "SHx" => S10000x128
local notation "SHw" => S128x128
local notation "SHb" => S1x128
local notation "SHo" => S10000x128
local notation "INBx" => inb_S10000x128_S10000x128_0_0
local notation "INBw" => inb_S128x128_S128x128_0_0
local notation "INBb" => inb_S1x128_S1x128_0_0
local notation "INBo" => inb_S10000x128_S10000x128_0_0

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 := Rect.unit (s := SHx) _ _ INBx
abbrev r1_1 := Rect.unit (s := SHw) _ _ INBw
abbrev r1_2 := Rect.unit (s := SHb) _ _ INBb
abbrev r1_o := Rect.unit (s := SHo) _ _ INBo

def out1_3 (x0 : Vec F SHx .f32) (x1 : Vec F SHw .f32) (x2 : Vec F SHb .f32) : Vec F SHo .f32 :=
  View.canon [⟨r1_o, k1_pay1 (View.ld x0 r1_0) (View.ld x1 r1_1) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) (iblk1 V c 2 t) := by dsimp only [dat1]

theorem share1 (c : Dev nD) : ∀ w, (dat1 V c).q w = fullShare := fun _ => rfl
theorem owed1 (c : Dev nD) : ∀ x, (dat1 V c).owed x = 0 := fun _ => rfl
theorem recorded1 (c : Dev nD) : ∀ t, (dat1 V c).recorded t = Set.univ := fun _ => rfl

theorem hin1 (c : Dev nD) : Pipeline.ΦA spec1 c ⊢ (dat1 V c).Φ 0 := Entails.refl _
theorem hout1 (c : Dev nD) : (dat1 V c).Φ (Fin.last cfg1.N) ⊢ Pipeline.ΦA spec1 c := Entails.refl _

theorem before1 (c : Dev nD) : ∀ w, (cfg1.win w).isOut = false → ∀ t d, (dat1 V c).before w t d = (dat1 V c).after w t
  | 0, h | 1, h | 2, h => (dat1 V c).before_in_eq_fetched _ h (fun _ => rfl) (fun _ _ _ => rfl) fun _ => rfl
  | 3, h => nomatch h

-- The store's rectangle is the whole output shape, so what it leaves reads as `out1_3` of the blocks read, whatever was there before.
theorem body_obligation1 (c : Dev nD) : BodyObligation (dat1 (F := F) V c) (defs₀ (F := F)) Variants.none () Set.univ := fun t => by
  rw [bigSep_W1, bigSep_W1]
  sl_whnfR [defs₀, Defs.onTc]
  sl_unfold [cc1__dense_kernel]
  simp (disch := rfl) only [before1]
  unfold owns
  dsimp only [dat1, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.KernelIdeal.Hand

end
-- ==== Proof.KI.Reg2.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rF2 : Rect S400x128 := Rect.unit (s := S400x128) ![0, 0] S400x128.size inb_S400x128_S400x128_0_0
abbrev rI2 : Rect S400x1 := Rect.unit (s := S400x1) ![0, 0] S400x1.size inb_S400x1_S400x1_0_0
abbrev rB2 : Rect S1x128 := Rect.unit (s := S1x128) ![0, 0] S1x128.size inb_S1x128_S1x128_0_0
abbrev rA2 : Rect S20000x128 := Rect.unit (s := S20000x128) ![0, 0] S20000x128.size inb_S20000x128_S20000x128_0_0

def upd2 (i : grid2.Coords) (x1 : Vec F S400x1 .i32) (acc : Vec F S20000x128 .f32) (x0 : Vec F S400x128 .bf16) : Vec F S20000x128 .f32 :=
  k2_pay2 i (View.ld x1 rI2) (View.ld acc rA2) (View.ld x0 rF2)

def accAt2 (c : Dev nD) : (n : ℕ) → n < cfg2.N → Vec F S20000x128 .f32
  | 0, hn => upd2 (grid2.coords ⟨0, hn⟩) (iblk2 V c 1 ⟨0, hn⟩) (k2_pay1 (F := F)) (iblk2 V c 0 ⟨0, hn⟩)
  | n + 1, hn => upd2 (grid2.coords ⟨n + 1, hn⟩) (iblk2 V c 1 ⟨n + 1, hn⟩)
      (if (n + 1) % 4250 = 0 then k2_pay1 (F := F) else accAt2 c n (Nat.lt_of_succ_lt hn)) (iblk2 V c 0 ⟨n + 1, hn⟩)

theorem accAt2_first (c : Dev nD) (t : Fin cfg2.N) (h : t.val % 4250 = 0) :
    accAt2 V c t.val t.isLt = upd2 (grid2.coords t) (iblk2 V c 1 t) (k2_pay1 (F := F)) (iblk2 V c 0 t) := by
  obtain ⟨n, hn⟩ := t
  cases n with
  | zero => rfl
  | succ n => exact congrArg (fun a => upd2 (grid2.coords ⟨n + 1, hn⟩) (iblk2 V c 1 ⟨n + 1, hn⟩) a (iblk2 V c 0 ⟨n + 1, hn⟩)) (if_pos h)

theorem accAt2_next (c : Dev nD) (t : Fin cfg2.N) (h : ¬t.val % 4250 = 0) :
    accAt2 V c t.val t.isLt = upd2 (grid2.coords t) (iblk2 V c 1 t)
      (accAt2 V c (t.val - 1) (Nat.lt_of_le_of_lt (Nat.sub_le _ _) t.isLt)) (iblk2 V c 0 t) := by
  obtain ⟨n, hn⟩ := t
  cases n with
  | zero => exact absurd (Nat.zero_mod _) h
  | succ n => exact congrArg (fun a => upd2 (grid2.coords ⟨n + 1, hn⟩) (iblk2 V c 1 ⟨n + 1, hn⟩) a (iblk2 V c 0 ⟨n + 1, hn⟩)) (if_neg h)

def out2_3 (acc : Vec F S20000x128 .f32) (x2 : Vec F S1x128 .f32) : Vec F S20000x128 .f32 :=
  View.canon [⟨rA2, k2_pay3 (View.ld acc rA2) (View.ld x2 rB2)⟩]

abbrev scM2 : Memref sig .tc .vmem S20000x128 .f32 := Memref.whole cc2_scratch0

abbrev inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

def PhiS2 (c : Dev nD) : (n : ℕ) → n ≤ cfg2.N → sProp 𝕄
  | 0, _ => Pipeline.ΦA spec2 c
  | n + 1, hn => inv2 c (owns (c : Thread nD τ) scM2 fullShare (accAt2 V c n hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (accAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (accAt2 V c t.val t.isLt) (iblk2 V c 2 t) := by dsimp only [dat2]

theorem share2 (c : Dev nD) : ∀ w, (dat2 V c).q w = fullShare := fun _ => rfl
theorem owed2 (c : Dev nD) : ∀ x, (dat2 V c).owed x = 0 := fun _ => rfl
theorem recorded2 (c : Dev nD) : ∀ t, (dat2 V c).recorded t = Set.univ := fun _ => rfl

abbrev cond2_1 (i : grid2.Coords) : Prop := (Scalar.cmpi .ne (Scalar.extui (Scalar.cmpi .eq (BitVec.ofNat 32 (i 1).val) 0#32)) 0#32) = 1#1

theorem hzA2 : (![0, 0] : Fin S20000x128.rank → Nat) = fun _ => 0 := funext fun a => by fin_cases a <;> rfl

theorem read_writes_last2 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA2, w⟩ :: L)) = w := by
  rw [View.read_writes_eq_canon v f _ (fun y => ⟨⟨rA2, w⟩, List.mem_cons_self, View.mem_set_unit_zero hzA2 inb_S20000x128_S20000x128_0_0 y⟩)]
  exact View.canon_cons_unit_zero hzA2 _ w L

-- Joins the two cases of the reset, so that one symbolic run of the body serves first and later steps alike.
theorem acc_read2 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA2, k2_pay1⟩] else f) = if b then k2_pay1 else xs := by
  by_cases h : b
  · rw [dif_pos h, if_pos h, read_writes_last2]
  · rw [dif_neg h, if_neg h, hd h]

set_option maxHeartbeats 1000000 in
theorem run2 (c : Dev nD) (E : Set ℕ) (i : grid2.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd2 i x1 (if cond2_1 i then k2_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond2_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k2_cond2 i = 1#1 then out2_3 a x2 else x3)
                ∗ owns (c : Thread nD τ) arg6 fullShare a) -∗ K ⟨⟩))
      ⊢ wp frame (wpE (defs₀ (F := F)) Variants.none c none) E (cc2__scatter_kernel i arg2 harg2 arg3 harg3 arg4 harg4 arg5 harg5 arg6 harg6) K := by
  subst ha
  simp only [cc2__scatter_kernel_eq_skeleton]; unfold cc2__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k2_cond2 i = 1#1
    · rw [dif_pos hc2, if_pos hc2, read_writes_last2]; unfold out2_3 upd2
      simp only [View.readAt_eq_ld, View.readCov_unit_zero (S := S20000x128) _ hzA2, View.ld_unit_zero (S := S20000x128) hzA2,
        View.canon_unit_zero (S := S20000x128) hzA2, acc_read2 _ _ _ _ hd]
    · rw [dif_neg hc2, if_neg hc2]
  iexists _; isplitr
  swap; · iexact H6
  ipureintro
  sl_unfold_run_names
  rw [read_writes_last2]; unfold upd2
  simp only [View.readAt_eq_ld, acc_read2 _ _ _ _ hd]

theorem coord2_1 (t : Fin cfg2.N) : ((grid2.coords t) 1).val = t.val % 4250 := by
  show t.val / grid2.stride 1 % 4250 = t.val % 4250
  rw [show grid2.stride 1 = 1 from by decide, Nat.div_one]

theorem ofNat32_inj2 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond2_1 (t : Fin cfg2.N) : cond2_1 (grid2.coords t) ↔ t.val % 4250 = 0 := by
  have hlt : ((grid2.coords t) 1).val < 4250 := ((grid2.coords t) 1).isLt
  unfold cond2_1
  rw [Scalar.guard_iff, Scalar.cmpi, IntOp.cmpi_eq, ofNat32_inj2 (by omega) (by omega), coord2_1]

theorem hcond2_2 (t : Fin cfg2.N) : k2_cond2 (grid2.coords t) = 1#1 ↔ t.val % 4250 = 4249 := by
  have hlt : ((grid2.coords t) 1).val < 4250 := ((grid2.coords t) 1).isLt
  unfold k2_cond2
  rw [Scalar.guard_iff, Scalar.cmpi, IntOp.cmpi_eq, ofNat32_inj2 (by omega) (by omega), coord2_1]

theorem idleAt2_3 (t : Fin cfg2.N) (h : ¬k2_cond2 (grid2.coords t) = 1#1) : cfg2.idle 3 (grid2.coords t) = true := by
  show (!(k2_cond2 (grid2.coords t) == 1#1)) = true
  rw [Bool.not_eq_true', beq_eq_false_iff_ne]; exact h

theorem liveAt2_3 (t : Fin cfg2.N) (h : k2_cond2 (grid2.coords t) = 1#1) : cfg2.idle 3 (grid2.coords t) = false := by
  show (!(k2_cond2 (grid2.coords t) == 1#1)) = false
  rw [Bool.not_eq_false', beq_iff_eq]; exact h

theorem coord2_0 (t : Fin cfg2.N) : ((grid2.coords t) 0).val = t.val / 4250 := by
  show t.val / grid2.stride 0 % grid2.bound 0 = t.val / 4250
  rw [show grid2.stride 0 = 4250 from by decide]
  exact Nat.mod_eq_of_lt (Nat.div_lt_of_lt_mul (lt_of_lt_of_eq t.isLt (show cfg2.N = 4250 * grid2.bound 0 from by decide)))

theorem index2_3 (t : Fin cfg2.N) : (cfg2.win 3).index t = ![t.val / 4250, 0] := by
  have ht : t.val < 21250 := lt_of_lt_of_eq t.isLt (show cfg2.N = 21250 from N_2)
  show cc2_transform_3 (grid2.coords t) = _
  unfold cc2_transform_3
  dsimp only
  rw [BitVec.toNat_ofNat, coord2_0, Nat.mod_eq_of_lt (show t.val / 4250 < 2 ^ 32 by omega)]
  rfl

theorem flushH2_3 (t : Fin cfg2.N) : (cfg2.win 3).flush t = true ↔ t.val % 4250 = 4249 := by
  have hN : cfg2.N = 21250 := N_2
  have ht : t.val < 21250 := lt_of_lt_of_eq t.isLt hN
  rw [(cfg2.win 3).flush_out rfl]
  constructor
  · rintro (h | ⟨h, hne⟩)
    · have h' : t.val + 1 = 21250 := h.trans hN
      omega
    · by_contra hc
      apply hne
      rw [index2_3, index2_3]
      have e : (t.val + 1) / 4250 = t.val / 4250 := by omega
      show ![(t.val + 1) / 4250, 0] = ![t.val / 4250, 0]
      rw [e]
  · intro h
    by_cases hl : t.val + 1 = 21250
    · exact .inl (hl.trans hN.symm)
    · refine .inr ⟨lt_of_lt_of_eq (show t.val + 1 < 21250 by omega) hN.symm, fun he => ?_⟩
      rw [index2_3, index2_3] at he
      have e0 := congrFun he 0
      have e1 : (t.val + 1) / 4250 = t.val / 4250 := e0
      omega

abbrev bodyAtH2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

theorem accAt2_step (c : Dev nD) (t : Fin cfg2.N) :
    accAt2 V c t.val t.isLt = upd2 (grid2.coords t) (iblk2 V c 1 t)
      (if cond2_1 (grid2.coords t) then k2_pay1 (F := F) else accAt2 V c (t.val - 1) (Nat.lt_of_le_of_lt (Nat.sub_le _ _) t.isLt)) (iblk2 V c 0 t) := by
  by_cases h : t.val % 4250 = 0
  · rw [if_pos ((hcond2_1 t).mpr h), accAt2_first V c t h]
  · rw [if_neg (mt (hcond2_1 t).mp h), accAt2_next V c t h]

theorem PhiS2_castSucc (c : Dev nD) (t : Fin cfg2.N) :
    (dat2 V c).Φ t.castSucc = PhiS2 V c t.val (Nat.le_of_lt t.isLt) := by
  dsimp only [dat2]; simp only [Fin.coe_castSucc]

theorem PhiA2_eq (c : Dev nD) :
    (Pipeline.ΦA spec2 c : sProp 𝕄) = inv2 c iprop(∃ d, owns (c : Thread nD τ) scM2 fullShare d) := by
  unfold Pipeline.ΦA; rw [scopedRest2_split]; simp only [scM2, owns_whole]; try rfl

-- At the very first point nothing is known of the accumulator, and nothing is needed: a first step resets it.
theorem Phi2_open (c : Dev nD) (t : Fin cfg2.N) :
    (dat2 V c).Φ t.castSucc ⊢ inv2 c iprop(∃ d, ⌜¬cond2_1 (grid2.coords t) →
      d = accAt2 V c (t.val - 1) (Nat.lt_of_le_of_lt (Nat.sub_le _ _) t.isLt)⌝ ∗ owns (c : Thread nD τ) scM2 fullShare d) := by
  rw [PhiS2_castSucc]
  obtain ⟨n, hn⟩ := t
  cases n with
  | zero =>
    show Pipeline.ΦA spec2 c ⊢ _
    rw [PhiA2_eq]
    refine sep_mono_left (sep_mono_left ?_)
    iintro ⟨%d, H⟩
    iexists d; isplitr
    · ipureintro; exact fun h => absurd ((hcond2_1 ⟨0, hn⟩).mpr (Nat.zero_mod _)) h
    iexact H
  | succ n =>
    show inv2 c _ ⊢ _
    refine sep_mono_left (sep_mono_left ?_)
    iintro H
    iexists _; isplitr
    swap; · iexact H
    ipureintro; exact fun _ => rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

abbrev ms2_0 (t : Fin cfg2.N) : Memref sig .tc .vmem S400x128 .bf16 := win2_0.stage (cfg2.slots t 0)
abbrev ms2_1 (t : Fin cfg2.N) : Memref sig .tc .vmem S400x1 .i32 := win2_1.stage (cfg2.slots t 1)
abbrev ms2_2 (t : Fin cfg2.N) : Memref sig .tc .vmem S1x128 .f32 := win2_2.stage (cfg2.slots t 2)
abbrev ms2_3 (t : Fin cfg2.N) : Memref sig .tc .vmem S20000x128 .f32 := win2_3.stage (cfg2.slots t 3)

theorem leaves2_3 (c : Dev nD) (t : Fin cfg2.N) (d) :
    owns (c : Thread nD τ) (ms2_3 t) fullShare
        (if k2_cond2 (grid2.coords t) = 1#1 then out2_3 (accAt2 V c t.val t.isLt) (iblk2 V c 2 t) else (dat2 V c).before 3 t d)
      ⊢ (dat2 V c).leavesExact 3 t := by
  by_cases h : k2_cond2 (grid2.coords t) = 1#1
  · rewrite [if_pos h, ← after2_3 V c t]
    unfold Dat.leavesExact
    rewrite [liveAt2_3 t h]
    exact .rfl
  · rewrite [if_neg h, Dat.leavesExact_idle (dat2 V c) 3 t (idleAt2_3 t h)
      (by rw [← Bool.not_eq_true]; exact fun hf => h ((hcond2_2 t).mpr ((flushH2_3 t).mp hf)))]
    iintro H; iexists d; iexact H

set_option maxHeartbeats 4800000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAtH2 t) (fun _ =>
      iprop(inv2 c (owns (c : Thread nD τ) scM2 fullShare (accAt2 V c t.val t.isLt)) ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t)) := by
  unfold bodyAtH2
  simp only [before2_0, before2_1, before2_2]
  refine (sep_mono_left (Phi2_open V c t)).trans ?_
  iintro ⟨⟨⟨HS, HR⟩, Hg⟩, Ho, ⟨%d0, H0⟩, ⟨%d1, H1⟩, ⟨%d2, H2⟩, ⟨%d3, H3⟩⟩
  iapply (run2 c Set.univ (grid2.coords t) _ _ _ _ _ _ _ _ _ _ (iblk2 V c 0 t) (iblk2 V c 1 t) (iblk2 V c 2 t) ((dat2 V c).before 3 t d3) _ _ (accAt2_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves2_3 V c t d3)
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem Phi_out2 (c : Dev nD) : ∀ (n : ℕ) (h : n ≤ cfg2.N), n ≠ 0 → PhiS2 V c n h ⊢ Pipeline.ΦA spec2 c
  | 0, _, hz => absurd rfl hz
  | n + 1, h, _ => by
    rw [PhiA2_eq]
    show inv2 c _ ⊢ _
    refine sep_mono_left (sep_mono_left ?_)
    iintro H; iexists _; iexact H

theorem hout2 (c : Dev nD) : (dat2 V c).Φ (Fin.last cfg2.N) ⊢ Pipeline.ΦA spec2 c :=
  Phi_out2 V c cfg2.N (Nat.le_refl _) (by have : cfg2.N = 21250 := N_2; omega)

end Cert.KernelIdeal.Hand

end
-- ==== Proof.KI.Reg3.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "SHx" => S10000x128
local notation "SHw" => S128x128
local notation "SHb" => S1x128
local notation "SHo" => S10000x128
local notation "INBx" => inb_S10000x128_S10000x128_0_0
local notation "INBw" => inb_S128x128_S128x128_0_0
local notation "INBb" => inb_S1x128_S1x128_0_0
local notation "INBo" => inb_S10000x128_S10000x128_0_0

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 := Rect.unit (s := SHx) _ _ INBx
abbrev r3_1 := Rect.unit (s := SHw) _ _ INBw
abbrev r3_2 := Rect.unit (s := SHb) _ _ INBb
abbrev r3_o := Rect.unit (s := SHo) _ _ INBo

def out3_3 (x0 : Vec F SHx .f32) (x1 : Vec F SHw .f32) (x2 : Vec F SHb .f32) : Vec F SHo .f32 :=
  View.canon [⟨r3_o, k3_pay1 (View.ld x0 r3_0) (View.ld x1 r3_1) (View.ld x2 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (iblk3 V c 0 t) (iblk3 V c 1 t) (iblk3 V c 2 t) := by dsimp only [dat3]

theorem share3 (c : Dev nD) : ∀ w, (dat3 V c).q w = fullShare := fun _ => rfl
theorem owed3 (c : Dev nD) : ∀ x, (dat3 V c).owed x = 0 := fun _ => rfl
theorem recorded3 (c : Dev nD) : ∀ t, (dat3 V c).recorded t = Set.univ := fun _ => rfl

theorem hin3 (c : Dev nD) : Pipeline.ΦA spec3 c ⊢ (dat3 V c).Φ 0 := Entails.refl _
theorem hout3 (c : Dev nD) : (dat3 V c).Φ (Fin.last cfg3.N) ⊢ Pipeline.ΦA spec3 c := Entails.refl _

theorem before3 (c : Dev nD) : ∀ w, (cfg3.win w).isOut = false → ∀ t d, (dat3 V c).before w t d = (dat3 V c).after w t
  | 0, h | 1, h | 2, h => (dat3 V c).before_in_eq_fetched _ h (fun _ => rfl) (fun _ _ _ => rfl) fun _ => rfl
  | 3, h => nomatch h

-- The store's rectangle is the whole output shape, so what it leaves reads as `out3_3` of the blocks read, whatever was there before.
theorem body_obligation3 (c : Dev nD) : BodyObligation (dat3 (F := F) V c) (defs₀ (F := F)) Variants.none () Set.univ := fun t => by
  rw [bigSep_W3, bigSep_W3]
  sl_whnfR [defs₀, Defs.onTc]
  sl_unfold [cc3__dense_kernel]
  simp (disch := rfl) only [before3]
  unfold owns
  dsimp only [dat3, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.KernelIdeal.Hand

end
-- ==== Proof.KI.Reg4.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rF4 : Rect S400x128 := Rect.unit (s := S400x128) ![0, 0] S400x128.size inb_S400x128_S400x128_0_0
abbrev rI4 : Rect S400x1 := Rect.unit (s := S400x1) ![0, 0] S400x1.size inb_S400x1_S400x1_0_0
abbrev rB4 : Rect S1x128 := Rect.unit (s := S1x128) ![0, 0] S1x128.size inb_S1x128_S1x128_0_0
abbrev rA4 : Rect S20000x128 := Rect.unit (s := S20000x128) ![0, 0] S20000x128.size inb_S20000x128_S20000x128_0_0

def upd4 (i : grid4.Coords) (x1 : Vec F S400x1 .i32) (acc : Vec F S20000x128 .f32) (x0 : Vec F S400x128 .bf16) : Vec F S20000x128 .f32 :=
  k4_pay2 i (View.ld x1 rI4) (View.ld acc rA4) (View.ld x0 rF4)

def accAt4 (c : Dev nD) : (n : ℕ) → n < cfg4.N → Vec F S20000x128 .f32
  | 0, hn => upd4 (grid4.coords ⟨0, hn⟩) (iblk4 V c 1 ⟨0, hn⟩) (k4_pay1 (F := F)) (iblk4 V c 0 ⟨0, hn⟩)
  | n + 1, hn => upd4 (grid4.coords ⟨n + 1, hn⟩) (iblk4 V c 1 ⟨n + 1, hn⟩)
      (if (n + 1) % 4250 = 0 then k4_pay1 (F := F) else accAt4 c n (Nat.lt_of_succ_lt hn)) (iblk4 V c 0 ⟨n + 1, hn⟩)

theorem accAt4_first (c : Dev nD) (t : Fin cfg4.N) (h : t.val % 4250 = 0) :
    accAt4 V c t.val t.isLt = upd4 (grid4.coords t) (iblk4 V c 1 t) (k4_pay1 (F := F)) (iblk4 V c 0 t) := by
  obtain ⟨n, hn⟩ := t
  cases n with
  | zero => rfl
  | succ n => exact congrArg (fun a => upd4 (grid4.coords ⟨n + 1, hn⟩) (iblk4 V c 1 ⟨n + 1, hn⟩) a (iblk4 V c 0 ⟨n + 1, hn⟩)) (if_pos h)

theorem accAt4_next (c : Dev nD) (t : Fin cfg4.N) (h : ¬t.val % 4250 = 0) :
    accAt4 V c t.val t.isLt = upd4 (grid4.coords t) (iblk4 V c 1 t)
      (accAt4 V c (t.val - 1) (Nat.lt_of_le_of_lt (Nat.sub_le _ _) t.isLt)) (iblk4 V c 0 t) := by
  obtain ⟨n, hn⟩ := t
  cases n with
  | zero => exact absurd (Nat.zero_mod _) h
  | succ n => exact congrArg (fun a => upd4 (grid4.coords ⟨n + 1, hn⟩) (iblk4 V c 1 ⟨n + 1, hn⟩) a (iblk4 V c 0 ⟨n + 1, hn⟩)) (if_neg h)

def out4_3 (acc : Vec F S20000x128 .f32) (x2 : Vec F S1x128 .f32) : Vec F S20000x128 .f32 :=
  View.canon [⟨rA4, k4_pay3 (View.ld acc rA4) (View.ld x2 rB4)⟩]

abbrev scM4 : Memref sig .tc .vmem S20000x128 .f32 := Memref.whole cc4_scratch0

abbrev inv4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

def PhiS4 (c : Dev nD) : (n : ℕ) → n ≤ cfg4.N → sProp 𝕄
  | 0, _ => Pipeline.ΦA spec4 c
  | n + 1, hn => inv4 c (owns (c : Thread nD τ) scM4 fullShare (accAt4 V c n hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (accAt4 V c t.val t.isLt) (iblk4 V c 2 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (accAt4 V c t.val t.isLt) (iblk4 V c 2 t) := by dsimp only [dat4]

theorem share4 (c : Dev nD) : ∀ w, (dat4 V c).q w = fullShare := fun _ => rfl
theorem owed4 (c : Dev nD) : ∀ x, (dat4 V c).owed x = 0 := fun _ => rfl
theorem recorded4 (c : Dev nD) : ∀ t, (dat4 V c).recorded t = Set.univ := fun _ => rfl

abbrev cond4_1 (i : grid4.Coords) : Prop := (Scalar.cmpi .ne (Scalar.extui (Scalar.cmpi .eq (BitVec.ofNat 32 (i 1).val) 0#32)) 0#32) = 1#1

theorem hzA4 : (![0, 0] : Fin S20000x128.rank → Nat) = fun _ => 0 := funext fun a => by fin_cases a <;> rfl

theorem read_writes_last4 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA4, w⟩ :: L)) = w := by
  rw [View.read_writes_eq_canon v f _ (fun y => ⟨⟨rA4, w⟩, List.mem_cons_self, View.mem_set_unit_zero hzA4 inb_S20000x128_S20000x128_0_0 y⟩)]
  exact View.canon_cons_unit_zero hzA4 _ w L

-- Joins the two cases of the reset, so that one symbolic run of the body serves first and later steps alike.
theorem acc_read4 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA4, k4_pay1⟩] else f) = if b then k4_pay1 else xs := by
  by_cases h : b
  · rw [dif_pos h, if_pos h, read_writes_last4]
  · rw [dif_neg h, if_neg h, hd h]

set_option maxHeartbeats 1000000 in
theorem run4 (c : Dev nD) (E : Set ℕ) (i : grid4.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd4 i x1 (if cond4_1 i then k4_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond4_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k4_cond2 i = 1#1 then out4_3 a x2 else x3)
                ∗ owns (c : Thread nD τ) arg6 fullShare a) -∗ K ⟨⟩))
      ⊢ wp frame (wpE (defs₀ (F := F)) Variants.none c none) E (cc4__scatter_kernel i arg2 harg2 arg3 harg3 arg4 harg4 arg5 harg5 arg6 harg6) K := by
  subst ha
  simp only [cc4__scatter_kernel_eq_skeleton]; unfold cc4__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k4_cond2 i = 1#1
    · rw [dif_pos hc2, if_pos hc2, read_writes_last4]; unfold out4_3 upd4
      simp only [View.readAt_eq_ld, View.readCov_unit_zero (S := S20000x128) _ hzA4, View.ld_unit_zero (S := S20000x128) hzA4,
        View.canon_unit_zero (S := S20000x128) hzA4, acc_read4 _ _ _ _ hd]
    · rw [dif_neg hc2, if_neg hc2]
  iexists _; isplitr
  swap; · iexact H6
  ipureintro
  sl_unfold_run_names
  rw [read_writes_last4]; unfold upd4
  simp only [View.readAt_eq_ld, acc_read4 _ _ _ _ hd]

theorem coord4_1 (t : Fin cfg4.N) : ((grid4.coords t) 1).val = t.val % 4250 := by
  show t.val / grid4.stride 1 % 4250 = t.val % 4250
  rw [show grid4.stride 1 = 1 from by decide, Nat.div_one]

theorem ofNat32_inj4 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond4_1 (t : Fin cfg4.N) : cond4_1 (grid4.coords t) ↔ t.val % 4250 = 0 := by
  have hlt : ((grid4.coords t) 1).val < 4250 := ((grid4.coords t) 1).isLt
  unfold cond4_1
  rw [Scalar.guard_iff, Scalar.cmpi, IntOp.cmpi_eq, ofNat32_inj4 (by omega) (by omega), coord4_1]

theorem hcond4_2 (t : Fin cfg4.N) : k4_cond2 (grid4.coords t) = 1#1 ↔ t.val % 4250 = 4249 := by
  have hlt : ((grid4.coords t) 1).val < 4250 := ((grid4.coords t) 1).isLt
  unfold k4_cond2
  rw [Scalar.guard_iff, Scalar.cmpi, IntOp.cmpi_eq, ofNat32_inj4 (by omega) (by omega), coord4_1]

theorem idleAt4_3 (t : Fin cfg4.N) (h : ¬k4_cond2 (grid4.coords t) = 1#1) : cfg4.idle 3 (grid4.coords t) = true := by
  show (!(k4_cond2 (grid4.coords t) == 1#1)) = true
  rw [Bool.not_eq_true', beq_eq_false_iff_ne]; exact h

theorem liveAt4_3 (t : Fin cfg4.N) (h : k4_cond2 (grid4.coords t) = 1#1) : cfg4.idle 3 (grid4.coords t) = false := by
  show (!(k4_cond2 (grid4.coords t) == 1#1)) = false
  rw [Bool.not_eq_false', beq_iff_eq]; exact h

theorem coord4_0 (t : Fin cfg4.N) : ((grid4.coords t) 0).val = t.val / 4250 := by
  show t.val / grid4.stride 0 % grid4.bound 0 = t.val / 4250
  rw [show grid4.stride 0 = 4250 from by decide]
  exact Nat.mod_eq_of_lt (Nat.div_lt_of_lt_mul (lt_of_lt_of_eq t.isLt (show cfg4.N = 4250 * grid4.bound 0 from by decide)))

theorem index4_3 (t : Fin cfg4.N) : (cfg4.win 3).index t = ![t.val / 4250, 0] := by
  have ht : t.val < 21250 := lt_of_lt_of_eq t.isLt (show cfg4.N = 21250 from N_4)
  show cc4_transform_3 (grid4.coords t) = _
  unfold cc4_transform_3
  dsimp only
  rw [BitVec.toNat_ofNat, coord4_0, Nat.mod_eq_of_lt (show t.val / 4250 < 2 ^ 32 by omega)]
  rfl

theorem flushH4_3 (t : Fin cfg4.N) : (cfg4.win 3).flush t = true ↔ t.val % 4250 = 4249 := by
  have hN : cfg4.N = 21250 := N_4
  have ht : t.val < 21250 := lt_of_lt_of_eq t.isLt hN
  rw [(cfg4.win 3).flush_out rfl]
  constructor
  · rintro (h | ⟨h, hne⟩)
    · have h' : t.val + 1 = 21250 := h.trans hN
      omega
    · by_contra hc
      apply hne
      rw [index4_3, index4_3]
      have e : (t.val + 1) / 4250 = t.val / 4250 := by omega
      show ![(t.val + 1) / 4250, 0] = ![t.val / 4250, 0]
      rw [e]
  · intro h
    by_cases hl : t.val + 1 = 21250
    · exact .inl (hl.trans hN.symm)
    · refine .inr ⟨lt_of_lt_of_eq (show t.val + 1 < 21250 by omega) hN.symm, fun he => ?_⟩
      rw [index4_3, index4_3] at he
      have e0 := congrFun he 0
      have e1 : (t.val + 1) / 4250 = t.val / 4250 := e0
      omega

abbrev bodyAtH4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

theorem accAt4_step (c : Dev nD) (t : Fin cfg4.N) :
    accAt4 V c t.val t.isLt = upd4 (grid4.coords t) (iblk4 V c 1 t)
      (if cond4_1 (grid4.coords t) then k4_pay1 (F := F) else accAt4 V c (t.val - 1) (Nat.lt_of_le_of_lt (Nat.sub_le _ _) t.isLt)) (iblk4 V c 0 t) := by
  by_cases h : t.val % 4250 = 0
  · rw [if_pos ((hcond4_1 t).mpr h), accAt4_first V c t h]
  · rw [if_neg (mt (hcond4_1 t).mp h), accAt4_next V c t h]

theorem PhiS4_castSucc (c : Dev nD) (t : Fin cfg4.N) :
    (dat4 V c).Φ t.castSucc = PhiS4 V c t.val (Nat.le_of_lt t.isLt) := by
  dsimp only [dat4]; simp only [Fin.coe_castSucc]

theorem PhiA4_eq (c : Dev nD) :
    (Pipeline.ΦA spec4 c : sProp 𝕄) = inv4 c iprop(∃ d, owns (c : Thread nD τ) scM4 fullShare d) := by
  unfold Pipeline.ΦA; rw [scopedRest4_split]; simp only [scM4, owns_whole]; try rfl

-- At the very first point nothing is known of the accumulator, and nothing is needed: a first step resets it.
theorem Phi4_open (c : Dev nD) (t : Fin cfg4.N) :
    (dat4 V c).Φ t.castSucc ⊢ inv4 c iprop(∃ d, ⌜¬cond4_1 (grid4.coords t) →
      d = accAt4 V c (t.val - 1) (Nat.lt_of_le_of_lt (Nat.sub_le _ _) t.isLt)⌝ ∗ owns (c : Thread nD τ) scM4 fullShare d) := by
  rw [PhiS4_castSucc]
  obtain ⟨n, hn⟩ := t
  cases n with
  | zero =>
    show Pipeline.ΦA spec4 c ⊢ _
    rw [PhiA4_eq]
    refine sep_mono_left (sep_mono_left ?_)
    iintro ⟨%d, H⟩
    iexists d; isplitr
    · ipureintro; exact fun h => absurd ((hcond4_1 ⟨0, hn⟩).mpr (Nat.zero_mod _)) h
    iexact H
  | succ n =>
    show inv4 c _ ⊢ _
    refine sep_mono_left (sep_mono_left ?_)
    iintro H
    iexists _; isplitr
    swap; · iexact H
    ipureintro; exact fun _ => rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

abbrev ms4_0 (t : Fin cfg4.N) : Memref sig .tc .vmem S400x128 .bf16 := win4_0.stage (cfg4.slots t 0)
abbrev ms4_1 (t : Fin cfg4.N) : Memref sig .tc .vmem S400x1 .i32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S20000x128 .f32 := win4_3.stage (cfg4.slots t 3)

theorem leaves4_3 (c : Dev nD) (t : Fin cfg4.N) (d) :
    owns (c : Thread nD τ) (ms4_3 t) fullShare
        (if k4_cond2 (grid4.coords t) = 1#1 then out4_3 (accAt4 V c t.val t.isLt) (iblk4 V c 2 t) else (dat4 V c).before 3 t d)
      ⊢ (dat4 V c).leavesExact 3 t := by
  by_cases h : k4_cond2 (grid4.coords t) = 1#1
  · rewrite [if_pos h, ← after4_3 V c t]
    unfold Dat.leavesExact
    rewrite [liveAt4_3 t h]
    exact .rfl
  · rewrite [if_neg h, Dat.leavesExact_idle (dat4 V c) 3 t (idleAt4_3 t h)
      (by rw [← Bool.not_eq_true]; exact fun hf => h ((hcond4_2 t).mpr ((flushH4_3 t).mp hf)))]
    iintro H; iexists d; iexact H

set_option maxHeartbeats 4800000 in
theorem sound_body4 (c : Dev nD) (t : Fin cfg4.N) :
    iprop((dat4 V c).Φ t.castSucc ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
    ⊢ wp frame (wpE (defs₀ (F := F)) Variants.none c none) Set.univ (bodyAtH4 t) (fun _ =>
      iprop(inv4 c (owns (c : Thread nD τ) scM4 fullShare (accAt4 V c t.val t.isLt)) ∗ (dat4 V c).owesAt () t.castSucc
        ∗ owns (c : Thread nD τ) (ms4_0 t) fullShare (iblk4 V c 0 t)
        ∗ owns (c : Thread nD τ) (ms4_1 t) fullShare (iblk4 V c 1 t)
        ∗ owns (c : Thread nD τ) (ms4_2 t) fullShare (iblk4 V c 2 t)
        ∗ (dat4 V c).leavesExact 3 t)) := by
  unfold bodyAtH4
  simp only [before4_0, before4_1, before4_2]
  refine (sep_mono_left (Phi4_open V c t)).trans ?_
  iintro ⟨⟨⟨HS, HR⟩, Hg⟩, Ho, ⟨%d0, H0⟩, ⟨%d1, H1⟩, ⟨%d2, H2⟩, ⟨%d3, H3⟩⟩
  iapply (run4 c Set.univ (grid4.coords t) _ _ _ _ _ _ _ _ _ _ (iblk4 V c 0 t) (iblk4 V c 1 t) (iblk4 V c 2 t) ((dat4 V c).before 3 t d3) _ _ (accAt4_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves4_3 V c t d3)
  iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem Phi_out4 (c : Dev nD) : ∀ (n : ℕ) (h : n ≤ cfg4.N), n ≠ 0 → PhiS4 V c n h ⊢ Pipeline.ΦA spec4 c
  | 0, _, hz => absurd rfl hz
  | n + 1, h, _ => by
    rw [PhiA4_eq]
    show inv4 c _ ⊢ _
    refine sep_mono_left (sep_mono_left ?_)
    iintro H; iexists _; iexact H

theorem hout4 (c : Dev nD) : (dat4 V c).Φ (Fin.last cfg4.N) ⊢ Pipeline.ΦA spec4 c :=
  Phi_out4 V c cfg4.N (Nat.le_refl _) (by have : cfg4.N = 21250 := N_4; omega)

end Cert.KernelIdeal.Hand

end
-- ==== Proof.KI.Reg5.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "SHx" => S10000x128
local notation "SHw" => S128x128
local notation "SHb" => S1x128
local notation "SHo" => S10000x128
local notation "INBx" => inb_S10000x128_S10000x128_0_0
local notation "INBw" => inb_S128x128_S128x128_0_0
local notation "INBb" => inb_S1x128_S1x128_0_0
local notation "INBo" => inb_S10000x128_S10000x128_0_0

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 := Rect.unit (s := SHx) _ _ INBx
abbrev r5_1 := Rect.unit (s := SHw) _ _ INBw
abbrev r5_2 := Rect.unit (s := SHb) _ _ INBb
abbrev r5_o := Rect.unit (s := SHo) _ _ INBo

def out5_3 (x0 : Vec F SHx .f32) (x1 : Vec F SHw .f32) (x2 : Vec F SHb .f32) : Vec F SHo .f32 :=
  View.canon [⟨r5_o, k5_pay1 (View.ld x0 r5_0) (View.ld x1 r5_1) (View.ld x2 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) : (dat5 V c).after 3 t = out5_3 (iblk5 V c 0 t) (iblk5 V c 1 t) (iblk5 V c 2 t) := by dsimp only [dat5]

theorem share5 (c : Dev nD) : ∀ w, (dat5 V c).q w = fullShare := fun _ => rfl
theorem owed5 (c : Dev nD) : ∀ x, (dat5 V c).owed x = 0 := fun _ => rfl
theorem recorded5 (c : Dev nD) : ∀ t, (dat5 V c).recorded t = Set.univ := fun _ => rfl

theorem hin5 (c : Dev nD) : Pipeline.ΦA spec5 c ⊢ (dat5 V c).Φ 0 := Entails.refl _
theorem hout5 (c : Dev nD) : (dat5 V c).Φ (Fin.last cfg5.N) ⊢ Pipeline.ΦA spec5 c := Entails.refl _

theorem before5 (c : Dev nD) : ∀ w, (cfg5.win w).isOut = false → ∀ t d, (dat5 V c).before w t d = (dat5 V c).after w t
  | 0, h | 1, h | 2, h => (dat5 V c).before_in_eq_fetched _ h (fun _ => rfl) (fun _ _ _ => rfl) fun _ => rfl
  | 3, h => nomatch h

-- The store's rectangle is the whole output shape, so what it leaves reads as `out5_3` of the blocks read, whatever was there before.
theorem body_obligation5 (c : Dev nD) : BodyObligation (dat5 (F := F) V c) (defs₀ (F := F)) Variants.none () Set.univ := fun t => by
  rw [bigSep_W5, bigSep_W5]
  sl_whnfR [defs₀, Defs.onTc]
  sl_unfold [cc5__dense_kernel]
  simp (disch := rfl) only [before5]
  unfold owns
  dsimp only [dat5, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.KernelIdeal.Hand

end
-- ==== Proof.KI.Reg6.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rF6 : Rect S400x128 := Rect.unit (s := S400x128) ![0, 0] S400x128.size inb_S400x128_S400x128_0_0
abbrev rI6 : Rect S400x1 := Rect.unit (s := S400x1) ![0, 0] S400x1.size inb_S400x1_S400x1_0_0
abbrev rB6 : Rect S1x128 := Rect.unit (s := S1x128) ![0, 0] S1x128.size inb_S1x128_S1x128_0_0
abbrev rA6 : Rect S20000x128 := Rect.unit (s := S20000x128) ![0, 0] S20000x128.size inb_S20000x128_S20000x128_0_0

def upd6 (i : grid6.Coords) (x1 : Vec F S400x1 .i32) (acc : Vec F S20000x128 .f32) (x0 : Vec F S400x128 .bf16) : Vec F S20000x128 .f32 :=
  k6_pay2 i (View.ld x1 rI6) (View.ld acc rA6) (View.ld x0 rF6)

def accAt6 (c : Dev nD) : (n : ℕ) → n < cfg6.N → Vec F S20000x128 .f32
  | 0, hn => upd6 (grid6.coords ⟨0, hn⟩) (iblk6 V c 1 ⟨0, hn⟩) (k6_pay1 (F := F)) (iblk6 V c 0 ⟨0, hn⟩)
  | n + 1, hn => upd6 (grid6.coords ⟨n + 1, hn⟩) (iblk6 V c 1 ⟨n + 1, hn⟩)
      (if (n + 1) % 4250 = 0 then k6_pay1 (F := F) else accAt6 c n (Nat.lt_of_succ_lt hn)) (iblk6 V c 0 ⟨n + 1, hn⟩)

theorem accAt6_first (c : Dev nD) (t : Fin cfg6.N) (h : t.val % 4250 = 0) :
    accAt6 V c t.val t.isLt = upd6 (grid6.coords t) (iblk6 V c 1 t) (k6_pay1 (F := F)) (iblk6 V c 0 t) := by
  obtain ⟨n, hn⟩ := t
  cases n with
  | zero => rfl
  | succ n => exact congrArg (fun a => upd6 (grid6.coords ⟨n + 1, hn⟩) (iblk6 V c 1 ⟨n + 1, hn⟩) a (iblk6 V c 0 ⟨n + 1, hn⟩)) (if_pos h)

theorem accAt6_next (c : Dev nD) (t : Fin cfg6.N) (h : ¬t.val % 4250 = 0) :
    accAt6 V c t.val t.isLt = upd6 (grid6.coords t) (iblk6 V c 1 t)
      (accAt6 V c (t.val - 1) (Nat.lt_of_le_of_lt (Nat.sub_le _ _) t.isLt)) (iblk6 V c 0 t) := by
  obtain ⟨n, hn⟩ := t
  cases n with
  | zero => exact absurd (Nat.zero_mod _) h
  | succ n => exact congrArg (fun a => upd6 (grid6.coords ⟨n + 1, hn⟩) (iblk6 V c 1 ⟨n + 1, hn⟩) a (iblk6 V c 0 ⟨n + 1, hn⟩)) (if_neg h)

def out6_3 (acc : Vec F S20000x128 .f32) (x2 : Vec F S1x128 .f32) : Vec F S20000x128 .f32 :=
  View.canon [⟨rA6, k6_pay3 (View.ld acc rA6) (View.ld x2 rB6)⟩]

abbrev scM6 : Memref sig .tc .vmem S20000x128 .f32 := Memref.whole cc6_scratch0

abbrev inv6 (c : Dev nD) (P : sProp 𝕄) : sProp 𝕄 :=
  iprop(iprop(P ∗ Pipeline.scopedRestBut (Ix := Unit) (Name := ℕ) (U := UR sig nD τ) (Lvl := ℕ) (Val := Elt F) spec6 c [cc6_scratch0]) ∗ (∃ r, prngReg c r))

def PhiS6 (c : Dev nD) : (n : ℕ) → n ≤ cfg6.N → sProp 𝕄
  | 0, _ => Pipeline.ΦA spec6 c
  | n + 1, hn => inv6 c (owns (c : Thread nD τ) scM6 fullShare (accAt6 V c n hn))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (accAt6 V c t.val t.isLt) (iblk6 V c 2 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = out6_3 (accAt6 V c t.val t.isLt) (iblk6 V c 2 t) := by dsimp only [dat6]

theorem share6 (c : Dev nD) : ∀ w, (dat6 V c).q w = fullShare := fun _ => rfl
theorem owed6 (c : Dev nD) : ∀ x, (dat6 V c).owed x = 0 := fun _ => rfl
theorem recorded6 (c : Dev nD) : ∀ t, (dat6 V c).recorded t = Set.univ := fun _ => rfl

abbrev cond6_1 (i : grid6.Coords) : Prop := (Scalar.cmpi .ne (Scalar.extui (Scalar.cmpi .eq (BitVec.ofNat 32 (i 1).val) 0#32)) 0#32) = 1#1

theorem hzA6 : (![0, 0] : Fin S20000x128.rank → Nat) = fun _ => 0 := funext fun a => by fin_cases a <;> rfl

theorem read_writes_last6 {sg : RefSig} {κ : Kind} {sp : Space} (v : View sg κ sp S20000x128 .f32) (f : v.ty.Contents (Elt F))
    (w : Vec F S20000x128 .f32) (L : List (View.Piece (Elt F) S20000x128 .f32)) :
    v.read (Elt F) (v.writes (Elt F) f (⟨rA6, w⟩ :: L)) = w := by
  rw [View.read_writes_eq_canon v f _ (fun y => ⟨⟨rA6, w⟩, List.mem_cons_self, View.mem_set_unit_zero hzA6 inb_S20000x128_S20000x128_0_0 y⟩)]
  exact View.canon_cons_unit_zero hzA6 _ w L

-- Joins the two cases of the reset, so that one symbolic run of the body serves first and later steps alike.
theorem acc_read6 {sg : RefSig} {κ : Kind} {sp : Space} (v : View sg κ sp S20000x128 .f32) (f : v.ty.Contents (Elt F))
    (b : Prop) [Decidable b] (xs : Vec F S20000x128 .f32) (hd : ¬b → v.read (Elt F) f = xs) :
    v.read (Elt F) (if _ : b then v.writes (Elt F) f [⟨rA6, k6_pay1⟩] else f) = if b then k6_pay1 else xs := by
  by_cases h : b
  · rw [dif_pos h, if_pos h, read_writes_last6]
  · rw [dif_neg h, if_neg h, hd h]

set_option maxHeartbeats 1000000 in
theorem run6 (c : Dev nD) (E : Set ℕ) (i : grid6.Coords)
    (arg2 : Memref sig .tc .vmem S400x128 .bf16) (harg2 : arg2.IsWhole)
    (arg3 : Memref sig .tc .vmem S400x1 .i32) (harg3 : arg3.IsWhole)
    (arg4 : Memref sig .tc .vmem S1x128 .f32) (harg4 : arg4.IsWhole)
    (arg5 : Memref sig .tc .vmem S20000x128 .f32) (harg5 : arg5.IsWhole)
    (arg6 : Memref sig .tc .vmem S20000x128 .f32) (harg6 : arg6.IsWhole)
    (x0 : Vec F S400x128 .bf16) (x1 : Vec F S400x1 .i32) (x2 : Vec F S1x128 .f32) (x3 xs a : Vec F S20000x128 .f32)
    (ha : a = upd6 i x1 (if cond6_1 i then k6_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond6_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k6_cond2 i = 1#1 then out6_3 a x2 else x3)
                ∗ owns (c : Thread nD τ) arg6 fullShare a) -∗ K ⟨⟩))
      ⊢ wp frame (wpE (defs₀ (F := F)) Variants.none c none) E (cc6__scatter_kernel i arg2 harg2 arg3 harg3 arg4 harg4 arg5 harg5 arg6 harg6) K := by
  subst ha
  simp only [cc6__scatter_kernel_eq_skeleton]; unfold cc6__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k6_cond2 i = 1#1
    · rw [dif_pos hc2, if_pos hc2, read_writes_last6]; unfold out6_3 upd6
      simp only [View.readAt_eq_ld, View.readCov_unit_zero (S := S20000x128) _ hzA6, View.ld_unit_zero (S := S20000x128) hzA6,
        View.canon_unit_zero (S := S20000x128) hzA6, acc_read6 _ _ _ _ hd]
    · rw [dif_neg hc2, if_neg hc2]
  iexists _; isplitr
  swap; · iexact H6
  ipureintro
  sl_unfold_run_names
  rw [read_writes_last6]; unfold upd6
  simp only [View.readAt_eq_ld, acc_read6 _ _ _ _ hd]

theorem coord6_1 (t : Fin cfg6.N) : ((grid6.coords t) 1).val = t.val % 4250 := by
  show t.val / grid6.stride 1 % 4250 = t.val % 4250
  rw [show grid6.stride 1 = 1 from by decide, Nat.div_one]

theorem ofNat32_inj6 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond6_1 (t : Fin cfg6.N) : cond6_1 (grid6.coords t) ↔ t.val % 4250 = 0 := by
  have hlt : ((grid6.coords t) 1).val < 4250 := ((grid6.coords t) 1).isLt
  unfold cond6_1
  rw [Scalar.guard_iff, Scalar.cmpi, IntOp.cmpi_eq, ofNat32_inj6 (by omega) (by omega), coord6_1]

theorem hcond6_2 (t : Fin cfg6.N) : k6_cond2 (grid6.coords t) = 1#1 ↔ t.val % 4250 = 4249 := by
  have hlt : ((grid6.coords t) 1).val < 4250 := ((grid6.coords t) 1).isLt
  unfold k6_cond2
  rw [Scalar.guard_iff, Scalar.cmpi, IntOp.cmpi_eq, ofNat32_inj6 (by omega) (by omega), coord6_1]

theorem idleAt6_3 (t : Fin cfg6.N) (h : ¬k6_cond2 (grid6.coords t) = 1#1) : cfg6.idle 3 (grid6.coords t) = true := by
  show (!(k6_cond2 (grid6.coords t) == 1#1)) = true
  rw [Bool.not_eq_true', beq_eq_false_iff_ne]; exact h

theorem liveAt6_3 (t : Fin cfg6.N) (h : k6_cond2 (grid6.coords t) = 1#1) : cfg6.idle 3 (grid6.coords t) = false := by
  show (!(k6_cond2 (grid6.coords t) == 1#1)) = false
  rw [Bool.not_eq_false', beq_iff_eq]; exact h

theorem coord6_0 (t : Fin cfg6.N) : ((grid6.coords t) 0).val = t.val / 4250 := by
  show t.val / grid6.stride 0 % grid6.bound 0 = t.val / 4250
  rw [show grid6.stride 0 = 4250 from by decide]
  exact Nat.mod_eq_of_lt (Nat.div_lt_of_lt_mul (lt_of_lt_of_eq t.isLt (show cfg6.N = 4250 * grid6.bound 0 from by decide)))

theorem index6_3 (t : Fin cfg6.N) : (cfg6.win 3).index t = ![t.val / 4250, 0] := by
  have ht : t.val < 21250 := lt_of_lt_of_eq t.isLt (show cfg6.N = 21250 from N_6)
  show cc6_transform_3 (grid6.coords t) = _
  unfold cc6_transform_3
  dsimp only
  rw [BitVec.toNat_ofNat, coord6_0, Nat.mod_eq_of_lt (show t.val / 4250 < 2 ^ 32 by omega)]
  rfl

theorem flushH6_3 (t : Fin cfg6.N) : (cfg6.win 3).flush t = true ↔ t.val % 4250 = 4249 := by
  have hN : cfg6.N = 21250 := N_6
  have ht : t.val < 21250 := lt_of_lt_of_eq t.isLt hN
  rw [(cfg6.win 3).flush_out rfl]
  constructor
  · rintro (h | ⟨h, hne⟩)
    · have h' : t.val + 1 = 21250 := h.trans hN
      omega
    · by_contra hc
      apply hne
      rw [index6_3, index6_3]
      have e : (t.val + 1) / 4250 = t.val / 4250 := by omega
      show ![(t.val + 1) / 4250, 0] = ![t.val / 4250, 0]
      rw [e]
  · intro h
    by_cases hl : t.val + 1 = 21250
    · exact .inl (hl.trans hN.symm)
    · refine .inr ⟨lt_of_lt_of_eq (show t.val + 1 < 21250 by omega) hN.symm, fun he => ?_⟩
      rw [index6_3, index6_3] at he
      have e0 := congrFun he 0
      have e1 : (t.val + 1) / 4250 = t.val / 4250 := e0
      omega

abbrev bodyAtH6 (t : Fin cfg6.N) : Prog (TpuEff nD τ sig (Elt F) Λ₀ .tc) PUnit :=
  cc6__scatter_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (Memref.whole cc6_scratch0) (Memref.isWhole_whole _)

theorem accAt6_step (c : Dev nD) (t : Fin cfg6.N) :
    accAt6 V c t.val t.isLt = upd6 (grid6.coords t) (iblk6 V c 1 t)
      (if cond6_1 (grid6.coords t) then k6_pay1 (F := F) else accAt6 V c (t.val - 1) (Nat.lt_of_le_of_lt (Nat.sub_le _ _) t.isLt)) (iblk6 V c 0 t) := by
  by_cases h : t.val % 4250 = 0
  · rw [if_pos ((hcond6_1 t).mpr h), accAt6_first V c t h]
  · rw [if_neg (mt (hcond6_1 t).mp h), accAt6_next V c t h]

theorem PhiS6_castSucc (c : Dev nD) (t : Fin cfg6.N) :
    (dat6 V c).Φ t.castSucc = PhiS6 V c t.val (Nat.le_of_lt t.isLt) := by
  dsimp only [dat6]; simp only [Fin.coe_castSucc]

theorem PhiA6_eq (c : Dev nD) :
    (Pipeline.ΦA spec6 c : sProp 𝕄) = inv6 c iprop(∃ d, owns (c : Thread nD τ) scM6 fullShare d) := by
  unfold Pipeline.ΦA; rw [scopedRest6_split]; simp only [scM6, owns_whole]; try rfl

-- At the very first point nothing is known of the accumulator, and nothing is needed: a first step resets it.
theorem Phi6_open (c : Dev nD) (t : Fin cfg6.N) :
    (dat6 V c).Φ t.castSucc ⊢ inv6 c iprop(∃ d, ⌜¬cond6_1 (grid6.coords t) →
      d = accAt6 V c (t.val - 1) (Nat.lt_of_le_of_lt (Nat.sub_le _ _) t.isLt)⌝ ∗ owns (c : Thread nD τ) scM6 fullShare d) := by
  rw [PhiS6_castSucc]
  obtain ⟨n, hn⟩ := t
  cases n with
  | zero =>
    show Pipeline.ΦA spec6 c ⊢ _
    rw [PhiA6_eq]
    refine sep_mono_left (sep_mono_left ?_)
    iintro ⟨%d, H⟩
    iexists d; isplitr
    · ipureintro; exact fun h => absurd ((hcond6_1 ⟨0, hn⟩).mpr (Nat.zero_mod _)) h
    iexact H
  | succ n =>
    show inv6 c _ ⊢ _
    refine sep_mono_left (sep_mono_left ?_)
    iintro H
    iexists _; isplitr
    swap; · iexact H
    ipureintro; exact fun _ => rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

abbrev ms6_0 (t : Fin cfg6.N) : Memref sig .tc .vmem S400x128 .bf16 := win6_0.stage (cfg6.slots t 0)
abbrev ms6_1 (t : Fin cfg6.N) : Memref sig .tc .vmem S400x1 .i32 := win6_1.stage (cfg6.slots t 1)
abbrev ms6_2 (t : Fin cfg6.N) : Memref sig .tc .vmem S1x128 .f32 := win6_2.stage (cfg6.slots t 2)
abbrev ms6_3 (t : Fin cfg6.N) : Memref sig .tc .vmem S20000x128 .f32 := win6_3.stage (cfg6.slots t 3)

theorem leaves6_3 (c : Dev nD) (t : Fin cfg6.N) (d) :
    owns (c : Thread nD τ) (ms6_3 t) fullShare
        (if k6_cond2 (grid6.coords t) = 1#1 then out6_3 (accAt6 V c t.val t.isLt) (iblk6 V c 2 t) else (dat6 V c).before 3 t d)
      ⊢ (dat6 V c).leavesExact 3 t := by
  by_cases h : k6_cond2 (grid6.coords t) = 1#1
  · rewrite [if_pos h, ← after6_3 V c t]
    unfold Dat.leavesExact
    rewrite [liveAt6_3 t h]
    exact .rfl
  · rewrite [if_neg h, Dat.leavesExact_idle (dat6 V c) 3 t (idleAt6_3 t h)
      (by rw [← Bool.not_eq_true]; exact fun hf => h ((hcond6_2 t).mpr ((flushH6_3 t).mp hf)))]
    iintro H; iexists d; iexact H

set_option maxHeartbeats 4800000 in
theorem sound_body6 (c : Dev nD) (t : Fin cfg6.N) :
    iprop((dat6 V c).Φ t.castSucc ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))
      ∗ (∃ d, owns (c : Thread nD τ) (ms6_3 t) fullShare ((dat6 V c).before 3 t d)))
    ⊢ wp frame (wpE (defs₀ (F := F)) Variants.none c none) Set.univ (bodyAtH6 t) (fun _ =>
      iprop(inv6 c (owns (c : Thread nD τ) scM6 fullShare (accAt6 V c t.val t.isLt)) ∗ (dat6 V c).owesAt () t.castSucc
        ∗ owns (c : Thread nD τ) (ms6_0 t) fullShare (iblk6 V c 0 t)
        ∗ owns (c : Thread nD τ) (ms6_1 t) fullShare (iblk6 V c 1 t)
        ∗ owns (c : Thread nD τ) (ms6_2 t) fullShare (iblk6 V c 2 t)
        ∗ (dat6 V c).leavesExact 3 t)) := by
  unfold bodyAtH6
  simp only [before6_0, before6_1, before6_2]
  refine (sep_mono_left (Phi6_open V c t)).trans ?_
  iintro ⟨⟨⟨HS, HR⟩, Hg⟩, Ho, ⟨%d0, H0⟩, ⟨%d1, H1⟩, ⟨%d2, H2⟩, ⟨%d3, H3⟩⟩
  iapply (run6 c Set.univ (grid6.coords t) _ _ _ _ _ _ _ _ _ _ (iblk6 V c 0 t) (iblk6 V c 1 t) (iblk6 V c 2 t) ((dat6 V c).before 3 t d3) _ _ (accAt6_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves6_3 V c t d3)
  iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := .rfl

theorem Phi_out6 (c : Dev nD) : ∀ (n : ℕ) (h : n ≤ cfg6.N), n ≠ 0 → PhiS6 V c n h ⊢ Pipeline.ΦA spec6 c
  | 0, _, hz => absurd rfl hz
  | n + 1, h, _ => by
    rw [PhiA6_eq]
    show inv6 c _ ⊢ _
    refine sep_mono_left (sep_mono_left ?_)
    iintro H; iexists _; iexact H

theorem hout6 (c : Dev nD) : (dat6 V c).Φ (Fin.last cfg6.N) ⊢ Pipeline.ΦA spec6 c :=
  Phi_out6 V c cfg6.N (Nat.le_refl _) (by have : cfg6.N = 21250 := N_6; omega)

end Cert.KernelIdeal.Hand

end
-- ==== Proof.KI.Reg7.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rF7 : Rect S20000x128 := Rect.unit (s := S20000x128) ![0, 0] S20000x128.size inb_S20000x128_S20000x128_0_0
abbrev rI7 : Rect S20000x1 := Rect.unit (s := S20000x1) ![0, 0] S20000x1.size inb_S20000x1_S20000x1_0_0
abbrev rB7 : Rect S1x128 := Rect.unit (s := S1x128) ![0, 0] S1x128.size inb_S1x128_S1x128_0_0
abbrev rA7 : Rect S512x128 := Rect.unit (s := S512x128) ![0, 0] S512x128.size inb_S512x128_S512x128_0_0

def upd7 (i : grid7.Coords) (x1 : Vec F S20000x1 .i32) (acc : Vec F S512x128 .f32) (x0 : Vec F S20000x128 .bf16) : Vec F S512x128 .f32 :=
  k7_pay2 i (View.ld x1 rI7) (View.ld acc rA7) (View.ld x0 rF7)

def accAt7 (c : Dev nD) : (n : ℕ) → n < cfg7.N → Vec F S512x128 .f32
  | 0, hn => upd7 (grid7.coords ⟨0, hn⟩) (iblk7 V c 1 ⟨0, hn⟩) (k7_pay1 (F := F)) (iblk7 V c 0 ⟨0, hn⟩)
  | n + 1, hn => upd7 (grid7.coords ⟨n + 1, hn⟩) (iblk7 V c 1 ⟨n + 1, hn⟩)
      (if (n + 1) % 5 = 0 then k7_pay1 (F := F) else accAt7 c n (Nat.lt_of_succ_lt hn)) (iblk7 V c 0 ⟨n + 1, hn⟩)

theorem accAt7_first (c : Dev nD) (t : Fin cfg7.N) (h : t.val % 5 = 0) :
    accAt7 V c t.val t.isLt = upd7 (grid7.coords t) (iblk7 V c 1 t) (k7_pay1 (F := F)) (iblk7 V c 0 t) := by
  obtain ⟨n, hn⟩ := t
  cases n with
  | zero => rfl
  | succ n => exact congrArg (fun a => upd7 (grid7.coords ⟨n + 1, hn⟩) (iblk7 V c 1 ⟨n + 1, hn⟩) a (iblk7 V c 0 ⟨n + 1, hn⟩)) (if_pos h)

theorem accAt7_next (c : Dev nD) (t : Fin cfg7.N) (h : ¬t.val % 5 = 0) :
    accAt7 V c t.val t.isLt = upd7 (grid7.coords t) (iblk7 V c 1 t)
      (accAt7 V c (t.val - 1) (Nat.lt_of_le_of_lt (Nat.sub_le _ _) t.isLt)) (iblk7 V c 0 t) := by
  obtain ⟨n, hn⟩ := t
  cases n with
  | zero => exact absurd (Nat.zero_mod _) h
  | succ n => exact congrArg (fun a => upd7 (grid7.coords ⟨n + 1, hn⟩) (iblk7 V c 1 ⟨n + 1, hn⟩) a (iblk7 V c 0 ⟨n + 1, hn⟩)) (if_neg h)

def out7_3 (acc : Vec F S512x128 .f32) (x2 : Vec F S1x128 .f32) : Vec F S512x128 .f32 :=
  View.canon [⟨rA7, k7_pay3 (View.ld acc rA7) (View.ld x2 rB7)⟩]

abbrev scM7 : Memref sig .tc .vmem S512x128 .f32 := Memref.whole cc7_scratch0

abbrev inv7 (c : Dev nD) (P : sProp 𝕄) : sProp 𝕄 :=
  iprop(iprop(P ∗ Pipeline.scopedRestBut (Ix := Unit) (Name := ℕ) (U := UR sig nD τ) (Lvl := ℕ) (Val := Elt F) spec7 c [cc7_scratch0]) ∗ (∃ r, prngReg c r))

def PhiS7 (c : Dev nD) : (n : ℕ) → n ≤ cfg7.N → sProp 𝕄
  | 0, _ => Pipeline.ΦA spec7 c
  | n + 1, hn => inv7 c (owns (c : Thread nD τ) scM7 fullShare (accAt7 V c n hn))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (accAt7 V c t.val t.isLt) (iblk7 V c 2 t)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = out7_3 (accAt7 V c t.val t.isLt) (iblk7 V c 2 t) := by dsimp only [dat7]

theorem share7 (c : Dev nD) : ∀ w, (dat7 V c).q w = fullShare := fun _ => rfl
theorem owed7 (c : Dev nD) : ∀ x, (dat7 V c).owed x = 0 := fun _ => rfl
theorem recorded7 (c : Dev nD) : ∀ t, (dat7 V c).recorded t = Set.univ := fun _ => rfl

abbrev cond7_1 (i : grid7.Coords) : Prop := (Scalar.cmpi .ne (Scalar.extui (Scalar.cmpi .eq (BitVec.ofNat 32 (i 1).val) 0#32)) 0#32) = 1#1

theorem hzA7 : (![0, 0] : Fin S512x128.rank → Nat) = fun _ => 0 := funext fun a => by fin_cases a <;> rfl

theorem read_writes_last7 {sg : RefSig} {κ : Kind} {sp : Space} (v : View sg κ sp S512x128 .f32) (f : v.ty.Contents (Elt F))
    (w : Vec F S512x128 .f32) (L : List (View.Piece (Elt F) S512x128 .f32)) :
    v.read (Elt F) (v.writes (Elt F) f (⟨rA7, w⟩ :: L)) = w := by
  rw [View.read_writes_eq_canon v f _ (fun y => ⟨⟨rA7, w⟩, List.mem_cons_self, View.mem_set_unit_zero hzA7 inb_S512x128_S512x128_0_0 y⟩)]
  exact View.canon_cons_unit_zero hzA7 _ w L

-- Joins the two cases of the reset, so that one symbolic run of the body serves first and later steps alike.
theorem acc_read7 {sg : RefSig} {κ : Kind} {sp : Space} (v : View sg κ sp S512x128 .f32) (f : v.ty.Contents (Elt F))
    (b : Prop) [Decidable b] (xs : Vec F S512x128 .f32) (hd : ¬b → v.read (Elt F) f = xs) :
    v.read (Elt F) (if _ : b then v.writes (Elt F) f [⟨rA7, k7_pay1⟩] else f) = if b then k7_pay1 else xs := by
  by_cases h : b
  · rw [dif_pos h, if_pos h, read_writes_last7]
  · rw [dif_neg h, if_neg h, hd h]

set_option maxHeartbeats 1000000 in
theorem run7 (c : Dev nD) (E : Set ℕ) (i : grid7.Coords)
    (arg2 : Memref sig .tc .vmem S20000x128 .bf16) (harg2 : arg2.IsWhole)
    (arg3 : Memref sig .tc .vmem S20000x1 .i32) (harg3 : arg3.IsWhole)
    (arg4 : Memref sig .tc .vmem S1x128 .f32) (harg4 : arg4.IsWhole)
    (arg5 : Memref sig .tc .vmem S512x128 .f32) (harg5 : arg5.IsWhole)
    (arg6 : Memref sig .tc .vmem S512x128 .f32) (harg6 : arg6.IsWhole)
    (x0 : Vec F S20000x128 .bf16) (x1 : Vec F S20000x1 .i32) (x2 : Vec F S1x128 .f32) (x3 xs a : Vec F S512x128 .f32)
    (ha : a = upd7 i x1 (if cond7_1 i then k7_pay1 (F := F) else xs) x0)
    (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ (∃ d, ⌜¬cond7_1 i → d = xs⌝ ∗ owns (c : Thread nD τ) arg6 fullShare d)
          ∗ (iprop(owns (c : Thread nD τ) arg2 fullShare x0 ∗ owns (c : Thread nD τ) arg3 fullShare x1
                ∗ owns (c : Thread nD τ) arg4 fullShare x2
                ∗ owns (c : Thread nD τ) arg5 fullShare (if k7_cond2 i = 1#1 then out7_3 a x2 else x3)
                ∗ owns (c : Thread nD τ) arg6 fullShare a) -∗ K ⟨⟩))
      ⊢ wp frame (wpE (defs₀ (F := F)) Variants.none c none) E (cc7__scatter_kernel i arg2 harg2 arg3 harg3 arg4 harg4 arg5 harg5 arg6 harg6) K := by
  subst ha
  simp only [cc7__scatter_kernel_eq_skeleton]; unfold cc7__scatter_kernel_skel owns
  iintro ⟨⟨%f0, %hf0, H0⟩, ⟨%f1, %hf1, H1⟩, ⟨%f2, %hf2, H2⟩, ⟨%f5, %hf5, H5⟩, ⟨%d, %hd, %f6, %hf6, H6⟩, Hk⟩
  subst hf0; subst hf1; subst hf2; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    by_cases hc2 : k7_cond2 i = 1#1
    · rw [dif_pos hc2, if_pos hc2, read_writes_last7]; unfold out7_3 upd7
      simp only [View.readAt_eq_ld, View.readCov_unit_zero (S := S512x128) _ hzA7, View.ld_unit_zero (S := S512x128) hzA7,
        View.canon_unit_zero (S := S512x128) hzA7, acc_read7 _ _ _ _ hd]
    · rw [dif_neg hc2, if_neg hc2]
  iexists _; isplitr
  swap; · iexact H6
  ipureintro
  sl_unfold_run_names
  rw [read_writes_last7]; unfold upd7
  simp only [View.readAt_eq_ld, acc_read7 _ _ _ _ hd]

theorem coord7_1 (t : Fin cfg7.N) : ((grid7.coords t) 1).val = t.val % 5 := by
  show t.val / grid7.stride 1 % 5 = t.val % 5
  rw [show grid7.stride 1 = 1 from by decide, Nat.div_one]

theorem ofNat32_inj7 {n k : ℕ} (hn : n < 2 ^ 32) (hk : k < 2 ^ 32) : BitVec.ofNat 32 n = BitVec.ofNat 32 k ↔ n = k := by
  rw [← BitVec.toNat_inj, BitVec.toNat_ofNat, BitVec.toNat_ofNat, Nat.mod_eq_of_lt hn, Nat.mod_eq_of_lt hk]

theorem hcond7_1 (t : Fin cfg7.N) : cond7_1 (grid7.coords t) ↔ t.val % 5 = 0 := by
  have hlt : ((grid7.coords t) 1).val < 5 := ((grid7.coords t) 1).isLt
  unfold cond7_1
  rw [Scalar.guard_iff, Scalar.cmpi, IntOp.cmpi_eq, ofNat32_inj7 (by omega) (by omega), coord7_1]

theorem hcond7_2 (t : Fin cfg7.N) : k7_cond2 (grid7.coords t) = 1#1 ↔ t.val % 5 = 4 := by
  have hlt : ((grid7.coords t) 1).val < 5 := ((grid7.coords t) 1).isLt
  unfold k7_cond2
  rw [Scalar.guard_iff, Scalar.cmpi, IntOp.cmpi_eq, ofNat32_inj7 (by omega) (by omega), coord7_1]

theorem idleAt7_3 (t : Fin cfg7.N) (h : ¬k7_cond2 (grid7.coords t) = 1#1) : cfg7.idle 3 (grid7.coords t) = true := by
  show (!(k7_cond2 (grid7.coords t) == 1#1)) = true
  rw [Bool.not_eq_true', beq_eq_false_iff_ne]; exact h

theorem liveAt7_3 (t : Fin cfg7.N) (h : k7_cond2 (grid7.coords t) = 1#1) : cfg7.idle 3 (grid7.coords t) = false := by
  show (!(k7_cond2 (grid7.coords t) == 1#1)) = false
  rw [Bool.not_eq_false', beq_iff_eq]; exact h

theorem coord7_0 (t : Fin cfg7.N) : ((grid7.coords t) 0).val = t.val / 5 := by
  show t.val / grid7.stride 0 % grid7.bound 0 = t.val / 5
  rw [show grid7.stride 0 = 5 from by decide]
  exact Nat.mod_eq_of_lt (Nat.div_lt_of_lt_mul (lt_of_lt_of_eq t.isLt (show cfg7.N = 5 * grid7.bound 0 from by decide)))

theorem index7_3 (t : Fin cfg7.N) : (cfg7.win 3).index t = ![t.val / 5, 0] := by
  have ht : t.val < 5 := lt_of_lt_of_eq t.isLt (show cfg7.N = 5 from N_7)
  show cc7_transform_3 (grid7.coords t) = _
  unfold cc7_transform_3
  dsimp only
  rw [BitVec.toNat_ofNat, coord7_0, Nat.mod_eq_of_lt (show t.val / 5 < 2 ^ 32 by omega)]
  rfl

theorem flushH7_3 (t : Fin cfg7.N) : (cfg7.win 3).flush t = true ↔ t.val % 5 = 4 := by
  have hN : cfg7.N = 5 := N_7
  have ht : t.val < 5 := lt_of_lt_of_eq t.isLt hN
  rw [(cfg7.win 3).flush_out rfl]
  constructor
  · rintro (h | ⟨h, hne⟩)
    · have h' : t.val + 1 = 5 := h.trans hN
      omega
    · by_contra hc
      apply hne
      rw [index7_3, index7_3]
      have e : (t.val + 1) / 5 = t.val / 5 := by omega
      show ![(t.val + 1) / 5, 0] = ![t.val / 5, 0]
      rw [e]
  · intro h
    by_cases hl : t.val + 1 = 5
    · exact .inl (hl.trans hN.symm)
    · refine .inr ⟨lt_of_lt_of_eq (show t.val + 1 < 5 by omega) hN.symm, fun he => ?_⟩
      rw [index7_3, index7_3] at he
      have e0 := congrFun he 0
      have e1 : (t.val + 1) / 5 = t.val / 5 := e0
      omega

abbrev bodyAtH7 (t : Fin cfg7.N) : Prog (TpuEff nD τ sig (Elt F) Λ₀ .tc) PUnit :=
  cc7__scatter_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (Memref.whole cc7_scratch0) (Memref.isWhole_whole _)

theorem accAt7_step (c : Dev nD) (t : Fin cfg7.N) :
    accAt7 V c t.val t.isLt = upd7 (grid7.coords t) (iblk7 V c 1 t)
      (if cond7_1 (grid7.coords t) then k7_pay1 (F := F) else accAt7 V c (t.val - 1) (Nat.lt_of_le_of_lt (Nat.sub_le _ _) t.isLt)) (iblk7 V c 0 t) := by
  by_cases h : t.val % 5 = 0
  · rw [if_pos ((hcond7_1 t).mpr h), accAt7_first V c t h]
  · rw [if_neg (mt (hcond7_1 t).mp h), accAt7_next V c t h]

theorem PhiS7_castSucc (c : Dev nD) (t : Fin cfg7.N) :
    (dat7 V c).Φ t.castSucc = PhiS7 V c t.val (Nat.le_of_lt t.isLt) := by
  dsimp only [dat7]; simp only [Fin.coe_castSucc]

theorem PhiA7_eq (c : Dev nD) :
    (Pipeline.ΦA spec7 c : sProp 𝕄) = inv7 c iprop(∃ d, owns (c : Thread nD τ) scM7 fullShare d) := by
  unfold Pipeline.ΦA; rw [scopedRest7_split]; simp only [scM7, owns_whole]; try rfl

-- At the very first point nothing is known of the accumulator, and nothing is needed: a first step resets it.
theorem Phi7_open (c : Dev nD) (t : Fin cfg7.N) :
    (dat7 V c).Φ t.castSucc ⊢ inv7 c iprop(∃ d, ⌜¬cond7_1 (grid7.coords t) →
      d = accAt7 V c (t.val - 1) (Nat.lt_of_le_of_lt (Nat.sub_le _ _) t.isLt)⌝ ∗ owns (c : Thread nD τ) scM7 fullShare d) := by
  rw [PhiS7_castSucc]
  obtain ⟨n, hn⟩ := t
  cases n with
  | zero =>
    show Pipeline.ΦA spec7 c ⊢ _
    rw [PhiA7_eq]
    refine sep_mono_left (sep_mono_left ?_)
    iintro ⟨%d, H⟩
    iexists d; isplitr
    · ipureintro; exact fun h => absurd ((hcond7_1 ⟨0, hn⟩).mpr (Nat.zero_mod _)) h
    iexact H
  | succ n =>
    show inv7 c _ ⊢ _
    refine sep_mono_left (sep_mono_left ?_)
    iintro H
    iexists _; isplitr
    swap; · iexact H
    ipureintro; exact fun _ => rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

abbrev ms7_0 (t : Fin cfg7.N) : Memref sig .tc .vmem S20000x128 .bf16 := win7_0.stage (cfg7.slots t 0)
abbrev ms7_1 (t : Fin cfg7.N) : Memref sig .tc .vmem S20000x1 .i32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S512x128 .f32 := win7_3.stage (cfg7.slots t 3)

theorem leaves7_3 (c : Dev nD) (t : Fin cfg7.N) (d) :
    owns (c : Thread nD τ) (ms7_3 t) fullShare
        (if k7_cond2 (grid7.coords t) = 1#1 then out7_3 (accAt7 V c t.val t.isLt) (iblk7 V c 2 t) else (dat7 V c).before 3 t d)
      ⊢ (dat7 V c).leavesExact 3 t := by
  by_cases h : k7_cond2 (grid7.coords t) = 1#1
  · rewrite [if_pos h, ← after7_3 V c t]
    unfold Dat.leavesExact
    rewrite [liveAt7_3 t h]
    exact .rfl
  · rewrite [if_neg h, Dat.leavesExact_idle (dat7 V c) 3 t (idleAt7_3 t h)
      (by rw [← Bool.not_eq_true]; exact fun hf => h ((hcond7_2 t).mpr ((flushH7_3 t).mp hf)))]
    iintro H; iexists d; iexact H

set_option maxHeartbeats 4800000 in
theorem sound_body7 (c : Dev nD) (t : Fin cfg7.N) :
    iprop((dat7 V c).Φ t.castSucc ∗ (dat7 V c).owesAt () t.castSucc
      ∗ (∃ d, owns (c : Thread nD τ) (ms7_0 t) fullShare ((dat7 V c).before 0 t d))
      ∗ (∃ d, owns (c : Thread nD τ) (ms7_1 t) fullShare ((dat7 V c).before 1 t d))
      ∗ (∃ d, owns (c : Thread nD τ) (ms7_2 t) fullShare ((dat7 V c).before 2 t d))
      ∗ (∃ d, owns (c : Thread nD τ) (ms7_3 t) fullShare ((dat7 V c).before 3 t d)))
    ⊢ wp frame (wpE (defs₀ (F := F)) Variants.none c none) Set.univ (bodyAtH7 t) (fun _ =>
      iprop(inv7 c (owns (c : Thread nD τ) scM7 fullShare (accAt7 V c t.val t.isLt)) ∗ (dat7 V c).owesAt () t.castSucc
        ∗ owns (c : Thread nD τ) (ms7_0 t) fullShare (iblk7 V c 0 t)
        ∗ owns (c : Thread nD τ) (ms7_1 t) fullShare (iblk7 V c 1 t)
        ∗ owns (c : Thread nD τ) (ms7_2 t) fullShare (iblk7 V c 2 t)
        ∗ (dat7 V c).leavesExact 3 t)) := by
  unfold bodyAtH7
  simp only [before7_0, before7_1, before7_2]
  refine (sep_mono_left (Phi7_open V c t)).trans ?_
  iintro ⟨⟨⟨HS, HR⟩, Hg⟩, Ho, ⟨%d0, H0⟩, ⟨%d1, H1⟩, ⟨%d2, H2⟩, ⟨%d3, H3⟩⟩
  iapply (run7 c Set.univ (grid7.coords t) _ _ _ _ _ _ _ _ _ _ (iblk7 V c 0 t) (iblk7 V c 1 t) (iblk7 V c 2 t) ((dat7 V c).before 3 t d3) _ _ (accAt7_step V c t) _)
  iframe H0 H1 H2 H3 HS
  iintro ⟨H0, H1, H2, H3, HS⟩
  isplitl [HS HR Hg]
  · isplitl [HS HR]
    · isplitl [HS]; · iexact HS
      iexact HR
    iexact Hg
  iframe Ho H0 H1 H2
  iapply (leaves7_3 V c t d3)
  iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := .rfl

theorem Phi_out7 (c : Dev nD) : ∀ (n : ℕ) (h : n ≤ cfg7.N), n ≠ 0 → PhiS7 V c n h ⊢ Pipeline.ΦA spec7 c
  | 0, _, hz => absurd rfl hz
  | n + 1, h, _ => by
    rw [PhiA7_eq]
    show inv7 c _ ⊢ _
    refine sep_mono_left (sep_mono_left ?_)
    iintro H; iexists _; iexact H

theorem hout7 (c : Dev nD) : (dat7 V c).Φ (Fin.last cfg7.N) ⊢ Pipeline.ΦA spec7 c :=
  Phi_out7 V c cfg7.N (Nat.le_refl _) (by have : cfg7.N = 5 := N_7; omega)

end Cert.KernelIdeal.Hand

end
-- ==== Proof.KI.Reg8.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "SHx" => S512x128
local notation "SHw" => S128x128
local notation "SHb" => S1x128
local notation "SHo" => S512x128
local notation "INBx" => inb_S512x128_S512x128_0_0
local notation "INBw" => inb_S128x128_S128x128_0_0
local notation "INBb" => inb_S1x128_S1x128_0_0
local notation "INBo" => inb_S512x128_S512x128_0_0

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 := Rect.unit (s := SHx) _ _ INBx
abbrev r8_1 := Rect.unit (s := SHw) _ _ INBw
abbrev r8_2 := Rect.unit (s := SHb) _ _ INBb
abbrev r8_o := Rect.unit (s := SHo) _ _ INBo

def out8_3 (x0 : Vec F SHx .f32) (x1 : Vec F SHw .f32) (x2 : Vec F SHb .f32) : Vec F SHo .f32 :=
  View.canon [⟨r8_o, k8_pay1 (View.ld x0 r8_0) (View.ld x1 r8_1) (View.ld x2 r8_2)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (iblk8 V c 0 t) (iblk8 V c 1 t) (iblk8 V c 2 t) := by dsimp only [dat8]

theorem share8 (c : Dev nD) : ∀ w, (dat8 V c).q w = fullShare := fun _ => rfl
theorem owed8 (c : Dev nD) : ∀ x, (dat8 V c).owed x = 0 := fun _ => rfl
theorem recorded8 (c : Dev nD) : ∀ t, (dat8 V c).recorded t = Set.univ := fun _ => rfl

theorem hin8 (c : Dev nD) : Pipeline.ΦA spec8 c ⊢ (dat8 V c).Φ 0 := Entails.refl _
theorem hout8 (c : Dev nD) : (dat8 V c).Φ (Fin.last cfg8.N) ⊢ Pipeline.ΦA spec8 c := Entails.refl _

theorem before8 (c : Dev nD) : ∀ w, (cfg8.win w).isOut = false → ∀ t d, (dat8 V c).before w t d = (dat8 V c).after w t
  | 0, h | 1, h | 2, h => (dat8 V c).before_in_eq_fetched _ h (fun _ => rfl) (fun _ _ _ => rfl) fun _ => rfl
  | 3, h => nomatch h

-- The store's rectangle is the whole output shape, so what it leaves reads as `out8_3` of the blocks read, whatever was there before.
theorem body_obligation8 (c : Dev nD) : BodyObligation (dat8 (F := F) V c) (defs₀ (F := F)) Variants.none () Set.univ := fun t => by
  rw [bigSep_W8, bigSep_W8]
  sl_whnfR [defs₀, Defs.onTc]
  sl_unfold [cc8__dense_kernel]
  simp (disch := rfl) only [before8]
  unfold owns
  dsimp only [dat8, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.KernelIdeal.Hand

end
-- ==== Proof.KI.Reg9.lean ====
import proofs.«417880_j4011499454825_1_alg».proof.Proof.Gen.KernelIdeal.Launch
import proofs.«417880_j4011499454825_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "SHx" => S512x128
local notation "SHw" => S128x10
local notation "SHb" => S1x10
local notation "SHo" => S512x10
local notation "INBx" => inb_S512x128_S512x128_0_0
local notation "INBw" => inb_S128x10_S128x10_0_0
local notation "INBb" => inb_S1x10_S1x10_0_0
local notation "INBo" => inb_S512x10_S512x10_0_0

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 := Rect.unit (s := SHx) _ _ INBx
abbrev r9_1 := Rect.unit (s := SHw) _ _ INBw
abbrev r9_2 := Rect.unit (s := SHb) _ _ INBb
abbrev r9_o := Rect.unit (s := SHo) _ _ INBo

def out9_3 (x0 : Vec F SHx .f32) (x1 : Vec F SHw .f32) (x2 : Vec F SHb .f32) : Vec F SHo .f32 :=
  View.canon [⟨r9_o, k9_pay1 (View.ld x0 r9_0) (View.ld x1 r9_1) (View.ld x2 r9_2)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := rfl

theorem after9_3 (c : Dev nD) (t : Fin cfg9.N) : (dat9 V c).after 3 t = out9_3 (iblk9 V c 0 t) (iblk9 V c 1 t) (iblk9 V c 2 t) := by dsimp only [dat9]

theorem share9 (c : Dev nD) : ∀ w, (dat9 V c).q w = fullShare := fun _ => rfl
theorem owed9 (c : Dev nD) : ∀ x, (dat9 V c).owed x = 0 := fun _ => rfl
theorem recorded9 (c : Dev nD) : ∀ t, (dat9 V c).recorded t = Set.univ := fun _ => rfl

theorem hin9 (c : Dev nD) : Pipeline.ΦA spec9 c ⊢ (dat9 V c).Φ 0 := Entails.refl _
theorem hout9 (c : Dev nD) : (dat9 V c).Φ (Fin.last cfg9.N) ⊢ Pipeline.ΦA spec9 c := Entails.refl _

theorem before9 (c : Dev nD) : ∀ w, (cfg9.win w).isOut = false → ∀ t d, (dat9 V c).before w t d = (dat9 V c).after w t
  | 0, h | 1, h | 2, h => (dat9 V c).before_in_eq_fetched _ h (fun _ => rfl) (fun _ _ _ => rfl) fun _ => rfl
  | 3, h => nomatch h

-- The store's rectangle is the whole output shape, so what it leaves reads as `out9_3` of the blocks read, whatever was there before.
theorem body_obligation9 (c : Dev nD) : BodyObligation (dat9 (F := F) V c) (defs₀ (F := F)) Variants.none () Set.univ := fun t => by
  rw [bigSep_W9, bigSep_W9]
  sl_whnfR [defs₀, Defs.onTc]
  sl_unfold [cc9__dense_kernel]
  simp (disch := rfl) only [before9]
  unfold owns
  dsimp only [dat9, Dat.owesAt, Dat.bound]
  iintro ⟨HΦ, Ho, ⟨%_, %f0, %hf0, H0⟩, ⟨%_, %f1, %hf1, H1⟩, ⟨%_, %f2, %hf2, H2⟩, ⟨%_, %f3, -, H3⟩⟩
  sl_exec
  sl_step
  iframe HΦ Ho
  isplitl [H0]; · iexists f0; iframe H0 %hf0
  isplitl [H1]; · iexists f1; iframe H1 %hf1
  isplitl [H2]; · iexists f2; iframe H2 %hf2
  iexists _; iframe H3
  ipureintro
  rw [← hf0, ← hf1, ← hf2]
  exact View.read_writes_eq_canon _ _ _ (View.cover_of_tiled _ (Shape.size SHo) (by rfl))

end Cert.KernelIdeal.Hand

end
-- ==== Proof.KI.Launch.lean ====
import proofs.«417880_j4011499454825_1_alg».proof.Proof.KI.Reg0
import proofs.«417880_j4011499454825_1_alg».proof.Proof.KI.Reg1
import proofs.«417880_j4011499454825_1_alg».proof.Proof.KI.Reg2
import proofs.«417880_j4011499454825_1_alg».proof.Proof.KI.Reg3
import proofs.«417880_j4011499454825_1_alg».proof.Proof.KI.Reg4
import proofs.«417880_j4011499454825_1_alg».proof.Proof.KI.Reg5
import proofs.«417880_j4011499454825_1_alg».proof.Proof.KI.Reg6
import proofs.«417880_j4011499454825_1_alg».proof.Proof.KI.Reg7
import proofs.«417880_j4011499454825_1_alg».proof.Proof.KI.Reg8
import proofs.«417880_j4011499454825_1_alg».proof.Proof.KI.Reg9
import proofs.«417880_j4011499454825_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev Vin0 : (c : Dev nD) → (b : Ref sig .tc) → Buf (Elt F) ((c : Thread nD τ).loc b) := fun c b => W3 m c b
def W4 (c : Dev nD) : Valuation τ sig (Elt F) :=
  Function.update (W3 m c) main_v44 ((dat0 (Vin0 m) c).arrAt 3 cfg0.N)
abbrev W5 (c : Dev nD) : Valuation τ sig (Elt F) := StableHlo.after hostOps1 (W4 m c)
abbrev W6 (c : Dev nD) : Valuation τ sig (Elt F) := StableHlo.after hostOps1_1 (W5 m c)
abbrev W7 (c : Dev nD) : Valuation τ sig (Elt F) := StableHlo.after hostOps1_2 (W6 m c)
abbrev Vin1 : (c : Dev nD) → (b : Ref sig .tc) → Buf (Elt F) ((c : Thread nD τ).loc b) := fun c b => W7 m c b
def W8 (c : Dev nD) : Valuation τ sig (Elt F) :=
  Function.update (W7 m c) main_v49 ((dat1 (Vin1 m) c).arrAt 3 cfg1.N)
abbrev W9 (c : Dev nD) : Valuation τ sig (Elt F) := StableHlo.after hostOps2 (W8 m c)
abbrev Vin2 : (c : Dev nD) → (b : Ref sig .tc) → Buf (Elt F) ((c : Thread nD τ).loc b) := fun c b => W9 m c b
def W10 (c : Dev nD) : Valuation τ sig (Elt F) :=
  Function.update (W9 m c) main_v63 ((dat2 (Vin2 m) c).arrAt 3 cfg2.N)
abbrev W11 (c : Dev nD) : Valuation τ sig (Elt F) := StableHlo.after hostOps3 (W10 m c)
abbrev Vin3 : (c : Dev nD) → (b : Ref sig .tc) → Buf (Elt F) ((c : Thread nD τ).loc b) := fun c b => W11 m c b
def W12 (c : Dev nD) : Valuation τ sig (Elt F) :=
  Function.update (W11 m c) main_v66 ((dat3 (Vin3 m) c).arrAt 3 cfg3.N)
abbrev W13 (c : Dev nD) : Valuation τ sig (Elt F) := StableHlo.after hostOps4 (W12 m c)
abbrev Vin4 : (c : Dev nD) → (b : Ref sig .tc) → Buf (Elt F) ((c : Thread nD τ).loc b) := fun c b => W13 m c b
def W14 (c : Dev nD) : Valuation τ sig (Elt F) :=
  Function.update (W13 m c) main_v80 ((dat4 (Vin4 m) c).arrAt 3 cfg4.N)
abbrev W15 (c : Dev nD) : Valuation τ sig (Elt F) := StableHlo.after hostOps5 (W14 m c)
abbrev Vin5 : (c : Dev nD) → (b : Ref sig .tc) → Buf (Elt F) ((c : Thread nD τ).loc b) := fun c b => W15 m c b
def W16 (c : Dev nD) : Valuation τ sig (Elt F) :=
  Function.update (W15 m c) main_v83 ((dat5 (Vin5 m) c).arrAt 3 cfg5.N)
abbrev W17 (c : Dev nD) : Valuation τ sig (Elt F) := StableHlo.after hostOps6 (W16 m c)
abbrev Vin6 : (c : Dev nD) → (b : Ref sig .tc) → Buf (Elt F) ((c : Thread nD τ).loc b) := fun c b => W17 m c b
def W18 (c : Dev nD) : Valuation τ sig (Elt F) :=
  Function.update (W17 m c) main_v97 ((dat6 (Vin6 m) c).arrAt 3 cfg6.N)
abbrev W19 (c : Dev nD) : Valuation τ sig (Elt F) := StableHlo.after hostOps7 (W18 m c)
abbrev Vin7 : (c : Dev nD) → (b : Ref sig .tc) → Buf (Elt F) ((c : Thread nD τ).loc b) := fun c b => W19 m c b
def W20 (c : Dev nD) : Valuation τ sig (Elt F) :=
  Function.update (W19 m c) main_v102 ((dat7 (Vin7 m) c).arrAt 3 cfg7.N)
abbrev W21 (c : Dev nD) : Valuation τ sig (Elt F) := StableHlo.after hostOps8 (W20 m c)
abbrev Vin8 : (c : Dev nD) → (b : Ref sig .tc) → Buf (Elt F) ((c : Thread nD τ).loc b) := fun c b => W21 m c b
def W22 (c : Dev nD) : Valuation τ sig (Elt F) :=
  Function.update (W21 m c) main_v104 ((dat8 (Vin8 m) c).arrAt 3 cfg8.N)
abbrev W23 (c : Dev nD) : Valuation τ sig (Elt F) := StableHlo.after hostOps9 (W22 m c)
abbrev Vin9 : (c : Dev nD) → (b : Ref sig .tc) → Buf (Elt F) ((c : Thread nD τ).loc b) := fun c b => W23 m c b
def W24 (c : Dev nD) : Valuation τ sig (Elt F) :=
  Function.update (W23 m c) main_v106 ((dat9 (Vin9 m) c).arrAt 3 cfg9.N)

theorem W4_of_ne (c : Dev nD) (x : DevRef τ sig) (hx : x ≠ Proc.devRef .tc main_v44) : W4 m c x = W3 m c x :=
  Function.update_of_ne hx _ _
theorem W4_out (c : Dev nD) : W4 m c (Proc.devRef .tc main_v44) = (dat0 (Vin0 m) c).arrAt 3 cfg0.N :=
  Function.update_self _ _ _
theorem W8_of_ne (c : Dev nD) (x : DevRef τ sig) (hx : x ≠ Proc.devRef .tc main_v49) : W8 m c x = W7 m c x :=
  Function.update_of_ne hx _ _
theorem W8_out (c : Dev nD) : W8 m c (Proc.devRef .tc main_v49) = (dat1 (Vin1 m) c).arrAt 3 cfg1.N :=
  Function.update_self _ _ _
theorem W10_of_ne (c : Dev nD) (x : DevRef τ sig) (hx : x ≠ Proc.devRef .tc main_v63) : W10 m c x = W9 m c x :=
  Function.update_of_ne hx _ _
theorem W10_out (c : Dev nD) : W10 m c (Proc.devRef .tc main_v63) = (dat2 (Vin2 m) c).arrAt 3 cfg2.N :=
  Function.update_self _ _ _
theorem W12_of_ne (c : Dev nD) (x : DevRef τ sig) (hx : x ≠ Proc.devRef .tc main_v66) : W12 m c x = W11 m c x :=
  Function.update_of_ne hx _ _
theorem W12_out (c : Dev nD) : W12 m c (Proc.devRef .tc main_v66) = (dat3 (Vin3 m) c).arrAt 3 cfg3.N :=
  Function.update_self _ _ _
theorem W14_of_ne (c : Dev nD) (x : DevRef τ sig) (hx : x ≠ Proc.devRef .tc main_v80) : W14 m c x = W13 m c x :=
  Function.update_of_ne hx _ _
theorem W14_out (c : Dev nD) : W14 m c (Proc.devRef .tc main_v80) = (dat4 (Vin4 m) c).arrAt 3 cfg4.N :=
  Function.update_self _ _ _
theorem W16_of_ne (c : Dev nD) (x : DevRef τ sig) (hx : x ≠ Proc.devRef .tc main_v83) : W16 m c x = W15 m c x :=
  Function.update_of_ne hx _ _
theorem W16_out (c : Dev nD) : W16 m c (Proc.devRef .tc main_v83) = (dat5 (Vin5 m) c).arrAt 3 cfg5.N :=
  Function.update_self _ _ _
theorem W18_of_ne (c : Dev nD) (x : DevRef τ sig) (hx : x ≠ Proc.devRef .tc main_v97) : W18 m c x = W17 m c x :=
  Function.update_of_ne hx _ _
theorem W18_out (c : Dev nD) : W18 m c (Proc.devRef .tc main_v97) = (dat6 (Vin6 m) c).arrAt 3 cfg6.N :=
  Function.update_self _ _ _
theorem W20_of_ne (c : Dev nD) (x : DevRef τ sig) (hx : x ≠ Proc.devRef .tc main_v102) : W20 m c x = W19 m c x :=
  Function.update_of_ne hx _ _
theorem W20_out (c : Dev nD) : W20 m c (Proc.devRef .tc main_v102) = (dat7 (Vin7 m) c).arrAt 3 cfg7.N :=
  Function.update_self _ _ _
theorem W22_of_ne (c : Dev nD) (x : DevRef τ sig) (hx : x ≠ Proc.devRef .tc main_v104) : W22 m c x = W21 m c x :=
  Function.update_of_ne hx _ _
theorem W22_out (c : Dev nD) : W22 m c (Proc.devRef .tc main_v104) = (dat8 (Vin8 m) c).arrAt 3 cfg8.N :=
  Function.update_self _ _ _
theorem W24_of_ne (c : Dev nD) (x : DevRef τ sig) (hx : x ≠ Proc.devRef .tc main_v106) : W24 m c x = W23 m c x :=
  Function.update_of_ne hx _ _
theorem W24_out (c : Dev nD) : W24 m c (Proc.devRef .tc main_v106) = (dat9 (Vin9 m) c).arrAt 3 cfg9.N :=
  Function.update_self _ _ _

def outs : Outs (F := F) := fun J r c =>
  match J with
  | 4 => W4 m c r
  | 8 => W8 m c r
  | 10 => W10 m c r
  | 12 => W12 m c r
  | 14 => W14 m c r
  | 16 => W16 m c r
  | 18 => W18 m c r
  | 20 => W20 m c r
  | 22 => W22 m c r
  | 24 => W24 m c r
  | _ => W0 m c r

/-- Updating `f` at `a` to `g a` gives `g`, when `g` agrees with `f` off `a`. -/
theorem update_at_eq {α : Type} [DecidableEq α] {β : α → Type} {f f' g : (a : α) → β a} {a : α} (hf : f = f')
    (h : ∀ x, x ≠ a → g x = f' x) : Function.update f a (g a) = g :=
  hf ▸ Function.update_eq_iff.mpr ⟨rfl, fun x hx => (h x hx).symm⟩

theorem V4_eq (c : Dev nD) : V4 m (outs m) c = W4 m c := update_at_eq rfl (W4_of_ne m c)
theorem V7_eq (c : Dev nD) : V7 m (outs m) c = W7 m c :=
  congrArg (StableHlo.after hostOps1_2) (congrArg (StableHlo.after hostOps1_1) (congrArg (StableHlo.after hostOps1) (V4_eq m c)))
theorem V8_eq (c : Dev nD) : V8 m (outs m) c = W8 m c := update_at_eq (V7_eq m c) (W8_of_ne m c)
theorem V9_eq (c : Dev nD) : V9 m (outs m) c = W9 m c := congrArg (StableHlo.after hostOps2) (V8_eq m c)
theorem V10_eq (c : Dev nD) : V10 m (outs m) c = W10 m c := update_at_eq (V9_eq m c) (W10_of_ne m c)
theorem V11_eq (c : Dev nD) : V11 m (outs m) c = W11 m c := congrArg (StableHlo.after hostOps3) (V10_eq m c)
theorem V12_eq (c : Dev nD) : V12 m (outs m) c = W12 m c := update_at_eq (V11_eq m c) (W12_of_ne m c)
theorem V13_eq (c : Dev nD) : V13 m (outs m) c = W13 m c := congrArg (StableHlo.after hostOps4) (V12_eq m c)
theorem V14_eq (c : Dev nD) : V14 m (outs m) c = W14 m c := update_at_eq (V13_eq m c) (W14_of_ne m c)
theorem V15_eq (c : Dev nD) : V15 m (outs m) c = W15 m c := congrArg (StableHlo.after hostOps5) (V14_eq m c)
theorem V16_eq (c : Dev nD) : V16 m (outs m) c = W16 m c := update_at_eq (V15_eq m c) (W16_of_ne m c)
theorem V17_eq (c : Dev nD) : V17 m (outs m) c = W17 m c := congrArg (StableHlo.after hostOps6) (V16_eq m c)
theorem V18_eq (c : Dev nD) : V18 m (outs m) c = W18 m c := update_at_eq (V17_eq m c) (W18_of_ne m c)
theorem V19_eq (c : Dev nD) : V19 m (outs m) c = W19 m c := congrArg (StableHlo.after hostOps7) (V18_eq m c)
theorem V20_eq (c : Dev nD) : V20 m (outs m) c = W20 m c := update_at_eq (V19_eq m c) (W20_of_ne m c)
theorem V21_eq (c : Dev nD) : V21 m (outs m) c = W21 m c := congrArg (StableHlo.after hostOps8) (V20_eq m c)
theorem V22_eq (c : Dev nD) : V22 m (outs m) c = W22 m c := update_at_eq (V21_eq m c) (W22_of_ne m c)
theorem V23_eq (c : Dev nD) : V23 m (outs m) c = W23 m c := congrArg (StableHlo.after hostOps9) (V22_eq m c)
theorem V24_eq (c : Dev nD) : V24 m (outs m) c = W24 m c := update_at_eq (V23_eq m c) (W24_of_ne m c)

def pdats : (p : Fin 10) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c
  | ⟨9, _⟩ => fun c => dat9 (Vin9 m) c

abbrev 𝒱₀ : Variants := Variants.none
abbrev L : GSem nD τ sig → Finset Unit := fun _ => ∅
abbrev lv : GSem nD τ sig → Unit → ℕ := fun _ _ => 0
/-- The state carried beside the buffers between two items. -/
abbrev R (c : Dev nD) : sProp 𝕄 := iprop((∃ r, prngReg c r) ∗ ∃ W, owes (c : Thread nD τ) (0 : CellTallies nD τ sig Unit) W)
abbrev E : Fin 11 → Dev nD → sProp 𝕄 := fun _ c => R c

/-- The thread state at equal valuations. -/
theorem seam {c : Dev nD} {V W : Valuation τ sig (Elt F)} (h : V = W) :
    iprop(StableHlo.held (c : Thread nD τ) (Pipeline.ucRefs τ sig) V ∗ R (F := F) c)
      ⊢ iprop(StableHlo.held (c : Thread nD τ) (Pipeline.ucRefs τ sig) W ∗ R (F := F) c) := h ▸ .rfl

set_option backward.isDefEq.respectTransparency.types false in
/-- Region `p` as a segment: entered with the unscoped buffers at `Vi`, left at `Vo`, which is `Vi` but at output window `o`'s array, there `arrAt o N`. -/
def region (pd : (p : Fin 10) → (c : Dev nD) → Dat τ (Elt F) Unit ℕ (UR sig nD τ) ℕ (cfgs p) c) (p : Fin 10)
    (ln : Pipeline.LaunchFacts (nD := nD) (τ := τ) cfgs p) (o : Fin (cfgs p).W)
    (hio : ∀ w, w ≠ o → ((cfgs p).win w).isOut = false) (Vi Vo : Dev nD → Valuation τ sig (Elt F))
    (hne : ∀ c x, x ≠ Proc.devRef .tc (Pipeline.arrRef (cfgs p).spec o) → Vo c x = Vi c x)
    (hself : ∀ c, Vo c (Proc.devRef .tc (Pipeline.arrRef (cfgs p).spec o)) = (pd p c).arrAt o (cfgs p).N)
    (hA : ∀ c w, (pd p c).A w = Vi c (Proc.devRef .tc (Pipeline.arrRef (cfgs p).spec w)))
    (hq : ∀ c w, (pd p c).q w = fullShare) (howed : ∀ c t, (pd p c).owed t = 0)
    (hrec : ∀ c t, (pd p c).recorded t = Set.univ)
    (hb : ∀ c, BodyObligation (pd p c) (defs₀ (F := F)) Variants.none () Set.univ)
    (hΦ0 : ∀ c, Pipeline.ΦA (cfgs p).spec c ⊢ (pd p c).Φ 0)
    (hΦN : ∀ c, (pd p c).Φ (Fin.last (cfgs p).N) ⊢ Pipeline.ΦA (cfgs p).spec c) :
    Pipeline.RegionSeg (pcfgs (F := F)) adm pd () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm pd ln.win ln.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr
      · ipureintro; exact fun x _ => Or.inl ((hrec c 0).symm ▸ Set.mem_univ x)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hF : ∀ w, (pd p c).arrAt w (cfgs p).N = Vo c (Proc.devRef .tc (Pipeline.arrRef (cfgs p).spec w)) := fun w => by
      by_cases h : w = o
      · subst h; exact (hself c).symm
      · exact (((pd p c).arrAt_in w (hio w h) _).trans (hA c w)).trans
          (hne c _ (StableHlo.devRef_ne_of_ne fun e => h (ln.win.arr_inj e))).symm
    have hjoin := Pipeline.unscopedBufs_of_arrays (p := p) (pcfgs (F := F)) adm (Ix := Unit) (Name := ℕ) (U := UR sig nD τ) (Lvl := ℕ)
      ln.win ln.arr_whole c pd ((pd p c).share_full (hq c)) (fun b => Vi c b) (fun b => Vo c b) ((pd p c).arrAt · (cfgs p).N) hF
      fun b hb => hne c _ (StableHlo.devRef_ne_of_ne fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ 𝒱₀ L lv 0 :=
  region (pdats m) 0 launch0 (3 : Fin 4) (by decide) (W3 m) (W4 m) (W4_of_ne m) (W4_out m) (A_eq0 (Vin0 m)) (share0 (Vin0 m))
    (owed0 (Vin0 m)) (recorded0 (Vin0 m)) (body_obligation0 (Vin0 m)) (hin0 (Vin0 m)) (hout0 (Vin0 m))
def reg1 : Pipeline.RegionSeg (pcfgs (F := F)) adm (pdats m) () defs₀ 𝒱₀ L lv 1 :=
  region (pdats m) 1 launch1 (3 : Fin 4) (by decide) (W7 m) (W8 m) (W8_of_ne m) (W8_out m) (A_eq1 (Vin1 m)) (share1 (Vin1 m))
    (owed1 (Vin1 m)) (recorded1 (Vin1 m)) (body_obligation1 (Vin1 m)) (hin1 (Vin1 m)) (hout1 (Vin1 m))
def reg2 : Pipeline.RegionSeg (pcfgs (F := F)) adm (pdats m) () defs₀ 𝒱₀ L lv 2 :=
  region (pdats m) 2 launch2 (3 : Fin 4) (by decide) (W9 m) (W10 m) (W10_of_ne m) (W10_out m) (A_eq2 (Vin2 m)) (share2 (Vin2 m))
    (owed2 (Vin2 m)) (recorded2 (Vin2 m)) (body_obligation2 (Vin2 m)) (hin2 (Vin2 m)) (hout2 (Vin2 m))
def reg3 : Pipeline.RegionSeg (pcfgs (F := F)) adm (pdats m) () defs₀ 𝒱₀ L lv 3 :=
  region (pdats m) 3 launch3 (3 : Fin 4) (by decide) (W11 m) (W12 m) (W12_of_ne m) (W12_out m) (A_eq3 (Vin3 m)) (share3 (Vin3 m))
    (owed3 (Vin3 m)) (recorded3 (Vin3 m)) (body_obligation3 (Vin3 m)) (hin3 (Vin3 m)) (hout3 (Vin3 m))
def reg4 : Pipeline.RegionSeg (pcfgs (F := F)) adm (pdats m) () defs₀ 𝒱₀ L lv 4 :=
  region (pdats m) 4 launch4 (3 : Fin 4) (by decide) (W13 m) (W14 m) (W14_of_ne m) (W14_out m) (A_eq4 (Vin4 m)) (share4 (Vin4 m))
    (owed4 (Vin4 m)) (recorded4 (Vin4 m)) (body_obligation4 (Vin4 m)) (hin4 (Vin4 m)) (hout4 (Vin4 m))
def reg5 : Pipeline.RegionSeg (pcfgs (F := F)) adm (pdats m) () defs₀ 𝒱₀ L lv 5 :=
  region (pdats m) 5 launch5 (3 : Fin 4) (by decide) (W15 m) (W16 m) (W16_of_ne m) (W16_out m) (A_eq5 (Vin5 m)) (share5 (Vin5 m))
    (owed5 (Vin5 m)) (recorded5 (Vin5 m)) (body_obligation5 (Vin5 m)) (hin5 (Vin5 m)) (hout5 (Vin5 m))
def reg6 : Pipeline.RegionSeg (pcfgs (F := F)) adm (pdats m) () defs₀ 𝒱₀ L lv 6 :=
  region (pdats m) 6 launch6 (3 : Fin 4) (by decide) (W17 m) (W18 m) (W18_of_ne m) (W18_out m) (A_eq6 (Vin6 m)) (share6 (Vin6 m))
    (owed6 (Vin6 m)) (recorded6 (Vin6 m)) (body_obligation6 (Vin6 m)) (hin6 (Vin6 m)) (hout6 (Vin6 m))
def reg7 : Pipeline.RegionSeg (pcfgs (F := F)) adm (pdats m) () defs₀ 𝒱₀ L lv 7 :=
  region (pdats m) 7 launch7 (3 : Fin 4) (by decide) (W19 m) (W20 m) (W20_of_ne m) (W20_out m) (A_eq7 (Vin7 m)) (share7 (Vin7 m))
    (owed7 (Vin7 m)) (recorded7 (Vin7 m)) (body_obligation7 (Vin7 m)) (hin7 (Vin7 m)) (hout7 (Vin7 m))
def reg8 : Pipeline.RegionSeg (pcfgs (F := F)) adm (pdats m) () defs₀ 𝒱₀ L lv 8 :=
  region (pdats m) 8 launch8 (3 : Fin 4) (by decide) (W21 m) (W22 m) (W22_of_ne m) (W22_out m) (A_eq8 (Vin8 m)) (share8 (Vin8 m))
    (owed8 (Vin8 m)) (recorded8 (Vin8 m)) (body_obligation8 (Vin8 m)) (hin8 (Vin8 m)) (hout8 (Vin8 m))
def reg9 : Pipeline.RegionSeg (pcfgs (F := F)) adm (pdats m) () defs₀ 𝒱₀ L lv 9 :=
  region (pdats m) 9 launch9 (3 : Fin 4) (by decide) (W23 m) (W24 m) (W24_of_ne m) (W24_out m) (A_eq9 (Vin9 m)) (share9 (Vin9 m))
    (owed9 (Vin9 m)) (recorded9 (Vin9 m)) (body_obligation9 (Vin9 m)) (hin9 (Vin9 m)) (hout9 (Vin9 m))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE10 (c : Dev nD) : E (F := F) 10 c ⊢ (iprop(∃ W, owes (c : Thread nD τ) (0 : CellTallies nD τ sig Unit) W) : sProp 𝕄) := by
  iintro ⟨-, HO⟩; iexact HO

/-- Memory `μ` holds each argument array of core `c` as launched. -/
abbrev kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)

/-- From any memory with zero counters every weakly fair execution terminates, each argument array as launched. -/
theorem frame_all (ρ : Dev nD → PrngReg) : θ_run defs (onTc (τ := τ) (main (F := F))) ⟨m, fun _ => 0, ρ⟩ (fun r => ∀ c : Dev nD, kept m r.2.mem c) :=
  frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE10
    (reg0 m) (fun _ => .rfl) (fun c => seam (V4_eq m c).symm)
    (reg1 m) (fun c => seam (V7_eq m c)) (fun c => seam (V8_eq m c).symm)
    (reg2 m) (fun c => seam (V9_eq m c)) (fun c => seam (V10_eq m c).symm)
    (reg3 m) (fun c => seam (V11_eq m c)) (fun c => seam (V12_eq m c).symm)
    (reg4 m) (fun c => seam (V13_eq m c)) (fun c => seam (V14_eq m c).symm)
    (reg5 m) (fun c => seam (V15_eq m c)) (fun c => seam (V16_eq m c).symm)
    (reg6 m) (fun c => seam (V17_eq m c)) (fun c => seam (V18_eq m c).symm)
    (reg7 m) (fun c => seam (V19_eq m c)) (fun c => seam (V20_eq m c).symm)
    (reg8 m) (fun c => seam (V21_eq m c)) (fun c => seam (V22_eq m c).symm)
    (reg9 m) (fun c => seam (V23_eq m c)) (fun c => seam (V24_eq m c).symm)

end Cert.KernelIdeal.Hand

end
-- ==== Proof.KI.LaunchValue.lean ====
import proofs.«417880_j4011499454825_1_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ)

/-- The last region's output array at its final contents. -/
def res (c : Dev nD) : Buf (Elt F) ((c : Thread nD τ).loc main_v106) := (dat9 (Vin9 m) c).arrAt 3 cfg9.N

theorem V24_main_v106 (c : Dev nD) : V24 m (outs m) c (Proc.devRef .tc main_v106) = res m c :=
  (congrFun (V24_eq m c) _).trans (W24_out m c)

set_option backward.isDefEq.respectTransparency.types false in
/-- The frame's run with the final memory read at the result array too. -/
theorem value_all (ρ : Dev nD → PrngReg) : θ_run defs (onTc (τ := τ) (main (F := F))) ⟨m, fun _ => 0, ρ⟩ (fun r => ∀ c : Dev nD,
      r.2.mem ((c.tc : Thread nD τ).loc main_v106) = res m c ∧ kept m r.2.mem c) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m))
    (fun c Q => by
      rewrite [main_chain c, Pipeline.Seg.run_eq_chain]
      exact .rfl)
    (fun c => by simp only [segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) hu₀
    (T₀ := fun c => iprop(StableHlo.held (c : Thread nD τ) (Pipeline.ucRefs τ sig) (V0 m c) ∗ E (F := F) 0 c))
    (Tₙ := fun c => StableHlo.held (c : Thread nD τ) (Pipeline.ucRefs τ sig) (V24 m (outs m) c))
    (hch := fun c => ⟨.rfl, .rfl, .rfl, .rfl, seam (V4_eq m c).symm, .rfl, .rfl, seam (V7_eq m c), seam (V8_eq m c).symm, seam (V9_eq m c), seam (V10_eq m c).symm, seam (V11_eq m c), seam (V12_eq m c).symm, seam (V13_eq m c), seam (V14_eq m c).symm, seam (V15_eq m c), seam (V16_eq m c).symm, seam (V17_eq m c), seam (V18_eq m c).symm, seam (V19_eq m c), seam (V20_eq m c).symm, seam (V21_eq m c), seam (V22_eq m c).symm,
      seam (V23_eq m c), (seam (V24_eq m c).symm).trans (sep_mono .rfl (hE10 c))⟩)
    (hinit := ?_)
    (QY := fun c s => s.mem ((c.tc : Thread nD τ).loc main_v106) = res m c ∧ kept m s.mem c)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V24 m (outs m) c) s') $$ [Hh HSI]
    · isplitl [Hh] <;> iassumption
    icases Hr with ⟨%h, HSI⟩
    imodintro
    isplitr
    · ipureintro
      have key := fun (r : Ref sig .tc) (hr : ¬(Proc.devRef (τ := τ) .tc r).isScoped) =>
        h _ (Finset.mem_filter.mpr ⟨StableHlo.devRef_mem_tcRefs r, hr⟩)
      exact ⟨(key main_v106 (by decide)).trans (V24_main_v106 m c),
        (key main_arg0 (by decide)).trans (V24_main_arg0 m (outs m) c),
        (key main_arg1 (by decide)).trans (V24_main_arg1 m (outs m) c),
        (key main_arg2 (by decide)).trans (V24_main_arg2 m (outs m) c),
        (key main_arg3 (by decide)).trans (V24_main_arg3 m (outs m) c),
        (key main_arg4 (by decide)).trans (V24_main_arg4 m (outs m) c),
        (key main_arg5 (by decide)).trans (V24_main_arg5 m (outs m) c),
        (key main_arg6 (by decide)).trans (V24_main_arg6 m (outs m) c),
        (key main_arg7 (by decide)).trans (V24_main_arg7 m (outs m) c),
        (key main_arg8 (by decide)).trans (V24_main_arg8 m (outs m) c),
        (key main_arg9 (by decide)).trans (V24_main_arg9 m (outs m) c),
        (key main_arg10 (by decide)).trans (V24_main_arg10 m (outs m) c),
        (key main_arg11 (by decide)).trans (V24_main_arg11 m (outs m) c),
        (key main_arg12 (by decide)).trans (V24_main_arg12 m (outs m) c),
        (key main_arg13 (by decide)).trans (V24_main_arg13 m (outs m) c),
        (key main_arg14 (by decide)).trans (V24_main_arg14 m (outs m) c)⟩
    · iexact HSI

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W6_of (c : Dev nD) (r : Ref sig .tc) (h : r ∉ hostOps1_1_W) : W6 m c (Proc.devRef .tc r) = W5 m c (Proc.devRef .tc r) :=
  StableHlo.after_of_writes_sub hostOps1_1 _ hostOps1_1_writes h
theorem W7_of (c : Dev nD) (r : Ref sig .tc) (h : r ∉ hostOps1_2_W) : W7 m c (Proc.devRef .tc r) = W6 m c (Proc.devRef .tc r) :=
  StableHlo.after_of_writes_sub hostOps1_2 _ hostOps1_2_writes h
theorem W9_of (c : Dev nD) (r : Ref sig .tc) (h : r ∉ hostOps2_W) : W9 m c (Proc.devRef .tc r) = W8 m c (Proc.devRef .tc r) :=
  StableHlo.after_of_writes_sub hostOps2 _ hostOps2_writes h
theorem W11_of (c : Dev nD) (r : Ref sig .tc) (h : r ∉ hostOps3_W) : W11 m c (Proc.devRef .tc r) = W10 m c (Proc.devRef .tc r) :=
  StableHlo.after_of_writes_sub hostOps3 _ hostOps3_writes h
theorem W13_of (c : Dev nD) (r : Ref sig .tc) (h : r ∉ hostOps4_W) : W13 m c (Proc.devRef .tc r) = W12 m c (Proc.devRef .tc r) :=
  StableHlo.after_of_writes_sub hostOps4 _ hostOps4_writes h
theorem W15_of (c : Dev nD) (r : Ref sig .tc) (h : r ∉ hostOps5_W) : W15 m c (Proc.devRef .tc r) = W14 m c (Proc.devRef .tc r) :=
  StableHlo.after_of_writes_sub hostOps5 _ hostOps5_writes h
theorem W17_of (c : Dev nD) (r : Ref sig .tc) (h : r ∉ hostOps6_W) : W17 m c (Proc.devRef .tc r) = W16 m c (Proc.devRef .tc r) :=
  StableHlo.after_of_writes_sub hostOps6 _ hostOps6_writes h
theorem W19_of (c : Dev nD) (r : Ref sig .tc) (h : r ∉ hostOps7_W) : W19 m c (Proc.devRef .tc r) = W18 m c (Proc.devRef .tc r) :=
  StableHlo.after_of_writes_sub hostOps7 _ hostOps7_writes h
theorem W21_of (c : Dev nD) (r : Ref sig .tc) (h : r ∉ hostOps8_W) : W21 m c (Proc.devRef .tc r) = W20 m c (Proc.devRef .tc r) :=
  StableHlo.after_of_writes_sub hostOps8 _ hostOps8_writes h
theorem W23_of (c : Dev nD) (r : Ref sig .tc) (h : r ∉ hostOps9_W) : W23 m c (Proc.devRef .tc r) = W22 m c (Proc.devRef .tc r) :=
  StableHlo.after_of_writes_sub hostOps9 _ hostOps9_writes h

theorem Vin0_0 (c : Dev nD) : Vin0 m c main_v40 = StableHlo.after hostOps0_2 (W2 m c) (Proc.devRef .tc main_v40) := rfl
theorem Vin0_1 (c : Dev nD) : Vin0 m c main_v41 = StableHlo.after hostOps0_2 (W2 m c) (Proc.devRef .tc main_v41) := rfl
theorem Vin0_2 (c : Dev nD) : Vin0 m c main_v43 = StableHlo.after hostOps0_2 (W2 m c) (Proc.devRef .tc main_v43) := rfl
theorem Vin1_0 (c : Dev nD) : Vin1 m c main_v46 = StableHlo.after hostOps1_1 (W5 m c) (Proc.devRef .tc main_v46) :=
  W7_of m c main_v46 (by decide)
theorem Vin1_1 (c : Dev nD) : Vin1 m c main_arg5 = m ((c : Thread nD τ).loc main_arg5) :=
  (W7_of m c main_arg5 (by decide)).trans <| (W6_of m c main_arg5 (by decide)).trans <| (W5_of m c main_arg5 (by decide)).trans <| (W4_of_ne m c _ (StableHlo.devRef_ne_of_ne (by decide))).trans <| (W3_of m c main_arg5 (by decide)).trans <| (W2_of m c main_arg5 (by decide)).trans <| (W1_of m c main_arg5 (by decide)).trans <| rfl
theorem Vin1_2 (c : Dev nD) : Vin1 m c main_v48 = StableHlo.after hostOps1_2 (W6 m c) (Proc.devRef .tc main_v48) := rfl
theorem Vin2_0 (c : Dev nD) : Vin2 m c main_v60 = StableHlo.after hostOps2 (W8 m c) (Proc.devRef .tc main_v60) := rfl
theorem Vin2_1 (c : Dev nD) : Vin2 m c main_v61 = StableHlo.after hostOps2 (W8 m c) (Proc.devRef .tc main_v61) := rfl
theorem Vin2_2 (c : Dev nD) : Vin2 m c main_v62 = StableHlo.after hostOps2 (W8 m c) (Proc.devRef .tc main_v62) := rfl
theorem Vin3_0 (c : Dev nD) : Vin3 m c main_v63 = (dat2 (Vin2 m) c).arrAt 3 cfg2.N :=
  (W11_of m c main_v63 (by decide)).trans (W10_out m c)
theorem Vin3_1 (c : Dev nD) : Vin3 m c main_arg7 = m ((c : Thread nD τ).loc main_arg7) :=
  (W11_of m c main_arg7 (by decide)).trans <| (W10_of_ne m c _ (StableHlo.devRef_ne_of_ne (by decide))).trans <| (W9_of m c main_arg7 (by decide)).trans <| (W8_of_ne m c _ (StableHlo.devRef_ne_of_ne (by decide))).trans <| (W7_of m c main_arg7 (by decide)).trans <| (W6_of m c main_arg7 (by decide)).trans <| (W5_of m c main_arg7 (by decide)).trans <| (W4_of_ne m c _ (StableHlo.devRef_ne_of_ne (by decide))).trans <| (W3_of m c main_arg7 (by decide)).trans <| (W2_of m c main_arg7 (by decide)).trans <| (W1_of m c main_arg7 (by decide)).trans <| rfl
theorem Vin3_2 (c : Dev nD) : Vin3 m c main_v65 = StableHlo.after hostOps3 (W10 m c) (Proc.devRef .tc main_v65) := rfl
theorem Vin4_0 (c : Dev nD) : Vin4 m c main_v77 = StableHlo.after hostOps4 (W12 m c) (Proc.devRef .tc main_v77) := rfl
theorem Vin4_1 (c : Dev nD) : Vin4 m c main_v78 = StableHlo.after hostOps4 (W12 m c) (Proc.devRef .tc main_v78) := rfl
theorem Vin4_2 (c : Dev nD) : Vin4 m c main_v79 = StableHlo.after hostOps4 (W12 m c) (Proc.devRef .tc main_v79) := rfl
theorem Vin5_0 (c : Dev nD) : Vin5 m c main_v80 = (dat4 (Vin4 m) c).arrAt 3 cfg4.N :=
  (W15_of m c main_v80 (by decide)).trans (W14_out m c)
theorem Vin5_1 (c : Dev nD) : Vin5 m c main_arg9 = m ((c : Thread nD τ).loc main_arg9) :=
  (W16_of_ne m c _ (StableHlo.devRef_ne_of_ne (by decide))).symm.trans <| (W17_of m c main_arg9 (by decide)).symm.trans <| (W18_of_ne m c _ (StableHlo.devRef_ne_of_ne (by decide))).symm.trans <| (W19_of m c main_arg9 (by decide)).symm.trans <| (W20_of_ne m c _ (StableHlo.devRef_ne_of_ne (by decide))).symm.trans <| (W21_of m c main_arg9 (by decide)).symm.trans <| (W22_of_ne m c _ (StableHlo.devRef_ne_of_ne (by decide))).symm.trans <| (W23_of m c main_arg9 (by decide)).symm.trans <| (W24_of_ne m c _ (StableHlo.devRef_ne_of_ne (by decide))).symm.trans <| (congrFun (V24_eq m c) _).symm.trans (V24_main_arg9 m (outs m) c)
theorem Vin5_2 (c : Dev nD) : Vin5 m c main_v82 = StableHlo.after hostOps5 (W14 m c) (Proc.devRef .tc main_v82) := rfl
theorem Vin6_0 (c : Dev nD) : Vin6 m c main_v94 = StableHlo.after hostOps6 (W16 m c) (Proc.devRef .tc main_v94) := rfl
theorem Vin6_1 (c : Dev nD) : Vin6 m c main_v95 = StableHlo.after hostOps6 (W16 m c) (Proc.devRef .tc main_v95) := rfl
theorem Vin6_2 (c : Dev nD) : Vin6 m c main_v96 = StableHlo.after hostOps6 (W16 m c) (Proc.devRef .tc main_v96) := rfl
theorem Vin7_0 (c : Dev nD) : Vin7 m c main_v98 = StableHlo.after hostOps7 (W18 m c) (Proc.devRef .tc main_v98) := rfl
theorem Vin7_1 (c : Dev nD) : Vin7 m c main_v99 = StableHlo.after hostOps7 (W18 m c) (Proc.devRef .tc main_v99) := rfl
theorem Vin7_2 (c : Dev nD) : Vin7 m c main_v101 = StableHlo.after hostOps7 (W18 m c) (Proc.devRef .tc main_v101) := rfl
theorem Vin8_0 (c : Dev nD) : Vin8 m c main_v102 = (dat7 (Vin7 m) c).arrAt 3 cfg7.N :=
  (W21_of m c main_v102 (by decide)).trans (W20_out m c)
theorem Vin8_1 (c : Dev nD) : Vin8 m c main_arg11 = m ((c : Thread nD τ).loc main_arg11) :=
  (W22_of_ne m c _ (StableHlo.devRef_ne_of_ne (by decide))).symm.trans <| (W23_of m c main_arg11 (by decide)).symm.trans <| (W24_of_ne m c _ (StableHlo.devRef_ne_of_ne (by decide))).symm.trans <| (congrFun (V24_eq m c) _).symm.trans (V24_main_arg11 m (outs m) c)
theorem Vin8_2 (c : Dev nD) : Vin8 m c main_v103 = StableHlo.after hostOps8 (W20 m c) (Proc.devRef .tc main_v103) := rfl
theorem Vin9_0 (c : Dev nD) : Vin9 m c main_v104 = (dat8 (Vin8 m) c).arrAt 3 cfg8.N :=
  (W23_of m c main_v104 (by decide)).trans (W22_out m c)
theorem Vin9_1 (c : Dev nD) : Vin9 m c main_arg13 = m ((c : Thread nD τ).loc main_arg13) :=
  (W24_of_ne m c _ (StableHlo.devRef_ne_of_ne (by decide))).symm.trans <| (congrFun (V24_eq m c) _).symm.trans (V24_main_arg13 m (outs m) c)
theorem Vin9_2 (c : Dev nD) : Vin9 m c main_v105 = StableHlo.after hostOps9 (W22 m c) (Proc.devRef .tc main_v105) := rfl

end Cert.KernelIdeal.Hand

end
-- ==== Proof.KI.Chain.lean ====
import proofs.«417880_j4011499454825_1_alg».proof.ReferenceIdeal
import Idealize.ShloMosaic.PureOps.Ideal

noncomputable section

namespace Cert.KernelIdeal.Hand

open Idealize.ShloMosaic Cert.ReferenceIdeal Cert.ReferenceIdeal.Facts₀

variable [Cert.ReferenceIdeal.Facts₀]

def srcOf (a1 : IVec S2x1600000 32) : IVec S1600000 32 :=
  shapeCast S1600000 (extractStridedSlice S1x1600000 ![0, 0] a1 slices_S2x1600000_S1x1600000_0_0) shapeCasts_S1x1600000_S1600000

def dstOf (a1 : IVec S2x1600000 32) : IVec S1600000 32 :=
  shapeCast S1600000 (extractStridedSlice S1x1600000 ![1, 0] a1 slices_S2x1600000_S1x1600000_1_0) shapeCasts_S1x1600000_S1600000

def sfull (a1 : IVec S2x1600000 32) : IVec S1700000 32 :=
  concatenate S1700000 0 [⟨S1600000, srcOf a1⟩, ⟨S100000, iotaInDim S100000 32 0⟩] concatenates_S1600000_S100000_S1700000_d0

def dfull (a1 : IVec S2x1600000 32) : IVec S1700000 32 :=
  concatenate S1700000 0 [⟨S1600000, dstOf a1⟩, ⟨S100000, iotaInDim S100000 32 0⟩] concatenates_S1600000_S100000_S1700000_d0

def wrapE (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

def wrapL (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

def colE {α : Type} (v : S1600000.Idx → α) : S1600000x1.Idx → α :=
  broadcastInDim S1600000x1 ![0] bcast_S1600000_S1600000x1_0 v

def colL {α : Type} (v : S1700000.Idx → α) : S1700000x1.Idx → α :=
  broadcastInDim S1700000x1 ![0] bcast_S1700000_S1700000x1_0 v

def colN {α : Type} (v : S100000.Idx → α) : S100000x1.Idx → α :=
  broadcastInDim S100000x1 ![0] bcast_S100000_S100000x1_0 v

def zerosN : FVec Ideal S100000x128 .f32 :=
  broadcastInDim S100000x128 ![] bcast_S_S100000x128 (constant (F := Ideal) S_ .f32 0x00000000#32)

def zerosG : FVec Ideal S512x128 .f32 :=
  broadcastInDim S512x128 ![] bcast_S_S512x128 (constant (F := Ideal) S_ .f32 0x00000000#32)

def addRowN (y : FVec Ideal S100000x128 .f32) (b : FVec Ideal S128 .f32) : FVec Ideal S100000x128 .f32 :=
  addf y (broadcastInDim S100000x128 ![0, 1] bcast_S1x128_S100000x128_0_1 (broadcastInDim S1x128 ![1] bcast_S128_S1x128_1 b))

def reluN (y : FVec Ideal S100000x128 .f32) : FVec Ideal S100000x128 .f32 :=
  maximumf y zerosN

def deg (a1 : IVec S2x1600000 32) : FVec Ideal S100000 .f32 :=
  Host.scatterAdd scatter_S100000_S1700000x1_S1700000_n_0_0_1
    (broadcastInDim S100000 ![] bcast_S_S100000 (constant (F := Ideal) S_ .f32 0x00000000#32)) (colL (dfull a1))
    (broadcastInDim S1700000 ![] bcast_S_S1700000 (constant (F := Ideal) S_ .f32 0x3F800000#32))

def dis (a1 : IVec S2x1600000 32) : FVec Ideal S100000 .f32 :=
  select (cmpf .ogt (deg a1) (broadcastInDim S100000 ![] bcast_S_S100000 (constant (F := Ideal) S_ .f32 0x00000000#32)))
    (Host.rsqrt (deg a1)) (broadcastInDim S100000 ![] bcast_S_S100000 (id (constant (F := Ideal) S_ .f32 0x00000000#32)))

def edgeW (a1 : IVec S2x1600000 32) : FVec Ideal S1700000 .f32 :=
  mulf (Host.gather gather_S100000_S1700000x1_S1700000_n_0_n_n_0_1_1 (dis a1) (colL (wrapL (sfull a1))))
    (Host.gather gather_S100000_S1700000x1_S1700000_n_0_n_n_0_1_1 (dis a1) (colL (wrapL (dfull a1))))

def segE (idx : IVec S1600000x1 32) (upd : FVec Ideal S1600000x128 .f32) : FVec Ideal S100000x128 .f32 :=
  Host.scatterAdd scatter_S100000x128_S1600000x1_S1600000x128_1_0_0_1 zerosN idx upd

def segL (idx : IVec S1700000x1 32) (upd : FVec Ideal S1700000x128 .f32) : FVec Ideal S100000x128 .f32 :=
  Host.scatterAdd scatter_S100000x128_S1700000x1_S1700000x128_1_0_0_1 zerosN idx upd

def segG (idx : IVec S100000x1 32) (y : FVec Ideal S100000x128 .f32) : FVec Ideal S512x128 .f32 :=
  Host.scatterAdd scatter_S512x128_S100000x1_S100000x128_1_0_0_1 zerosG idx y

def feat0 (a0 : FVec Ideal S100000x128 .f32) (a1 : IVec S2x1600000 32) (a3 : FVec Ideal S1600000 .f32) :
    FVec Ideal S1600000x128 .f32 :=
  mulf (Host.gather gather_S100000x128_S1600000x1_S1600000x128_1_0_n_n_0_1_1128 a0 (colE (wrapE (srcOf a1))))
    (broadcastInDim S1600000x128 ![0, 1] bcast_S1600000x1_S1600000x128_0_1 (colE a3))

def nbr0 (a0 : FVec Ideal S100000x128 .f32) (a1 : IVec S2x1600000 32) (a3 : FVec Ideal S1600000 .f32) :
    FVec Ideal S100000x128 .f32 :=
  segE (colE (dstOf a1)) (feat0 a0 a1 a3)

def x0 (a0 : FVec Ideal S100000x128 .f32) (a1 : IVec S2x1600000 32) (a2 : IVec S100000 1) (a3 : FVec Ideal S1600000 .f32) :
    FVec Ideal S100000x128 .f32 :=
  select (broadcastInDim S100000x128 ![0, 1] bcast_S100000x1_S100000x128_0_1 (colN a2)) (nbr0 a0 a1 a3) a0

def lin (x : FVec Ideal S100000x128 .f32) (w : FVec Ideal S128x128 .f32) : FVec Ideal S100000x128 .f32 :=
  Host.dotGeneral dot_S100000x128_S128x128_S100000x128_1_0_0_1_n_n none x w

def featL (h : FVec Ideal S100000x128 .f32) (a1 : IVec S2x1600000 32) : FVec Ideal S1700000x128 .f32 :=
  mulf (Host.gather gather_S100000x128_S1700000x1_S1700000x128_1_0_n_n_0_1_1128 h (colL (wrapL (sfull a1))))
    (broadcastInDim S1700000x128 ![0, 1] bcast_S1700000x1_S1700000x128_0_1 (colL (edgeW a1)))

def aggL (h : FVec Ideal S100000x128 .f32) (a1 : IVec S2x1600000 32) : FVec Ideal S100000x128 .f32 :=
  segL (colL (dfull a1)) (featL h a1)

def gcn (x : FVec Ideal S100000x128 .f32) (w : FVec Ideal S128x128 .f32) (b : FVec Ideal S128 .f32) (a1 : IVec S2x1600000 32) :
    FVec Ideal S100000x128 .f32 :=
  addRowN (aggL (lin x w) a1) b

def x3 (a0 : FVec Ideal S100000x128 .f32) (a1 : IVec S2x1600000 32) (a2 : IVec S100000 1) (a3 : FVec Ideal S1600000 .f32)
    (a5 : FVec Ideal S128x128 .f32) (a6 : FVec Ideal S128 .f32) (a7 : FVec Ideal S128x128 .f32) (a8 : FVec Ideal S128 .f32)
    (a9 : FVec Ideal S128x128 .f32) (a10 : FVec Ideal S128 .f32) : FVec Ideal S100000x128 .f32 :=
  gcn (reluN (gcn (reluN (gcn (x0 a0 a1 a2 a3) a5 a6 a1)) a7 a8 a1)) a9 a10 a1

def poolG (y : FVec Ideal S100000x128 .f32) (a4 : IVec S100000 32) : FVec Ideal S512x128 .f32 :=
  segG (colN a4) y

def hid (g : FVec Ideal S512x128 .f32) (w : FVec Ideal S128x128 .f32) (b : FVec Ideal S128 .f32) : FVec Ideal S512x128 .f32 :=
  maximumf (addf (Host.dotGeneral dot_S512x128_S128x128_S512x128_1_0_0_1_n_n none g w)
    (broadcastInDim S512x128 ![0, 1] bcast_S1x128_S512x128_0_1 (broadcastInDim S1x128 ![1] bcast_S128_S1x128_1 b))) zerosG

def outL (z : FVec Ideal S512x128 .f32) (w : FVec Ideal S128x10 .f32) (b : FVec Ideal S10 .f32) : FVec Ideal S512x10 .f32 :=
  addf (Host.dotGeneral dot_S512x128_S128x10_S512x10_1_0_0_1_n_n none z w)
    (broadcastInDim S512x10 ![0, 1] bcast_S1x10_S512x10_0_1 (broadcastInDim S1x10 ![1] bcast_S10_S1x10_1 b))

def OUT (a0 : FVec Ideal S100000x128 .f32) (a1 : IVec S2x1600000 32) (a2 : IVec S100000 1) (a3 : FVec Ideal S1600000 .f32)
    (a4 : IVec S100000 32) (a5 : FVec Ideal S128x128 .f32) (a6 : FVec Ideal S128 .f32) (a7 : FVec Ideal S128x128 .f32)
    (a8 : FVec Ideal S128 .f32) (a9 : FVec Ideal S128x128 .f32) (a10 : FVec Ideal S128 .f32) (a11 : FVec Ideal S128x128 .f32)
    (a12 : FVec Ideal S128 .f32) (a13 : FVec Ideal S128x10 .f32) (a14 : FVec Ideal S10 .f32) : FVec Ideal S512x10 .f32 :=
  outL (hid (poolG (x3 a0 a1 a2 a3 a5 a6 a7 a8 a9 a10) a4) a11 a12) a13 a14

end Cert.KernelIdeal.Hand

end
-- ==== Proof.KI.Stretch.lean ====
import proofs.«417880_j4011499454825_1_alg».proof.Proof.Gen.KernelIdeal.Launch
import proofs.«417880_j4011499454825_1_alg».proof.Proof.KI.Chain
import Idealize.ShloMosaic.Lib.StableHlo.Run
import Idealize.ShloMosaic.PureOps.Ideal

noncomputable section

namespace Cert.KernelIdeal.Hand

open Idealize.ShloMosaic Idealize.ShloMosaic.TcCoe Idealize.ShloMosaic.StableHlo
open Cert.KernelIdeal Cert.KernelIdeal.Gen

variable [Cert.ReferenceIdeal.Facts₀]

def zeroRow : FVec Ideal S1x128 .f32 :=
  shapeCast S1x128 (broadcastInDim S128 ![] bcast_S_S128 (constant (F := Ideal) S_ .f32 0x00000000#32)) shapeCasts_S128_S1x128

section Stretch0
variable (W : Valuation τ sig (Elt Ideal)) (a1 : IVec S2x1600000 32) (h : W (Proc.devRef .tc main_arg1) = a1)
include h

theorem s0_v1 : StableHlo.after (hostOps0 (F := Ideal)) W (Proc.devRef .tc main_v1) = srcOf a1 := by
  after_results; rw [h]; rfl
theorem s0_v3 : StableHlo.after (hostOps0 (F := Ideal)) W (Proc.devRef .tc main_v3) = dstOf a1 := by
  after_results; rw [h]; rfl
theorem s0_v5 : StableHlo.after (hostOps0 (F := Ideal)) W (Proc.devRef .tc main_v5) = sfull a1 := by
  after_results; rw [h]; rfl
theorem s0_v6 : StableHlo.after (hostOps0 (F := Ideal)) W (Proc.devRef .tc main_v6) = dfull a1 := by
  after_results; rw [h]; rfl
theorem s0_v12 : StableHlo.after (hostOps0 (F := Ideal)) W (Proc.devRef .tc main_v12)
    = cmpf .ogt (deg a1) (broadcastInDim S100000 ![] bcast_S_S100000 (constant (F := Ideal) S_ .f32 0x00000000#32)) := by
  after_results; rw [h]; rfl
theorem s0_v13 : StableHlo.after (hostOps0 (F := Ideal)) W (Proc.devRef .tc main_v13) = Host.rsqrt (deg a1) := by
  after_results; rw [h]; rfl

end Stretch0

theorem s0_cst2 (W : Valuation τ sig (Elt Ideal)) :
    StableHlo.after (hostOps0 (F := Ideal)) W (Proc.devRef .tc main_cst_2) = constant (F := Ideal) S_ .f32 0x00000000#32 := by
  after_results <;> rfl

theorem s01_v14 (W : Valuation τ sig (Elt Ideal)) (a1 : IVec S2x1600000 32)
    (h12 : W (Proc.devRef .tc main_v12) = cmpf .ogt (deg a1)
        (broadcastInDim S100000 ![] bcast_S_S100000 (constant (F := Ideal) S_ .f32 0x00000000#32)))
    (h13 : W (Proc.devRef .tc main_v13) = Host.rsqrt (deg a1))
    (hc : W (Proc.devRef .tc main_cst_2) = constant (F := Ideal) S_ .f32 0x00000000#32) :
    StableHlo.after (hostOps0_1 (F := Ideal)) W (Proc.devRef .tc main_v14) = dis a1 := by
  after_results
  simp only [TRef.ofBuf, TRef.toBuf, cast_eq]
  rw [h12, h13, hc]
  rfl

section Stretch02
variable (W : Valuation τ sig (Elt Ideal)) (a1 : IVec S2x1600000 32)

theorem s02_v29 (h14 : W (Proc.devRef .tc main_v14) = dis a1) (h5 : W (Proc.devRef .tc main_v5) = sfull a1)
    (h6 : W (Proc.devRef .tc main_v6) = dfull a1) :
    StableHlo.after (hostOps0_2 (F := Ideal)) W (Proc.devRef .tc main_v29) = edgeW a1 := by
  after_results_simp
  rw [h14, h5, h6]
  rfl

theorem s02_v40 (a0 : FVec Ideal S100000x128 .f32) (a3 : FVec Ideal S1600000 .f32)
    (h1 : W (Proc.devRef .tc main_v1) = srcOf a1) (h0 : W (Proc.devRef .tc main_arg0) = a0)
    (h3 : W (Proc.devRef .tc main_arg3) = a3) :
    StableHlo.after (hostOps0_2 (F := Ideal)) W (Proc.devRef .tc main_v40)
      = truncf .bf16 (feat0 a0 a1 a3) bitsLt_bf16_f32 := by
  after_results_simp
  rw [h1, h0, h3]
  rfl

theorem s02_v41 (h3 : W (Proc.devRef .tc main_v3) = dstOf a1) :
    StableHlo.after (hostOps0_2 (F := Ideal)) W (Proc.devRef .tc main_v41)
      = shapeCast S1600000x1 (dstOf a1) shapeCasts_S1600000_S1600000x1 := by
  after_results_simp
  rw [h3]
  rfl

theorem s02_v43 : StableHlo.after (hostOps0_2 (F := Ideal)) W (Proc.devRef .tc main_v43) = zeroRow := by
  after_results_simp <;> rfl

end Stretch02

section Stretch1
variable (W : Valuation τ sig (Elt Ideal))

theorem s1_v45 (a2 : IVec S100000 1) (h2 : W (Proc.devRef .tc main_arg2) = a2) :
    StableHlo.after (hostOps1 (F := Ideal)) W (Proc.devRef .tc main_v45) = colN a2 := by
  after_results; rw [h2]; rfl

theorem s11_v46 (a0 : FVec Ideal S100000x128 .f32) (a1 : IVec S2x1600000 32) (a2 : IVec S100000 1) (a3 : FVec Ideal S1600000 .f32)
    (h45 : W (Proc.devRef .tc main_v45) = colN a2) (h44 : W (Proc.devRef .tc main_v44) = nbr0 a0 a1 a3)
    (h0 : W (Proc.devRef .tc main_arg0) = a0) :
    StableHlo.after (hostOps1_1 (F := Ideal)) W (Proc.devRef .tc main_v46) = x0 a0 a1 a2 a3 := by
  after_results
  simp only [TRef.ofBuf, TRef.toBuf, cast_eq]
  rw [h45, h44, h0]
  rfl

theorem s12_v48 : StableHlo.after (hostOps1_2 (F := Ideal)) W (Proc.devRef .tc main_v48) = zeroRow := by
  after_results <;> rfl

end Stretch1

section Layers
variable (W : Valuation τ sig (Elt Ideal)) (a1 : IVec S2x1600000 32)

theorem s2_v60 (y : FVec Ideal S100000x128 .f32) (h5 : W (Proc.devRef .tc main_v5) = sfull a1)
    (h29 : W (Proc.devRef .tc main_v29) = edgeW a1) (hy : W (Proc.devRef .tc main_v49) = y) :
    StableHlo.after (hostOps2 (F := Ideal)) W (Proc.devRef .tc main_v60) = truncf .bf16 (featL y a1) bitsLt_bf16_f32 := by
  after_results_simp
  rw [h5, h29, hy]
  rfl
theorem s2_v61 (h6 : W (Proc.devRef .tc main_v6) = dfull a1) :
    StableHlo.after (hostOps2 (F := Ideal)) W (Proc.devRef .tc main_v61)
      = shapeCast S1700000x1 (dfull a1) shapeCasts_S1700000_S1700000x1 := by
  after_results_simp
  rw [h6]
  rfl
theorem s2_v62 (b : FVec Ideal S128 .f32) (hb : W (Proc.devRef .tc main_arg6) = b) :
    StableHlo.after (hostOps2 (F := Ideal)) W (Proc.devRef .tc main_v62) = shapeCast S1x128 b shapeCasts_S128_S1x128 := by
  after_results; rw [hb]; rfl

theorem s3_v65 : StableHlo.after (hostOps3 (F := Ideal)) W (Proc.devRef .tc main_v65) = zeroRow := by
  after_results <;> rfl

theorem s4_v77 (y : FVec Ideal S100000x128 .f32) (h5 : W (Proc.devRef .tc main_v5) = sfull a1)
    (h29 : W (Proc.devRef .tc main_v29) = edgeW a1) (hy : W (Proc.devRef .tc main_v66) = y) :
    StableHlo.after (hostOps4 (F := Ideal)) W (Proc.devRef .tc main_v77) = truncf .bf16 (featL y a1) bitsLt_bf16_f32 := by
  after_results_simp
  rw [h5, h29, hy]
  rfl
theorem s4_v78 (h6 : W (Proc.devRef .tc main_v6) = dfull a1) :
    StableHlo.after (hostOps4 (F := Ideal)) W (Proc.devRef .tc main_v78)
      = shapeCast S1700000x1 (dfull a1) shapeCasts_S1700000_S1700000x1 := by
  after_results_simp
  rw [h6]
  rfl
theorem s4_v79 (b : FVec Ideal S128 .f32) (hb : W (Proc.devRef .tc main_arg8) = b) :
    StableHlo.after (hostOps4 (F := Ideal)) W (Proc.devRef .tc main_v79) = shapeCast S1x128 b shapeCasts_S128_S1x128 := by
  after_results; rw [hb]; rfl

theorem s5_v82 : StableHlo.after (hostOps5 (F := Ideal)) W (Proc.devRef .tc main_v82) = zeroRow := by
  after_results <;> rfl

theorem s6_v94 (y : FVec Ideal S100000x128 .f32) (h5 : W (Proc.devRef .tc main_v5) = sfull a1)
    (h29 : W (Proc.devRef .tc main_v29) = edgeW a1) (hy : W (Proc.devRef .tc main_v83) = y) :
    StableHlo.after (hostOps6 (F := Ideal)) W (Proc.devRef .tc main_v94) = truncf .bf16 (featL y a1) bitsLt_bf16_f32 := by
  after_results_simp
  rw [h5, h29, hy]
  rfl
theorem s6_v95 (h6 : W (Proc.devRef .tc main_v6) = dfull a1) :
    StableHlo.after (hostOps6 (F := Ideal)) W (Proc.devRef .tc main_v95)
      = shapeCast S1700000x1 (dfull a1) shapeCasts_S1700000_S1700000x1 := by
  after_results_simp
  rw [h6]
  rfl
theorem s6_v96 (b : FVec Ideal S128 .f32) (hb : W (Proc.devRef .tc main_arg10) = b) :
    StableHlo.after (hostOps6 (F := Ideal)) W (Proc.devRef .tc main_v96) = shapeCast S1x128 b shapeCasts_S128_S1x128 := by
  after_results; rw [hb]; rfl

end Layers

section Tail
variable (W : Valuation τ sig (Elt Ideal))

theorem s7_v98 (y : FVec Ideal S100000x128 .f32) (hy : W (Proc.devRef .tc main_v97) = y) :
    StableHlo.after (hostOps7 (F := Ideal)) W (Proc.devRef .tc main_v98) = truncf (F := Ideal) .bf16 y bitsLt_bf16_f32 := by
  after_results; rw [hy]
theorem s7_v99 (a4 : IVec S100000 32) (h4 : W (Proc.devRef .tc main_arg4) = a4) :
    StableHlo.after (hostOps7 (F := Ideal)) W (Proc.devRef .tc main_v99) = shapeCast S100000x1 a4 shapeCasts_S100000_S100000x1 := by
  after_results; rw [h4]; rfl
theorem s7_v101 : StableHlo.after (hostOps7 (F := Ideal)) W (Proc.devRef .tc main_v101) = zeroRow := by
  after_results <;> rfl
theorem s8_v103 (b : FVec Ideal S128 .f32) (hb : W (Proc.devRef .tc main_arg12) = b) :
    StableHlo.after (hostOps8 (F := Ideal)) W (Proc.devRef .tc main_v103) = shapeCast S1x128 b shapeCasts_S128_S1x128 := by
  after_results; rw [hb]; rfl
theorem s9_v105 (b : FVec Ideal S10 .f32) (hb : W (Proc.devRef .tc main_arg14) = b) :
    StableHlo.after (hostOps9 (F := Ideal)) W (Proc.devRef .tc main_v105) = shapeCast S1x10 b shapeCasts_S10_S1x10 := by
  after_results; rw [hb]; rfl

end Tail

end Cert.KernelIdeal.Hand

end
-- ==== Proof.KI.Carry.lean ====
import proofs.«417880_j4011499454825_1_alg».proof.Proof.KI.LaunchValue
import proofs.«417880_j4011499454825_1_alg».proof.Proof.KI.Stretch

set_option maxRecDepth 16384

noncomputable section

namespace Cert.KernelIdeal.Hand

open Idealize.ShloMosaic Idealize.ShloMosaic.TcCoe Idealize.ShloMosaic.StableHlo
open Cert.KernelIdeal Cert.KernelIdeal.Gen

variable [Cert.ReferenceIdeal.Facts₀]
variable (m : (ℓ : Loc nD τ sig) → Buf (Elt Ideal) ℓ) (c : Dev nD)

abbrev ar0 : FVec Ideal S100000x128 .f32 := m ((c : Thread nD τ).loc main_arg0)
abbrev ar1 : IVec S2x1600000 32 := m ((c : Thread nD τ).loc main_arg1)
abbrev ar2 : IVec S100000 1 := m ((c : Thread nD τ).loc main_arg2)
abbrev ar3 : FVec Ideal S1600000 .f32 := m ((c : Thread nD τ).loc main_arg3)
abbrev ar4 : IVec S100000 32 := m ((c : Thread nD τ).loc main_arg4)
abbrev ar5 : FVec Ideal S128x128 .f32 := m ((c : Thread nD τ).loc main_arg5)
abbrev ar6 : FVec Ideal S128 .f32 := m ((c : Thread nD τ).loc main_arg6)
abbrev ar7 : FVec Ideal S128x128 .f32 := m ((c : Thread nD τ).loc main_arg7)
abbrev ar8 : FVec Ideal S128 .f32 := m ((c : Thread nD τ).loc main_arg8)
abbrev ar9 : FVec Ideal S128x128 .f32 := m ((c : Thread nD τ).loc main_arg9)
abbrev ar10 : FVec Ideal S128 .f32 := m ((c : Thread nD τ).loc main_arg10)
abbrev ar11 : FVec Ideal S128x128 .f32 := m ((c : Thread nD τ).loc main_arg11)
abbrev ar12 : FVec Ideal S128 .f32 := m ((c : Thread nD τ).loc main_arg12)
abbrev ar13 : FVec Ideal S128x10 .f32 := m ((c : Thread nD τ).loc main_arg13)
abbrev ar14 : FVec Ideal S10 .f32 := m ((c : Thread nD τ).loc main_arg14)

abbrev keptRefs : List (Ref sig .tc) :=
  [main_arg0, main_arg1, main_arg2, main_arg3, main_arg4, main_arg5, main_arg6, main_arg7, main_arg8, main_arg9, main_arg10,
   main_arg11, main_arg12, main_arg13, main_arg14, main_v5, main_v6, main_v29]

theorem kept_1 : ∀ r ∈ keptRefs, r ∉ hostOps1_W := by decide
theorem kept_1_1 : ∀ r ∈ keptRefs, r ∉ hostOps1_1_W := by decide
theorem kept_1_2 : ∀ r ∈ keptRefs, r ∉ hostOps1_2_W := by decide
theorem kept_2 : ∀ r ∈ keptRefs, r ∉ hostOps2_W := by decide
theorem kept_3 : ∀ r ∈ keptRefs, r ∉ hostOps3_W := by decide
theorem kept_4 : ∀ r ∈ keptRefs, r ∉ hostOps4_W := by decide
theorem kept_5 : ∀ r ∈ keptRefs, r ∉ hostOps5_W := by decide
theorem kept_6 : ∀ r ∈ keptRefs, r ∉ hostOps6_W := by decide
theorem kept_7 : ∀ r ∈ keptRefs, r ∉ hostOps7_W := by decide
theorem kept_8 : ∀ r ∈ keptRefs, r ∉ hostOps8_W := by decide
theorem kept_out : ∀ r ∈ keptRefs, r ≠ main_v44 ∧ r ≠ main_v49 ∧ r ≠ main_v63 ∧ r ≠ main_v66 ∧ r ≠ main_v80 ∧ r ≠ main_v83
    ∧ r ≠ main_v97 ∧ r ≠ main_v102 ∧ r ≠ main_v104 := by decide

section Kept
variable (r : Ref sig .tc) (hr : r ∈ keptRefs)
include hr

theorem W4_kept : W4 m c (Proc.devRef .tc r) = W3 m c (Proc.devRef .tc r) :=
  W4_of_ne m c _ (StableHlo.devRef_ne_of_ne (kept_out r hr).1)
theorem W5_kept : W5 m c (Proc.devRef .tc r) = W3 m c (Proc.devRef .tc r) :=
  (W5_of m c r (kept_1 r hr)).trans (W4_kept m c r hr)
theorem W6_kept : W6 m c (Proc.devRef .tc r) = W3 m c (Proc.devRef .tc r) :=
  (W6_of m c r (kept_1_1 r hr)).trans (W5_kept m c r hr)
theorem W7_kept : W7 m c (Proc.devRef .tc r) = W3 m c (Proc.devRef .tc r) :=
  (W7_of m c r (kept_1_2 r hr)).trans (W6_kept m c r hr)
theorem W8_kept : W8 m c (Proc.devRef .tc r) = W3 m c (Proc.devRef .tc r) :=
  (W8_of_ne m c _ (StableHlo.devRef_ne_of_ne (kept_out r hr).2.1)).trans (W7_kept m c r hr)
theorem W9_kept : W9 m c (Proc.devRef .tc r) = W3 m c (Proc.devRef .tc r) :=
  (W9_of m c r (kept_2 r hr)).trans (W8_kept m c r hr)
theorem W10_kept : W10 m c (Proc.devRef .tc r) = W3 m c (Proc.devRef .tc r) :=
  (W10_of_ne m c _ (StableHlo.devRef_ne_of_ne (kept_out r hr).2.2.1)).trans (W9_kept m c r hr)
theorem W11_kept : W11 m c (Proc.devRef .tc r) = W3 m c (Proc.devRef .tc r) :=
  (W11_of m c r (kept_3 r hr)).trans (W10_kept m c r hr)
theorem W12_kept : W12 m c (Proc.devRef .tc r) = W3 m c (Proc.devRef .tc r) :=
  (W12_of_ne m c _ (StableHlo.devRef_ne_of_ne (kept_out r hr).2.2.2.1)).trans (W11_kept m c r hr)
theorem W13_kept : W13 m c (Proc.devRef .tc r) = W3 m c (Proc.devRef .tc r) :=
  (W13_of m c r (kept_4 r hr)).trans (W12_kept m c r hr)
theorem W14_kept : W14 m c (Proc.devRef .tc r) = W3 m c (Proc.devRef .tc r) :=
  (W14_of_ne m c _ (StableHlo.devRef_ne_of_ne (kept_out r hr).2.2.2.2.1)).trans (W13_kept m c r hr)
theorem W15_kept : W15 m c (Proc.devRef .tc r) = W3 m c (Proc.devRef .tc r) :=
  (W15_of m c r (kept_5 r hr)).trans (W14_kept m c r hr)
theorem W16_kept : W16 m c (Proc.devRef .tc r) = W3 m c (Proc.devRef .tc r) :=
  (W16_of_ne m c _ (StableHlo.devRef_ne_of_ne (kept_out r hr).2.2.2.2.2.1)).trans (W15_kept m c r hr)
theorem W17_kept : W17 m c (Proc.devRef .tc r) = W3 m c (Proc.devRef .tc r) :=
  (W17_of m c r (kept_6 r hr)).trans (W16_kept m c r hr)
theorem W18_kept : W18 m c (Proc.devRef .tc r) = W3 m c (Proc.devRef .tc r) :=
  (W18_of_ne m c _ (StableHlo.devRef_ne_of_ne (kept_out r hr).2.2.2.2.2.2.1)).trans (W17_kept m c r hr)
theorem W19_kept : W19 m c (Proc.devRef .tc r) = W3 m c (Proc.devRef .tc r) :=
  (W19_of m c r (kept_7 r hr)).trans (W18_kept m c r hr)
theorem W20_kept : W20 m c (Proc.devRef .tc r) = W3 m c (Proc.devRef .tc r) :=
  (W20_of_ne m c _ (StableHlo.devRef_ne_of_ne (kept_out r hr).2.2.2.2.2.2.2.1)).trans (W19_kept m c r hr)
theorem W21_kept : W21 m c (Proc.devRef .tc r) = W3 m c (Proc.devRef .tc r) :=
  (W21_of m c r (kept_8 r hr)).trans (W20_kept m c r hr)
theorem W22_kept : W22 m c (Proc.devRef .tc r) = W3 m c (Proc.devRef .tc r) :=
  (W22_of_ne m c _ (StableHlo.devRef_ne_of_ne (kept_out r hr).2.2.2.2.2.2.2.2)).trans (W21_kept m c r hr)

end Kept

theorem W1_v1 : W1 m c (Proc.devRef .tc main_v1) = srcOf (ar1 m c) := s0_v1 (W0 m c) (ar1 m c) rfl
theorem W1_v3 : W1 m c (Proc.devRef .tc main_v3) = dstOf (ar1 m c) := s0_v3 (W0 m c) (ar1 m c) rfl
theorem W1_v5 : W1 m c (Proc.devRef .tc main_v5) = sfull (ar1 m c) := s0_v5 (W0 m c) (ar1 m c) rfl
theorem W1_v6 : W1 m c (Proc.devRef .tc main_v6) = dfull (ar1 m c) := s0_v6 (W0 m c) (ar1 m c) rfl

theorem W2_v1 : W2 m c (Proc.devRef .tc main_v1) = srcOf (ar1 m c) := (W2_of m c main_v1 (by decide)).trans (W1_v1 m c)
theorem W2_v3 : W2 m c (Proc.devRef .tc main_v3) = dstOf (ar1 m c) := (W2_of m c main_v3 (by decide)).trans (W1_v3 m c)
theorem W2_v5 : W2 m c (Proc.devRef .tc main_v5) = sfull (ar1 m c) := (W2_of m c main_v5 (by decide)).trans (W1_v5 m c)
theorem W2_v6 : W2 m c (Proc.devRef .tc main_v6) = dfull (ar1 m c) := (W2_of m c main_v6 (by decide)).trans (W1_v6 m c)
theorem W2_v14 : W2 m c (Proc.devRef .tc main_v14) = dis (ar1 m c) :=
  s01_v14 (W1 m c) (ar1 m c) (s0_v12 (W0 m c) (ar1 m c) rfl) (s0_v13 (W0 m c) (ar1 m c) rfl) (s0_cst2 (W0 m c))
theorem W2_arg0 : W2 m c (Proc.devRef .tc main_arg0) = ar0 m c :=
  (W2_of m c main_arg0 (by decide)).trans (W1_of m c main_arg0 (by decide))
theorem W2_arg3 : W2 m c (Proc.devRef .tc main_arg3) = ar3 m c :=
  (W2_of m c main_arg3 (by decide)).trans (W1_of m c main_arg3 (by decide))

theorem W3_v5 : W3 m c (Proc.devRef .tc main_v5) = sfull (ar1 m c) := (W3_of m c main_v5 (by decide)).trans (W2_v5 m c)
theorem W3_v6 : W3 m c (Proc.devRef .tc main_v6) = dfull (ar1 m c) := (W3_of m c main_v6 (by decide)).trans (W2_v6 m c)
theorem W3_v29 : W3 m c (Proc.devRef .tc main_v29) = edgeW (ar1 m c) :=
  s02_v29 (W2 m c) (ar1 m c) (W2_v14 m c) (W2_v5 m c) (W2_v6 m c)

theorem W3_arg (r : Ref sig .tc) (h0 : r ∉ hostOps0_W) (h1 : r ∉ hostOps0_1_W) (h2 : r ∉ hostOps0_2_W) :
    W3 m c (Proc.devRef .tc r) = W0 m c (Proc.devRef .tc r) :=
  (W3_of m c r h2).trans ((W2_of m c r h1).trans (W1_of m c r h0))

end Cert.KernelIdeal.Hand

end
-- ==== Proof.LibScatterRows.lean ====
import Idealize.ShloMosaic.PureOps.Ideal
import Idealize.ShloMosaic.Lib.ValueIdx

namespace Idealize.ShloMosaic.ScatterRows

open Idealize.ShloMosaic Idealize.ShloMosaic.ValueIdx
open scoped BigOperators

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · next hh =>
      have hi := Option.some.inj h
      intro a
      have ha : (d.start j idx a + (d.window j a : Int)).toNat = (i a).val :=
        congrArg (fun f : s.Idx => (f a).val) hi
      have h0 := (hh a).1
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    show (d.start j idx a + (d.window j a : Int)).toNat = (i a).val
    have h1 := h a
    omega

abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)

theorem row_not_kept : (0 : Fin 2) ∉ (rowDims N R C wf).sKept := by
  simp [ScatterDims.sKept, Shape.kept, List.mem_filter, List.mem_finRange]

theorem col_kept : (1 : Fin 2) ∈ (rowDims N R C wf).sKept := by
  simp [ScatterDims.sKept, Shape.kept, List.mem_filter, List.mem_finRange]

theorem start_row (idx : IVec ⟨2, ![R, 1]⟩ w) (j : Fin R) (q : Fin C) :
    (rowDims N R C wf).start (ix2 j q) idx 0 = (idx (ix2 j (0 : Fin 1))).toInt := by
  unfold ScatterDims.start
  rw [dif_pos (show (0 : Fin 2) ∈ (rowDims N R C wf).scatterDimsToOperandDims from List.mem_singleton.mpr rfl)]
  have hsi : (rowDims N R C wf).siIdx (ix2 j q) ⟨List.idxOf (0 : Fin 2) (rowDims N R C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

theorem start_col (idx : IVec ⟨2, ![R, 1]⟩ w) (j : Fin R) (q : Fin C) :
    (rowDims N R C wf).start (ix2 j q) idx 1 = 0 := by
  unfold ScatterDims.start
  rw [dif_neg (show (1 : Fin 2) ∉ (rowDims N R C wf).scatterDimsToOperandDims from
    fun h => absurd (congrArg Fin.val (List.mem_singleton.mp h)) Nat.one_ne_zero)]

theorem window_row (j : Fin R) (q : Fin C) : (rowDims N R C wf).window (ix2 j q) 0 = 0 := by
  unfold ScatterDims.window
  rw [dif_neg (row_not_kept wf)]

theorem window_col (j : Fin R) (q : Fin C) : (rowDims N R C wf).window (ix2 j q) 1 = q.val := by
  unfold ScatterDims.window
  rw [dif_pos (col_kept wf)]
  rfl

theorem resultIdx?_rows_iff (idx : IVec ⟨2, ![R, 1]⟩ w) (j : Fin R) (q' : Fin C) (n : Fin N) (q : Fin C) :
    (rowDims N R C wf).resultIdx? (ix2 j q') idx = some (ix2 n q)
      ↔ (idx (ix2 j (0 : Fin 1))).toInt = (n.val : Int) ∧ q' = q := by
  rw [resultIdx?_eq_some_iff]
  constructor
  · intro h
    have h0 : (rowDims N R C wf).start (ix2 j q') idx 0 + ((rowDims N R C wf).window (ix2 j q') 0 : Int) = (n.val : Int) := h 0
    have h1 : (rowDims N R C wf).start (ix2 j q') idx 1 + ((rowDims N R C wf).window (ix2 j q') 1 : Int) = (q.val : Int) := h 1
    rw [start_row, window_row] at h0
    rw [start_col, window_col] at h1
    refine ⟨by omega, Fin.ext (by omega)⟩
  · rintro ⟨h0, rfl⟩ a
    match a with
    | ⟨0, _⟩ =>
      show (rowDims N R C wf).start (ix2 j q') idx 0 + ((rowDims N R C wf).window (ix2 j q') 0 : Int) = (n.val : Int)
      rw [start_row, window_row]; omega
    | ⟨1, _⟩ =>
      show (rowDims N R C wf).start (ix2 j q') idx 1 + ((rowDims N R C wf).window (ix2 j q') 1 : Int) = (q'.val : Int)
      rw [start_col, window_col]; omega

theorem scatterAdd_rows_apply (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowDims N R C wf) x idx upd (ix2 n q)
      = x (ix2 n q) + ∑ j : Fin R, if (idx (ix2 j (0 : Fin 1))).toInt = (n.val : Int) then upd (ix2 j q) else 0 := by
  unfold Ideal.hostScatterAdd
  congr 1
  rw [Finset.sum_filter, sum_idx2]
  refine Finset.sum_congr rfl fun j _ => ?_
  rw [Finset.sum_eq_single q]
  · by_cases hj : (idx (ix2 j (0 : Fin 1))).toInt = (n.val : Int)
    · rw [if_pos ((resultIdx?_rows_iff wf idx j q n q).mpr ⟨hj, rfl⟩), if_pos hj]
    · rw [if_neg (fun h => hj ((resultIdx?_rows_iff wf idx j q n q).mp h).1), if_neg hj]
  · intro b _ hb
    exact if_neg (fun h => hb ((resultIdx?_rows_iff wf idx j b n q).mp h).2)
  · intro h
    exact absurd (Finset.mem_univ q) h

end

end Idealize.ShloMosaic.ScatterRows
-- ==== Proof.LibSumBlocks.lean ====
import Mathlib.Data.Fintype.BigOperators
import Mathlib.Logic.Equiv.Fin.Basic

theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The pairs (a, b) are in bijection with the flat positions a·n + b, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm
-- ==== Proof.KI.SpecS.lean ====
import Idealize.ShloMosaic.PureOps.Ideal
import Idealize.ShloMosaic.Lib.ValueIdx
import proofs.«417880_j4011499454825_1_alg».proof.Proof.LibSumBlocks

noncomputable section

namespace Cert.KernelIdeal.Hand

open Idealize.ShloMosaic Idealize.ShloMosaic.ValueIdx
open scoped BigOperators

/-- Rows added into rows, plus a bias: entry (n, q) sums the update entries (j, q) over the rows j whose index, read signed, is n. -/
def scatG {N R C : ℕ} (idx : IVec ⟨2, ![R, 1]⟩ 32) (feat : (⟨2, ![R, C]⟩ : Shape).Idx → EReal)
    (bias : (⟨2, ![1, C]⟩ : Shape).Idx → EReal) : (⟨2, ![N, C]⟩ : Shape).Idx → EReal :=
  fun i => (∑ j : Fin R, if (idx (ix2 j (0 : Fin 1))).toInt = ((i 0).val : Int) then feat (ix2 j (i 1)) else 0)
    + bias (ix2 0 (i 1))

/-- Update row j's share of output row r at column q. -/
def hitG {R C : ℕ} (idx : IVec ⟨2, ![R, 1]⟩ 32) (feat : (⟨2, ![R, C]⟩ : Shape).Idx → EReal) (r : ℕ) (q : Fin C) :
    Fin R → EReal :=
  fun j => if (idx (ix2 j (0 : Fin 1))).toInt = (r : Int) then feat (ix2 j q) else 0

theorem scatG_apply {N R C : ℕ} (idx : IVec ⟨2, ![R, 1]⟩ 32) (feat : (⟨2, ![R, C]⟩ : Shape).Idx → EReal)
    (bias : (⟨2, ![1, C]⟩ : Shape).Idx → EReal) (n : Fin N) (q : Fin C) :
    scatG idx feat bias (ix2 n q) = (∑ j : Fin R, hitG idx feat n.val q j) + bias (ix2 0 q) := rfl

def scatGRelu {N R C : ℕ} (idx : IVec ⟨2, ![R, 1]⟩ 32) (feat : (⟨2, ![R, C]⟩ : Shape).Idx → EReal)
    (bias : (⟨2, ![1, C]⟩ : Shape).Idx → EReal) : (⟨2, ![N, C]⟩ : Shape).Idx → EReal :=
  fun i => max (scatG idx feat bias i) 0

/-- Block e of a function on R = P·B rows: the sum over the block's B rows (zero past the last block). -/
def blockSum {M : Type*} [AddCommMonoid M] (P B : ℕ) {R : ℕ} (hR : P * B = R) (g : Fin R → M) (e : ℕ) : M :=
  ∑ b : Fin B, if h : e < P then g ⟨e * B + b.val, lt_of_lt_of_eq (Fin.rowMajor_lt ⟨e, h⟩ b) hR⟩ else 0

theorem blockSum_of_lt {M : Type*} [AddCommMonoid M] (P B : ℕ) {R : ℕ} (hR : P * B = R) (g : Fin R → M) (e : ℕ)
    (h : e < P) : blockSum P B hR g e = ∑ b : Fin B, g ⟨e * B + b.val, lt_of_lt_of_eq (Fin.rowMajor_lt ⟨e, h⟩ b) hR⟩ := by
  unfold blockSum
  exact Finset.sum_congr rfl fun b _ => dif_pos h

/-- P blocks of B rows, added block after block, are the P·B rows added at once. -/
theorem sum_blockSum {M : Type*} [AddCommMonoid M] (P B : ℕ) {R : ℕ} (hR : P * B = R) (g : Fin R → M) :
    ∑ e ∈ Finset.range P, blockSum P B hR g e = ∑ j, g j := by
  subst hR
  rw [Fin.sum_rowMajor2 P B g, Finset.sum_range]
  exact Finset.sum_congr rfl fun a _ => blockSum_of_lt P B rfl g a.val a.isLt

end Cert.KernelIdeal.Hand
-- ==== Proof.KI.SpecD.lean ====
import Idealize.ShloMosaic.Lib.ValueIdx
import Idealize.ShloMosaic.Lib.Pipeline.Value
import Idealize.ShloMosaic.Lib.StackMember
import Idealize.ShloMosaic.PureOps.Ideal.Laws

noncomputable section

namespace Cert.KernelIdeal.Hand

open Idealize.ShloMosaic Idealize.ShloMosaic.ValueIdx Idealize.ShloMosaic.StackMember

/-- `x · w + b` entry by entry: `x` is `M × K`, `w` is `K × C`, `b` is one row of `C` entries. -/
def denseG {M K C : Nat} (x : (⟨2, ![M, K]⟩ : Shape).Idx → EReal) (w : (⟨2, ![K, C]⟩ : Shape).Idx → EReal)
    (b : (⟨2, ![1, C]⟩ : Shape).Idx → EReal) : (⟨2, ![M, C]⟩ : Shape).Idx → EReal :=
  fun i => (∑ k : Fin K, x (ix2 (i 0 : Fin M) k) * w (ix2 k (i 1 : Fin C))) + b (ix2 (0 : Fin 1) (i 1 : Fin C))

theorem denseG_ix2 {M K C : Nat} (x : (⟨2, ![M, K]⟩ : Shape).Idx → EReal) (w : (⟨2, ![K, C]⟩ : Shape).Idx → EReal)
    (b : (⟨2, ![1, C]⟩ : Shape).Idx → EReal) (r : Fin M) (q : Fin C) :
    denseG x w b (ix2 r q) = (∑ k : Fin K, x (ix2 r k) * w (ix2 k q)) + b (ix2 (0 : Fin 1) q) := rfl

def denseReluG {M K C : Nat} (x : (⟨2, ![M, K]⟩ : Shape).Idx → EReal) (w : (⟨2, ![K, C]⟩ : Shape).Idx → EReal)
    (b : (⟨2, ![1, C]⟩ : Shape).Idx → EReal) : (⟨2, ![M, C]⟩ : Shape).Idx → EReal :=
  fun i => max (denseG x w b i) 0

/-- An entry depends on its own row of `x` only, so a row block of `x` gives the same entries as the whole of `x`. -/
theorem denseG_block {Mb M K C : Nat} (x0 : (⟨2, ![Mb, K]⟩ : Shape).Idx → EReal) (x1 : (⟨2, ![K, C]⟩ : Shape).Idx → EReal)
    (x2 : (⟨2, ![1, C]⟩ : Shape).Idx → EReal) (X : (⟨2, ![M, K]⟩ : Shape).Idx → EReal) (W : (⟨2, ![K, C]⟩ : Shape).Idx → EReal)
    (B : (⟨2, ![1, C]⟩ : Shape).Idx → EReal) (y : (⟨2, ![Mb, C]⟩ : Shape).Idx) (i : (⟨2, ![M, C]⟩ : Shape).Idx)
    (hx : ∀ k : Fin K, x0 (ix2 (y 0 : Fin Mb) k) = X (ix2 (i 0 : Fin M) k)) (hw : x1 = W) (hb : x2 = B)
    (hq : (y 1).val = (i 1).val) : denseG x0 x1 x2 y = denseG X W B i := by
  obtain ⟨r, q, rfl⟩ : ∃ (r : Fin Mb) (q : Fin C), y = ix2 r q := ⟨y 0, y 1, eq_ix2 y⟩
  obtain ⟨n, p, rfl⟩ : ∃ (n : Fin M) (p : Fin C), i = ix2 n p := ⟨i 0, i 1, eq_ix2 i⟩
  obtain rfl : q = p := Fin.ext hq
  have hx' : ∀ k : Fin K, x0 (ix2 r k) = X (ix2 n k) := hx
  subst hw hb
  rw [denseG_ix2, denseG_ix2]
  exact congrArg (· + x2 (ix2 (0 : Fin 1) q)) (Finset.sum_congr rfl fun k _ => by rw [hx' k])

theorem hz2 : (![0, 0] : Fin 2 → Nat) = fun _ => 0 := funext fun a => by fin_cases a <;> rfl

section Plain
variable (M K C : Nat)

theorem rowBroadcast_apply {α : Type} (b : (⟨2, ![1, C]⟩ : Shape).Idx → α)
    (h : (⟨2, ![1, C]⟩ : Shape).BroadcastsInDim ⟨2, ![M, C]⟩ (![0, 1] : Fin 2 → Fin 2)) (r : Fin M) (q : Fin C) :
    broadcastInDim ⟨2, ![M, C]⟩ (![0, 1] : Fin 2 → Fin 2) h b (ix2 r q) = b (ix2 (0 : Fin 1) q) :=
  broadcastInDim_apply (![0, 1] : Fin 2 → Fin 2) h b (ix2 r q) (ix2 (0 : Fin 1) q) (by
    intro a
    match a with
    | ⟨0, _⟩ => rfl
    | ⟨1, _⟩ =>
      show q.val = if C = 1 then 0 else q.val
      split_ifs with hC
      · have := q.isLt; omega
      · rfl)

theorem denseG_eq_host (x : FVec Ideal ⟨2, ![M, K]⟩ .f32) (w : FVec Ideal ⟨2, ![K, C]⟩ .f32) (b : FVec Ideal ⟨2, ![1, C]⟩ .f32)
    (h : (⟨2, ![1, C]⟩ : Shape).BroadcastsInDim ⟨2, ![M, C]⟩ (![0, 1] : Fin 2 → Fin 2)) :
    denseG x w b = addf (F := Ideal) (Host.dotGeneral (F := Ideal) (DotDims.plain M K C) none x w)
      (broadcastInDim ⟨2, ![M, C]⟩ (![0, 1] : Fin 2 → Fin 2) h b) := by
  funext i
  obtain ⟨r, q, rfl⟩ : ∃ (r : Fin M) (q : Fin C), i = ix2 r q := ⟨i 0, i 1, eq_ix2 i⟩
  rw [denseG_ix2, addf_apply, dotGeneral_plain_apply, rowBroadcast_apply]

/-- A product into a zero accumulator is the plain product: both are the same sum over the contraction index. -/
theorem densePay_eq (x : FVec Ideal ⟨2, ![M, K]⟩ .f32) (w : FVec Ideal ⟨2, ![K, C]⟩ .f32) (b : FVec Ideal ⟨2, ![1, C]⟩ .f32)
    (hx : (⟨2, ![M, K]⟩ : Shape).ShapeCasts ⟨2, ![M, K]⟩) (hb : (⟨2, ![1, C]⟩ : Shape).ShapeCasts ⟨2, ![1, C]⟩)
    (hbc : (⟨2, ![1, C]⟩ : Shape).Broadcasts ⟨2, ![M, C]⟩) :
    addf (F := Ideal) (matmul (DotDims.plain M K C) none (shapeCast ⟨2, ![M, K]⟩ x hx) w (constant (F := Ideal) ⟨2, ![M, C]⟩ .f32 0x00000000#32))
      (broadcastTo ⟨2, ![M, C]⟩ (shapeCast ⟨2, ![1, C]⟩ b hb) hbc) = denseG x w b := by
  funext i
  obtain ⟨r, q, rfl⟩ : ∃ (r : Fin M) (q : Fin C), i = ix2 r q := ⟨i 0, i 1, eq_ix2 i⟩
  rw [addf_apply, shapeCast_self, shapeCast_self, denseG_ix2]
  refine congrArg₂ (· + ·) ?_ (broadcastTo_apply b hbc (ix2 r q) (ix2 (0 : Fin 1) q) fun a => ?_)
  · exact (Ideal.matmul_constant_zero_apply (DotDims.plain M K C) none x w (ix2 r q)).trans
      ((Ideal.dotGeneral_apply (DotDims.plain M K C) none .single x w (ix2 r q)).symm.trans (dotGeneral_plain_apply none x w r q))
  · match a with
    | ⟨0, _⟩ => rfl
    | ⟨1, _⟩ =>
      show q.val = if C = 1 then 0 else q.val
      split_ifs with hC
      · have := q.isLt; omega
      · rfl

/-- The same followed by the larger of each entry and the zero splat. -/
theorem denseReluPay_eq (x : FVec Ideal ⟨2, ![M, K]⟩ .f32) (w : FVec Ideal ⟨2, ![K, C]⟩ .f32) (b : FVec Ideal ⟨2, ![1, C]⟩ .f32)
    (hx : (⟨2, ![M, K]⟩ : Shape).ShapeCasts ⟨2, ![M, K]⟩) (hb : (⟨2, ![1, C]⟩ : Shape).ShapeCasts ⟨2, ![1, C]⟩)
    (hbc : (⟨2, ![1, C]⟩ : Shape).Broadcasts ⟨2, ![M, C]⟩) :
    maximumf (F := Ideal) (addf (F := Ideal) (matmul (DotDims.plain M K C) none (shapeCast ⟨2, ![M, K]⟩ x hx) w (constant (F := Ideal) ⟨2, ![M, C]⟩ .f32 0x00000000#32))
      (broadcastTo ⟨2, ![M, C]⟩ (shapeCast ⟨2, ![1, C]⟩ b hb) hbc)) (broadcast ⟨2, ![M, C]⟩ (Scalar.ofBits (F := Ideal) .f32 0x00000000#32))
      = denseReluG x w b := by
  rw [densePay_eq M K C x w b hx hb hbc]
  funext i
  show max (denseG x w b i) (Ideal.ofBits .f32 0x00000000#32) = max (denseG x w b i) 0
  rw [Ideal.ofBits_zero_f32]

end Plain

end Cert.KernelIdeal.Hand

end
-- ==== Proof.KI.RegionHost.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«417880_j4011499454825_1_alg».proof.ReferenceIdeal
import proofs.«417880_j4011499454825_1_alg».proof.Proof.LibScatterRows
import proofs.«417880_j4011499454825_1_alg».proof.Proof.KI.SpecS
import proofs.«417880_j4011499454825_1_alg».proof.Proof.KI.SpecD
import proofs.«417880_j4011499454825_1_alg».proof.Proof.KI.Chain

noncomputable section

namespace Cert.KernelIdeal.Hand

open Idealize.ShloMosaic Idealize.ShloMosaic.ValueIdx Idealize.ShloMosaic.ScatterRows
open scoped BigOperators

section Reads
variable {α : Type}

theorem colCast_apply {R : ℕ} (x : (⟨1, ![R]⟩ : Shape).Idx → α) (h : (⟨1, ![R]⟩ : Shape).ShapeCasts ⟨2, ![R, 1]⟩)
    (j : Fin R) (u : Fin 1) : shapeCast ⟨2, ![R, 1]⟩ x h (ix2 j u) = x (ix1 j) :=
  shapeCast_apply x h _ _ (by
    have hu : u.val = 0 := by omega
    rw [Shape.rowMajor_val_two, Shape.rowMajor_val_one]
    show j.val = j.val * 1 + u.val
    rw [hu, Nat.mul_one, Nat.add_zero])

theorem colBcast_apply {R : ℕ} (x : (⟨1, ![R]⟩ : Shape).Idx → α)
    (h : (⟨1, ![R]⟩ : Shape).BroadcastsInDim ⟨2, ![R, 1]⟩ (![0] : Fin 1 → Fin 2)) (j : Fin R) (u : Fin 1) :
    broadcastInDim ⟨2, ![R, 1]⟩ (![0] : Fin 1 → Fin 2) h x (ix2 j u) = x (ix1 j) :=
  broadcastInDim_apply (![0] : Fin 1 → Fin 2) h x (ix2 j u) (ix1 j) (by
    intro a
    match a with
    | ⟨0, _⟩ =>
      show j.val = if R = 1 then 0 else j.val
      split_ifs with hR
      · have := j.isLt; omega
      · rfl)

theorem rowBcast1_apply {C : ℕ} (b : (⟨1, ![C]⟩ : Shape).Idx → α)
    (h : (⟨1, ![C]⟩ : Shape).BroadcastsInDim ⟨2, ![1, C]⟩ (![1] : Fin 1 → Fin 2)) (u : Fin 1) (q : Fin C) :
    broadcastInDim ⟨2, ![1, C]⟩ (![1] : Fin 1 → Fin 2) h b (ix2 u q) = b (ix1 q) :=
  broadcastInDim_apply (![1] : Fin 1 → Fin 2) h b (ix2 u q) (ix1 q) (by
    intro a
    match a with
    | ⟨0, _⟩ =>
      show q.val = if C = 1 then 0 else q.val
      split_ifs with hC
      · have := q.isLt; omega
      · rfl)

theorem zeros_apply {s : Shape} (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i = (0 : EReal) :=
  Ideal.ofBits_zero_f32

end Reads

section Scatter
variable {N R C : ℕ} (wf : ScatterDims.WF ⟨2, ![N, C]⟩ ⟨2, ![R, 1]⟩ ⟨2, ![R, C]⟩ [1] [0] [0] 1)
  (idx1 : IVec ⟨1, ![R]⟩ 32) (upd : FVec Ideal ⟨2, ![R, C]⟩ .f32)
  (hc : (⟨1, ![R]⟩ : Shape).ShapeCasts ⟨2, ![R, 1]⟩) (hlt : FTy.bf16.bits < FTy.f32.bits)
  (hcb : (⟨1, ![C]⟩ : Shape).ShapeCasts ⟨2, ![1, C]⟩)
  (h0 : (⟨0, ![]⟩ : Shape).BroadcastsInDim ⟨2, ![N, C]⟩ (![] : Fin 0 → Fin 2))
  (hbi : (⟨1, ![R]⟩ : Shape).BroadcastsInDim ⟨2, ![R, 1]⟩ (![0] : Fin 1 → Fin 2))
  (hb1 : (⟨1, ![C]⟩ : Shape).BroadcastsInDim ⟨2, ![1, C]⟩ (![1] : Fin 1 → Fin 2))
  (hbb : (⟨2, ![1, C]⟩ : Shape).BroadcastsInDim ⟨2, ![N, C]⟩ (![0, 1] : Fin 2 → Fin 2))

/-- The host's row scatter-add of the rows of `upd` at the indices `idx1`, laid down one column, into zeros. -/
abbrev hostSeg : FVec Ideal ⟨2, ![N, C]⟩ .f32 :=
  Host.scatterAdd (F := Ideal) (rowDims N R C wf)
    (broadcastInDim ⟨2, ![N, C]⟩ (![] : Fin 0 → Fin 2) h0 (constant (F := Ideal) ⟨0, ![]⟩ .f32 0x00000000#32))
    (broadcastInDim ⟨2, ![R, 1]⟩ (![0] : Fin 1 → Fin 2) hbi idx1) upd

theorem hostScatter_zeros_apply (n : Fin N) (q : Fin C) :
    hostSeg wf idx1 upd h0 hbi (ix2 n q) = ∑ j : Fin R, if (idx1 (ix1 j)).toInt = (n.val : Int) then upd (ix2 j q) else 0 := by
  show Ideal.hostScatterAdd (rowDims N R C wf) _ _ upd (ix2 n q) = _
  rw [scatterAdd_rows_apply, zeros_apply, zero_add]
  refine Finset.sum_congr rfl fun j _ => ?_
  rw [colBcast_apply]

theorem scatG_cast_apply (bias : (⟨2, ![1, C]⟩ : Shape).Idx → EReal) (n : Fin N) (q : Fin C) :
    scatG (N := N) (shapeCast ⟨2, ![R, 1]⟩ idx1 hc) (truncf .bf16 upd hlt) bias (ix2 n q)
      = (∑ j : Fin R, if (idx1 (ix1 j)).toInt = (n.val : Int) then upd (ix2 j q) else 0) + bias (ix2 0 q) := by
  rw [scatG_apply]
  congr 1
  refine Finset.sum_congr rfl fun j _ => ?_
  unfold hitG
  rw [colCast_apply, truncf_apply]

theorem scatG_eq_host (b : FVec Ideal ⟨1, ![C]⟩ .f32) :
    scatG (N := N) (shapeCast ⟨2, ![R, 1]⟩ idx1 hc) (truncf .bf16 upd hlt) (shapeCast ⟨2, ![1, C]⟩ b hcb)
      = addf (F := Ideal) (hostSeg wf idx1 upd h0 hbi)
          (broadcastInDim ⟨2, ![N, C]⟩ (![0, 1] : Fin 2 → Fin 2) hbb
            (broadcastInDim ⟨2, ![1, C]⟩ (![1] : Fin 1 → Fin 2) hb1 b)) := by
  funext i
  obtain ⟨n, q, rfl⟩ : ∃ (n : Fin N) (q : Fin C), i = ix2 n q := ⟨i 0, i 1, eq_ix2 i⟩
  rw [scatG_cast_apply, addf_apply, hostScatter_zeros_apply, rowBroadcast_apply, rowBcast1_apply, shapeCast_a_1a_apply]

theorem scatG_zero_eq_host (hz : (⟨0, ![]⟩ : Shape).BroadcastsInDim ⟨1, ![C]⟩ (![] : Fin 0 → Fin 1)) :
    scatG (N := N) (shapeCast ⟨2, ![R, 1]⟩ idx1 hc) (truncf .bf16 upd hlt)
        (shapeCast ⟨2, ![1, C]⟩
          (broadcastInDim ⟨1, ![C]⟩ (![] : Fin 0 → Fin 1) hz (constant (F := Ideal) ⟨0, ![]⟩ .f32 0x00000000#32)) hcb)
      = hostSeg wf idx1 upd h0 hbi := by
  funext i
  obtain ⟨n, q, rfl⟩ : ∃ (n : Fin N) (q : Fin C), i = ix2 n q := ⟨i 0, i 1, eq_ix2 i⟩
  rw [scatG_cast_apply, hostScatter_zeros_apply, shapeCast_a_1a_apply, zeros_apply, add_zero]

theorem scatGRelu_eq_host (b : FVec Ideal ⟨1, ![C]⟩ .f32)
    (h0' : (⟨0, ![]⟩ : Shape).BroadcastsInDim ⟨2, ![N, C]⟩ (![] : Fin 0 → Fin 2)) :
    scatGRelu (N := N) (shapeCast ⟨2, ![R, 1]⟩ idx1 hc) (truncf .bf16 upd hlt) (shapeCast ⟨2, ![1, C]⟩ b hcb)
      = maximumf (F := Ideal) (addf (F := Ideal) (hostSeg wf idx1 upd h0 hbi)
          (broadcastInDim ⟨2, ![N, C]⟩ (![0, 1] : Fin 2 → Fin 2) hbb
            (broadcastInDim ⟨2, ![1, C]⟩ (![1] : Fin 1 → Fin 2) hb1 b)))
        (broadcastInDim ⟨2, ![N, C]⟩ (![] : Fin 0 → Fin 2) h0' (constant (F := Ideal) ⟨0, ![]⟩ .f32 0x00000000#32)) := by
  funext i
  rw [maximumf_apply, zeros_apply, ← scatG_eq_host wf idx1 upd hc hlt hcb h0 hbi hb1 hbb b]
  rfl

end Scatter

section Dense
variable (M K C : ℕ) (x : FVec Ideal ⟨2, ![M, K]⟩ .f32) (w : FVec Ideal ⟨2, ![K, C]⟩ .f32) (b : FVec Ideal ⟨1, ![C]⟩ .f32)
  (hcb : (⟨1, ![C]⟩ : Shape).ShapeCasts ⟨2, ![1, C]⟩)
  (hb1 : (⟨1, ![C]⟩ : Shape).BroadcastsInDim ⟨2, ![1, C]⟩ (![1] : Fin 1 → Fin 2))
  (hbb : (⟨2, ![1, C]⟩ : Shape).BroadcastsInDim ⟨2, ![M, C]⟩ (![0, 1] : Fin 2 → Fin 2))

/-- The host's plain product plus the bias vector laid along every row. -/
abbrev hostDense : FVec Ideal ⟨2, ![M, C]⟩ .f32 :=
  addf (F := Ideal) (Host.dotGeneral (F := Ideal) (DotDims.plain M K C) none x w)
    (broadcastInDim ⟨2, ![M, C]⟩ (![0, 1] : Fin 2 → Fin 2) hbb
      (broadcastInDim ⟨2, ![1, C]⟩ (![1] : Fin 1 → Fin 2) hb1 b))

theorem denseG_zero_eq_host (hz : (⟨0, ![]⟩ : Shape).BroadcastsInDim ⟨1, ![C]⟩ (![] : Fin 0 → Fin 1)) :
    denseG x w (shapeCast ⟨2, ![1, C]⟩
        (broadcastInDim ⟨1, ![C]⟩ (![] : Fin 0 → Fin 1) hz (constant (F := Ideal) ⟨0, ![]⟩ .f32 0x00000000#32)) hcb)
      = Host.dotGeneral (F := Ideal) (DotDims.plain M K C) none x w := by
  funext i
  obtain ⟨r, q, rfl⟩ : ∃ (r : Fin M) (q : Fin C), i = ix2 r q := ⟨i 0, i 1, eq_ix2 i⟩
  rw [denseG_ix2, StackMember.dotGeneral_plain_apply, shapeCast_a_1a_apply, zeros_apply, add_zero]

theorem rowCast_eq_rowBcast {α : Type} (v : (⟨1, ![C]⟩ : Shape).Idx → α) :
    shapeCast ⟨2, ![1, C]⟩ v hcb = broadcastInDim ⟨2, ![1, C]⟩ (![1] : Fin 1 → Fin 2) hb1 v := by
  funext i
  obtain ⟨u, q, rfl⟩ : ∃ (u : Fin 1) (q : Fin C), i = ix2 u q := ⟨i 0, i 1, eq_ix2 i⟩
  rw [shapeCast_a_1a_apply, rowBcast1_apply]

theorem denseG_cast_eq_host : denseG x w (shapeCast ⟨2, ![1, C]⟩ b hcb) = hostDense M K C x w b hb1 hbb := by
  rw [rowCast_eq_rowBcast C hcb hb1 b]
  exact denseG_eq_host M K C x w _ hbb

theorem denseReluG_cast_eq_host (h0 : (⟨0, ![]⟩ : Shape).BroadcastsInDim ⟨2, ![M, C]⟩ (![] : Fin 0 → Fin 2)) :
    denseReluG x w (shapeCast ⟨2, ![1, C]⟩ b hcb)
      = maximumf (F := Ideal) (hostDense M K C x w b hb1 hbb)
        (broadcastInDim ⟨2, ![M, C]⟩ (![] : Fin 0 → Fin 2) h0 (constant (F := Ideal) ⟨0, ![]⟩ .f32 0x00000000#32)) := by
  funext i
  rw [maximumf_apply, zeros_apply, ← denseG_cast_eq_host M K C x w b hcb hb1 hbb]
  rfl

end Dense

section Named
open Cert.ReferenceIdeal Cert.ReferenceIdeal.Facts₀
variable [Cert.ReferenceIdeal.Facts₀]

theorem scatterE_rows : scatter_S100000x128_S1600000x1_S1600000x128_1_0_0_1
    = rowDims 100000 1600000 128 scatter_S100000x128_S1600000x1_S1600000x128_1_0_0_1_wf := rfl
theorem scatterL_rows : scatter_S100000x128_S1700000x1_S1700000x128_1_0_0_1
    = rowDims 100000 1700000 128 scatter_S100000x128_S1700000x1_S1700000x128_1_0_0_1_wf := rfl
theorem scatterG_rows : scatter_S512x128_S100000x1_S100000x128_1_0_0_1
    = rowDims 512 100000 128 scatter_S512x128_S100000x1_S100000x128_1_0_0_1_wf := rfl
theorem dotN_plain : dot_S100000x128_S128x128_S100000x128_1_0_0_1_n_n = DotDims.plain 100000 128 128 := rfl
theorem dotG_plain : dot_S512x128_S128x128_S512x128_1_0_0_1_n_n = DotDims.plain 512 128 128 := rfl
theorem dotO_plain : dot_S512x128_S128x10_S512x10_1_0_0_1_n_n = DotDims.plain 512 128 10 := rfl

theorem reg0_host (v : IVec S1600000 32) (u : FVec Ideal S1600000x128 .f32)
    (hc : S1600000.ShapeCasts S1600000x1) (hlt : FTy.bf16.bits < FTy.f32.bits)
    (hz : S_.BroadcastsInDim S128 (![] : Fin 0 → Fin S128.rank)) (hcb : S128.ShapeCasts S1x128) :
    scatG (N := 100000) (shapeCast S1600000x1 v hc) (truncf .bf16 u hlt)
        (shapeCast S1x128 (broadcastInDim S128 (![] : Fin 0 → Fin S128.rank) hz (constant (F := Ideal) S_ .f32 0x00000000#32)) hcb)
      = segE (colE v) u := by
  unfold segE colE zerosN
  rw [scatterE_rows]
  exact scatG_zero_eq_host _ v u hc hlt hcb _ _ hz

theorem regL_relu_host (v : IVec S1700000 32) (u : FVec Ideal S1700000x128 .f32) (b : FVec Ideal S128 .f32)
    (hc : S1700000.ShapeCasts S1700000x1) (hlt : FTy.bf16.bits < FTy.f32.bits) (hcb : S128.ShapeCasts S1x128) :
    scatGRelu (N := 100000) (shapeCast S1700000x1 v hc) (truncf .bf16 u hlt) (shapeCast S1x128 b hcb)
      = reluN (addRowN (segL (colL v) u) b) := by
  unfold reluN addRowN segL colL zerosN
  rw [scatterL_rows]
  exact scatGRelu_eq_host _ v u hc hlt hcb _ _ _ _ b _

theorem regL_host (v : IVec S1700000 32) (u : FVec Ideal S1700000x128 .f32) (b : FVec Ideal S128 .f32)
    (hc : S1700000.ShapeCasts S1700000x1) (hlt : FTy.bf16.bits < FTy.f32.bits) (hcb : S128.ShapeCasts S1x128) :
    scatG (N := 100000) (shapeCast S1700000x1 v hc) (truncf .bf16 u hlt) (shapeCast S1x128 b hcb)
      = addRowN (segL (colL v) u) b := by
  unfold addRowN segL colL zerosN
  rw [scatterL_rows]
  exact scatG_eq_host _ v u hc hlt hcb _ _ _ _ b

theorem regG_host (v : IVec S100000 32) (y : FVec Ideal S100000x128 .f32)
    (hc : S100000.ShapeCasts S100000x1) (hlt : FTy.bf16.bits < FTy.f32.bits)
    (hz : S_.BroadcastsInDim S128 (![] : Fin 0 → Fin S128.rank)) (hcb : S128.ShapeCasts S1x128) :
    scatG (N := 512) (shapeCast S100000x1 v hc) (truncf .bf16 y hlt)
        (shapeCast S1x128 (broadcastInDim S128 (![] : Fin 0 → Fin S128.rank) hz (constant (F := Ideal) S_ .f32 0x00000000#32)) hcb)
      = poolG y v := by
  unfold poolG segG colN zerosG
  rw [scatterG_rows]
  exact scatG_zero_eq_host _ v y hc hlt hcb _ _ hz

theorem regLin_host (x : FVec Ideal S100000x128 .f32) (w : FVec Ideal S128x128 .f32)
    (hz : S_.BroadcastsInDim S128 (![] : Fin 0 → Fin S128.rank)) (hcb : S128.ShapeCasts S1x128) :
    denseG x w (shapeCast S1x128 (broadcastInDim S128 (![] : Fin 0 → Fin S128.rank) hz (constant (F := Ideal) S_ .f32 0x00000000#32)) hcb)
      = lin x w := by
  unfold lin
  rw [dotN_plain]
  exact denseG_zero_eq_host 100000 128 128 x w hcb hz

theorem regHid_host (g : FVec Ideal S512x128 .f32) (w : FVec Ideal S128x128 .f32) (b : FVec Ideal S128 .f32)
    (hcb : S128.ShapeCasts S1x128) :
    denseReluG g w (shapeCast S1x128 b hcb) = hid g w b := by
  unfold hid zerosG
  rw [dotG_plain]
  exact denseReluG_cast_eq_host 512 128 128 g w b hcb _ _ _

theorem regOut_host (z : FVec Ideal S512x128 .f32) (w : FVec Ideal S128x10 .f32) (b : FVec Ideal S10 .f32)
    (hcb : S10.ShapeCasts S1x10) :
    denseG z w (shapeCast S1x10 b hcb) = outL z w b := by
  unfold outL
  rw [dotO_plain]
  exact denseG_cast_eq_host 512 128 10 z w b hcb _ _

end Named

end Cert.KernelIdeal.Hand
end
-- ==== Proof.KI.ScatterGen.lean ====
import Idealize.ShloMosaic.PureOps.Ideal.Laws
import Idealize.ShloMosaic.Lib.ValueIdx
import Idealize.ShloMosaic.Lib.Pipeline.Value
import proofs.«417880_j4011499454825_1_alg».proof.Proof.KI.SpecS

noncomputable section

namespace Cert.KernelIdeal.Hand

open Idealize.ShloMosaic Idealize.SL.Sem Idealize.ShloMosaic.ValueIdx
open scoped BigOperators

/-- Below 2³¹ nothing wraps: w − a·B is the word n exactly when w, read signed, is a·B + n. -/
theorem word_hit (w : BitVec 32) (a B n : ℕ) (h : a * B + n < 2 ^ 31) :
    IntOp.cmpi .eq (IntOp.subi w (Scalar.muli (BitVec.ofNat 32 a) (BitVec.ofNat 32 B))) (BitVec.ofNat 32 n)
      = if w.toInt = ((a * B + n : ℕ) : Int) then 1#1 else 0#1 := by
  have hm : Scalar.muli (BitVec.ofNat 32 a) (BitVec.ofNat 32 B) = BitVec.ofNat 32 (a * B) := by
    show BitVec.ofNat 32 a * BitVec.ofNat 32 B = _
    exact (BitVec.ofNat_mul _ _).symm
  rw [hm]
  generalize a * B = m at h ⊢
  have key : (w - BitVec.ofNat 32 m = BitVec.ofNat 32 n) ↔ w.toInt = ((m + n : ℕ) : Int) := by
    constructor
    · intro he
      have ht := congrArg BitVec.toNat he
      rw [BitVec.toNat_sub, BitVec.toNat_ofNat, BitVec.toNat_ofNat] at ht
      rw [BitVec.toInt_eq_toNat_cond]
      have := w.isLt
      norm_num at ht h ⊢
      split <;> omega
    · intro he
      apply BitVec.eq_of_toNat_eq
      rw [BitVec.toNat_sub, BitVec.toNat_ofNat, BitVec.toNat_ofNat]
      rw [BitVec.toInt_eq_toNat_cond] at he
      have := w.isLt
      norm_num at he h ⊢
      split at he <;> omega
  show BitVec.ofBool (w - BitVec.ofNat 32 m == BitVec.ofNat 32 n) = _
  by_cases hc : w.toInt = ((m + n : ℕ) : Int)
  · rw [if_pos hc, beq_iff_eq.mpr (key.mpr hc)]; rfl
  · rw [if_neg hc, beq_eq_false_iff_ne.mpr (fun he => hc (key.mp he))]; rfl

theorem sitofp_bit (c : Prop) [Decidable c] :
    (FloatOps.sitofp .f32 ((if c then 1#1 else 0#1 : BitVec 1).setWidth 32) : Ideal .f32) = if c then (1 : EReal) else 0 := by
  by_cases hc : c
  · rw [if_pos hc, if_pos hc]
    show ((((1#1 : BitVec 1).setWidth 32).toInt : ℝ) : EReal) = 1
    rw [show ((1#1 : BitVec 1).setWidth 32).toInt = 1 by decide]; norm_num
  · rw [if_neg hc, if_neg hc]
    show ((((0#1 : BitVec 1).setWidth 32).toInt : ℝ) : EReal) = 0
    rw [show ((0#1 : BitVec 1).setWidth 32).toInt = 0 by decide]; norm_num

theorem toNat32 {x : ℕ} (h : x < 2 ^ 32) : (BitVec.ofNat 32 x).toNat = x :=
  (BitVec.toNat_ofNat _ _).trans (Nat.mod_eq_of_lt h)

theorem vec00 : (![0, 0] : Fin 2 → Nat) = fun _ => 0 := funext fun a => by fin_cases a <;> rfl

/-- A coordinate on an axis of extent one is zero. -/
theorem val_eq_ite_one {m : ℕ} (x : Fin m) : x.val = if m = 1 then 0 else x.val := by
  split
  · have := x.isLt; omega
  · rfl

variable {E T C : ℕ}

/-- The shape of an m × n matrix. -/
abbrev sh (m n : ℕ) : Shape := ⟨2, ![m, n]⟩

/-- The product that contracts the row axis of both operands: (E × T)ᵀ · (E × C). -/
abbrev colDot (E T C : ℕ) (wf : DotDims.WF (sh E T) (sh E C) (sh T C) [0] [0] [1] [1] [] []) : DotDims (sh E T) (sh E C) (sh T C) where
  lhsContracting := [0]
  rhsContracting := [0]
  lhsNonContracting := [1]
  rhsNonContracting := [1]
  lhsBatch := []
  rhsBatch := []
  wf := wf

section
variable (wf : DotDims.WF (sh E T) (sh E C) (sh T C) [0] [0] [1] [1] [] [])

theorem lhs_colDot_1 (j : Shape.Idx (sh T C)) (k : (colDot E T C wf).contr.Idx) :
    ((colDot E T C wf).lhsIdx j k 1).val = (j 0).val := by
  simp [DotDims.lhsIdx, colDot]
  rfl

theorem rhs_colDot_1 (j : Shape.Idx (sh T C)) (k : (colDot E T C wf).contr.Idx) :
    ((colDot E T C wf).rhsIdx j k 1).val = (j 1).val := by
  simp [DotDims.rhsIdx, colDot]
  rfl

theorem matmul_colDot_apply (l : FVec Ideal (sh E T) .bf16) (r : FVec Ideal (sh E C) .bf16) (n : Fin T) (q : Fin C) :
    FloatOps.matmul (colDot E T C wf) none l r (constant (sh T C) .f32 0x00000000#32) (ix2 n q)
      = ∑ e : Fin E, l (ix2 e n) * r (ix2 e q) := by
  rw [Ideal.matmul_constant_zero_apply, ← Equiv.sum_comp (contrEquiv1 (colDot E T C wf) E rfl rfl).symm]
  refine Finset.sum_congr rfl fun e _ => ?_
  have hk := contrEquiv1_symm_val (colDot E T C wf) E rfl rfl e
  have hl : (colDot E T C wf).lhsIdx (ix2 n q) ((contrEquiv1 (colDot E T C wf) E rfl rfl).symm e) = ix2 e n := by
    funext a; apply Fin.ext
    match a with
    | ⟨0, _⟩ => exact ((colDot E T C wf).lhsIdx_val_of_single rfl _ _).trans hk
    | ⟨1, _⟩ => exact lhs_colDot_1 wf _ _
  have hr : (colDot E T C wf).rhsIdx (ix2 n q) ((contrEquiv1 (colDot E T C wf) E rfl rfl).symm e) = ix2 e q := by
    funext a; apply Fin.ext
    match a with
    | ⟨0, _⟩ => exact ((colDot E T C wf).rhsIdx_val_of_single rfl _ _).trans hk
    | ⟨1, _⟩ => exact rhs_colDot_1 wf _ _
  rw [hl, hr]

variable (sc1 : Shape.ShapeCasts (sh E 1) (sh E 1)) (bc : Shape.Broadcasts (sh E 1) (sh E T)) (io : Shape.Iotas (sh E T) .tc 32 [1]) (hw : 1 < 32)
  (hb : FTy.bits .bf16 < FTy.bits .f32)

/-- The zero-one matrix at (e, n): one exactly when index e, read signed, is i₀·T + n. -/
theorem onehot_apply (i0 : ℕ) (idx : Vec Ideal (sh E 1) .i32) (e : Fin E) (n : Fin T) (h : i0 * T + n.val < 2 ^ 31) :
    (truncf .bf16 (sitofp .f32 (extui 32 (cmpi .eq
        (broadcastTo (sh E T) (subi (shapeCast (sh E 1) idx sc1) (broadcast (sh E 1) (Scalar.muli (BitVec.ofNat 32 i0) (BitVec.ofNat 32 T)))) bc)
        (iota .tc (sh E T) 32 [1] io)) hw)) hb : FVec Ideal (sh E T) .bf16) (ix2 e n)
      = if (idx (ix2 e (0 : Fin 1))).toInt = ((i0 * T + n.val : ℕ) : Int) then (1 : EReal) else 0 := by
  have hbr : broadcastTo (sh E T) (subi (shapeCast (sh E 1) idx sc1) (broadcast (sh E 1) (Scalar.muli (BitVec.ofNat 32 i0) (BitVec.ofNat 32 T)))) bc (ix2 e n)
      = IntOp.subi (idx (ix2 e (0 : Fin 1))) (Scalar.muli (BitVec.ofNat 32 i0) (BitVec.ofNat 32 T)) := by
    refine (broadcastTo_apply _ _ (ix2 e n) (ix2 e (0 : Fin 1)) ?_).trans ?_
    · intro a
      match a with
      | ⟨0, _⟩ => exact val_eq_ite_one e
      | ⟨1, _⟩ => rfl
    · show IntOp.subi (shapeCast (sh E 1) idx sc1 (ix2 e (0 : Fin 1))) _ = _
      rw [shapeCast_self]
      rfl
  have hio : iota .tc (sh E T) 32 [1] io (ix2 e n) = BitVec.ofNat 32 n.val := iota_single_apply .tc (sh E T) 32 1 io (ix2 e n)
  show (FloatOps.sitofp .f32 ((IntOp.cmpi .eq
      (broadcastTo (sh E T) (subi (shapeCast (sh E 1) idx sc1) (broadcast (sh E 1) (Scalar.muli (BitVec.ofNat 32 i0) (BitVec.ofNat 32 T)))) bc (ix2 e n))
      (iota .tc (sh E T) 32 [1] io (ix2 e n))).setWidth 32) : Ideal .f32) = _
  rw [hbr, hio, word_hit _ i0 T n.val h]
  exact sitofp_bit _

/-- The reset value is the zero matrix. -/
theorem pay1G (sc : Shape.ShapeCasts (sh T C) (sh T C)) (n : Fin T) (q : Fin C) :
    shapeCast (sh T C) (broadcast (sh T C) (Scalar.ofBits (F := Ideal) .f32 0x00000000#32)) sc (ix2 n q) = 0 :=
  (congrFun (shapeCast_self _ _) (ix2 n q)).trans Ideal.ofBits_zero_f32

/-- The accumulating value at (n, q): the scratch there plus the update entries (e, q) of the rows e whose index is i₀·T + n. -/
theorem pay2G (sc2 : Shape.ShapeCasts (sh E C) (sh E C)) (sc3 : Shape.ShapeCasts (sh T C) (sh T C)) (i0 : ℕ) (idx : Vec Ideal (sh E 1) .i32)
    (acc : Vec Ideal (sh T C) .f32) (feat : Vec Ideal (sh E C) .bf16) (n : Fin T) (q : Fin C) (h : i0 * T + n.val < 2 ^ 31) :
    shapeCast (sh T C) (addf (F := Ideal) (φ := .f32) acc (matmul (colDot E T C wf) none
        (truncf .bf16 (sitofp .f32 (extui 32 (cmpi .eq
          (broadcastTo (sh E T) (subi (shapeCast (sh E 1) idx sc1) (broadcast (sh E 1) (Scalar.muli (BitVec.ofNat 32 i0) (BitVec.ofNat 32 T)))) bc)
          (iota .tc (sh E T) 32 [1] io)) hw)) hb)
        (shapeCast (sh E C) feat sc2 : FVec Ideal (sh E C) .bf16) (constant (sh T C) .f32 0x00000000#32))) sc3 (ix2 n q)
      = acc (ix2 n q) + ∑ e : Fin E,
          if (idx (ix2 e (0 : Fin 1))).toInt = ((i0 * T + n.val : ℕ) : Int) then feat (ix2 e q) else 0 := by
  refine (congrFun (shapeCast_self _ _) (ix2 n q)).trans ?_
  refine (addf_apply _ _ _).trans ?_
  refine congrArg (acc (ix2 n q) + ·) ?_
  refine (matmul_colDot_apply wf _ _ n q).trans ?_
  refine Finset.sum_congr rfl fun e _ => ?_
  refine (congrArg₂ (· * ·) (onehot_apply sc1 bc io hw hb i0 idx e n h)
    (congrFun (shapeCast_self feat sc2) (ix2 e q))).trans ?_
  by_cases hc : (idx (ix2 e (0 : Fin 1))).toInt = ((i0 * T + n.val : ℕ) : Int)
  · rw [if_pos hc, if_pos hc, one_mul]
  · rw [if_neg hc, if_neg hc, zero_mul]

end

section
variable (sc : Shape.ShapeCasts (sh 1 C) (sh 1 C)) (bc : Shape.Broadcasts (sh 1 C) (sh T C)) (acc : Vec Ideal (sh T C) .f32) (b : Vec Ideal (sh 1 C) .f32)
  (n : Fin T) (q : Fin C)

/-- The flushed value at (n, q): the scratch there plus the bias at column q. -/
theorem pay3G : addf (F := Ideal) (φ := .f32) acc (broadcastTo (sh T C) (shapeCast (sh 1 C) b sc) bc) (ix2 n q)
    = acc (ix2 n q) + b (ix2 (0 : Fin 1) q) := by
  refine (addf_apply _ _ _).trans (congrArg (acc (ix2 n q) + ·) ?_)
  refine (broadcastTo_apply _ _ (ix2 n q) (ix2 (0 : Fin 1) q) ?_).trans (congrFun (shapeCast_self b sc) _)
  intro a
  match a with
  | ⟨0, _⟩ => rfl
  | ⟨1, _⟩ => exact val_eq_ite_one q

/-- The same under a maximum with zero. -/
theorem pay3ReluG : maximumf (addf (F := Ideal) (φ := .f32) acc (broadcastTo (sh T C) (shapeCast (sh 1 C) b sc) bc))
      (broadcast (sh T C) (Scalar.ofBits (F := Ideal) .f32 0x00000000#32)) (ix2 n q)
    = max (acc (ix2 n q) + b (ix2 (0 : Fin 1) q)) 0 :=
  (maximumf_apply _ _ _).trans (congrArg₂ max (pay3G sc bc acc b n q) Ideal.ofBits_zero_f32)

end

/-- A fold over points a·S + e that restarts at e = 0 and gains f a e at every step holds, at (a, e), the sum of f a over 0..e. -/
theorem tile_run {M : Type*} [AddCommMonoid M] {N : ℕ} (S : ℕ) (A : (n : ℕ) → n < N → M) (f : ℕ → ℕ → M)
    (h0 : ∀ a h, A (a * S) h = f a 0)
    (hs : ∀ a e h, e + 1 < S → A (a * S + (e + 1)) h = A (a * S + e) (Nat.lt_of_succ_lt h) + f a (e + 1))
    (n : ℕ) (h : n < N) (a e : ℕ) (he : e < S) (hn : n = a * S + e) :
    A n h = ∑ k ∈ Finset.range (e + 1), f a k := by
  subst hn
  induction e with
  | zero => exact (h0 a h).trans (Finset.sum_range_one _).symm
  | succ e ih => rw [hs a e h he, ih (Nat.lt_of_succ_lt he) (Nat.lt_of_succ_lt h), Finset.sum_range_succ _ (e + 1)]

/-- The same with points numbered flat: point n is step n mod S of tile n / S. -/
theorem tile_run_mod {M : Type*} [AddCommMonoid M] {N : ℕ} (S : ℕ) (hS : 0 < S) (A : (n : ℕ) → n < N → M) (f : ℕ → ℕ → M)
    (h0 : ∀ n h, n % S = 0 → A n h = f (n / S) (n % S))
    (hs : ∀ n h, ¬n % S = 0 → A n h = A (n - 1) (lt_of_le_of_lt (Nat.sub_le _ _) h) + f (n / S) (n % S))
    (n : ℕ) (h : n < N) : A n h = ∑ k ∈ Finset.range (n % S + 1), f (n / S) k := by
  refine tile_run S A f (fun a h' => ?_) (fun a e h' he => ?_) n h (n / S) (n % S) (Nat.mod_lt _ hS) (Nat.div_add_mod' n S).symm
  · rw [h0 _ h' (Nat.mul_mod_left a S), Nat.mul_div_cancel a hS, Nat.mul_mod_left]
  · obtain ⟨e1, e2⟩ := (Nat.div_mod_unique hS).mpr ⟨by rw [Nat.mul_comm S a, Nat.add_comm], he⟩
    have := hs _ h' (by rw [e2]; exact Nat.succ_ne_zero e)
    rw [e1, e2] at this
    exact this

end Cert.KernelIdeal.Hand
-- ==== Proof.KI.ValS0.lean ====
import proofs.«417880_j4011499454825_1_alg».proof.Proof.KI.Reg0
import proofs.«417880_j4011499454825_1_alg».proof.Proof.KI.ScatterGen

noncomputable section

namespace Cert.KernelIdeal.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

abbrev featArr0 (c : Dev nD) : Vec Ideal S1600000x128 .bf16 := V c (Pipeline.arrRef spec0 0)
abbrev idxArr0 (c : Dev nD) : Vec Ideal S1600000x1 .i32 := V c (Pipeline.arrRef spec0 1)
abbrev biasArr0 (c : Dev nD) : Vec Ideal S1x128 .f32 := V c (Pipeline.arrRef spec0 2)

/-- Point t is step t mod 4000 of tile t / 4000. -/
theorem pt0 (t : Fin cfg0.N) : (grid0.coords t 0).val = t.val / 4000 ∧ win0_0.index t (0 : Fin 2) = t.val % 4000
    ∧ win0_1.index t (0 : Fin 2) = t.val % 4000 ∧ win0_3.index t (0 : Fin 2) = t.val / 4000 := by
  have ht : t.val < 20000 := lt_of_lt_of_eq t.isLt N_0
  have h0 : (grid0.coords t 0).val = t.val / 4000 := by show t.val / 4000 % 5 = t.val / 4000; omega
  have h1 : (grid0.coords t 1).val = t.val % 4000 := by show t.val / 1 % 4000 = t.val % 4000; omega
  exact ⟨h0, (toNat32 (by omega)).trans h1, (toNat32 (by omega)).trans h1, (toNat32 (by omega)).trans h0⟩

theorem feat_blk0 (c : Dev nD) (t : Fin cfg0.N) (e : Fin 400) (q : Fin 128) (h : t.val % 4000 * 400 + e.val < 1600000) :
    iblk0 V c 0 t (ix2 e q) = featArr0 V c (ix2 ⟨t.val % 4000 * 400 + e.val, h⟩ q) := by
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 400 + 1 * e.val = t.val % 4000 * 400 + e.val; rw [(pt0 t).2.1]; omega
  | ⟨1, _⟩ => show 0 * 128 + 1 * q.val = q.val; omega

theorem idx_blk0 (c : Dev nD) (t : Fin cfg0.N) (e : Fin 400) (h : t.val % 4000 * 400 + e.val < 1600000) :
    iblk0 V c 1 t (ix2 e (0 : Fin 1)) = idxArr0 V c (ix2 ⟨t.val % 4000 * 400 + e.val, h⟩ (0 : Fin 1)) := by
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 400 + 1 * e.val = t.val % 4000 * 400 + e.val; rw [(pt0 t).2.2.1]; omega
  | ⟨1, _⟩ => rfl

theorem bias_blk0 (c : Dev nD) (t : Fin cfg0.N) (q : Fin 128) :
    iblk0 V c 2 t (ix2 (0 : Fin 1) q) = biasArr0 V c (ix2 (0 : Fin 1) q) := by
  unfold iblk0
  rw [View.read_apply]
  show V c (Pipeline.arrRef spec0 2) _ = V c (Pipeline.arrRef spec0 2) _
  refine congrArg _ (funext fun a => Fin.ext ?_)
  match a with
  | ⟨0, _⟩ => rfl
  | ⟨1, _⟩ => show 0 * 128 + 1 * q.val = q.val; omega

theorem pay1_0 (n : Fin 20000) (q : Fin 128) : k0_pay1 (F := Ideal) (ix2 n q) = 0 := pay1G (T := 20000) (C := 128) _ n q

theorem hR0 : 4000 * 400 = 1600000 := by norm_num

abbrev hit0 (c : Dev nD) (r : ℕ) (q : Fin 128) : Fin 1600000 → EReal := hitG (idxArr0 V c) (featArr0 V c) r q

/-- One step at point t adds to entry (r, q) of the scratch the share of output row 20000·(t / 4000) + r held by block t mod 4000. -/
theorem upd0_apply (c : Dev nD) (t : Fin cfg0.N) (acc : Vec Ideal S20000x128 .f32) (r : Fin 20000) (q : Fin 128) :
    upd0 (grid0.coords t) (iblk0 V c 1 t) acc (iblk0 V c 0 t) (ix2 r q)
      = acc (ix2 r q) + blockSum 4000 400 hR0 (hit0 V c (t.val / 4000 * 20000 + r.val) q) (t.val % 4000) := by
  have ht : t.val < 20000 := lt_of_lt_of_eq t.isLt N_0
  have hc := (pt0 t).1
  have hr := r.isLt
  unfold upd0
  rw [View.ld_unit_zero (S := S400x1) vec00, View.ld_unit_zero (S := S20000x128) vec00, View.ld_unit_zero (S := S400x128) vec00]
  refine (pay2G (E := 400) (T := 20000) (C := 128) dot_S400x20000_S400x128_S20000x128_0_0_1_1_n_n_wf _ _ _ _ _ _ _ (grid0.coords t 0).val (iblk0 V c 1 t) acc (iblk0 V c 0 t) r q
    (by rw [hc]; omega)).trans (congrArg (acc (ix2 r q) + ·) ?_)
  rw [blockSum_of_lt 4000 400 hR0 _ _ (Nat.mod_lt _ (by norm_num)), hc]
  refine Finset.sum_congr rfl fun e _ => ?_
  have he := e.isLt
  have hi := idx_blk0 V c t e (by omega)
  have hf := feat_blk0 V c t e q (by omega)
  rw [hi, hf]
  rfl

/-- After point t the scratch at (r, q) is the sum of those shares over the blocks 0..t mod 4000. -/
theorem acc0_eq (c : Dev nD) (r : Fin 20000) (q : Fin 128) (t : Fin cfg0.N) :
    accAt0 V c t.val t.isLt (ix2 r q)
      = ∑ e ∈ Finset.range (t.val % 4000 + 1), blockSum 4000 400 hR0 (hit0 V c (t.val / 4000 * 20000 + r.val) q) e :=
  tile_run_mod (M := EReal) 4000 (by norm_num) (fun n h => accAt0 V c n h (ix2 r q))
    (fun a e => blockSum 4000 400 hR0 (hit0 V c (a * 20000 + r.val) q) e)
    (fun n h hm => (congrFun (accAt0_first V c ⟨n, h⟩ hm) (ix2 r q)).trans
      ((upd0_apply V c ⟨n, h⟩ _ r q).trans (by rw [pay1_0, zero_add])))
    (fun n h hm => (congrFun (accAt0_next V c ⟨n, h⟩ hm) (ix2 r q)).trans (upd0_apply V c ⟨n, h⟩ _ r q))
    t.val t.isLt

/-- At the last step of a tile the stored block is the tile's rows of the specification: all 1600000 update rows have been seen. -/
theorem out0_apply (c : Dev nD) (t : Fin cfg0.N) (hl : t.val % 4000 = 3999) (r : Fin 20000) (q : Fin 128)
    (h : t.val / 4000 * 20000 + r.val < 100000) :
    out0_3 (accAt0 V c t.val t.isLt) (iblk0 V c 2 t) (ix2 r q)
      = (scatG (idxArr0 V c) (featArr0 V c) (biasArr0 V c) : Shape.Idx S100000x128 → EReal)
          (ix2 (⟨t.val / 4000 * 20000 + r.val, h⟩ : Fin 100000) q) := by
  unfold out0_3
  rw [View.canon_unit_zero vec00, View.ld_unit_zero (S := S20000x128) vec00, View.ld_unit_zero (S := S1x128) vec00]
  refine (pay3G (T := 20000) (C := 128) _ _ _ _ r q).trans ?_
  refine Eq.trans ?_ (scatG_apply (idxArr0 V c) (featArr0 V c) (biasArr0 V c) (⟨t.val / 4000 * 20000 + r.val, h⟩ : Fin 100000) q).symm
  refine congrArg₂ (· + ·) ((acc0_eq V c r q t).trans ?_) (bias_blk0 V c t q)
  rw [hl]
  exact sum_blockSum 4000 400 hR0 (hit0 V c (t.val / 4000 * 20000 + r.val) q)

theorem cut0_3_apply (t : Fin cfg0.N) (X : Vec Ideal S20000x128 .f32) (r : Fin 20000) (q : Fin 128) :
    (cfg0.win 3).cut (grid0.coords t) X (ix2 r q) = X (ix2 r q) := by
  show X ((cfg0.win 3).xinj (grid0.coords t) (ix2 r q)) = X (ix2 r q)
  refine congrArg X (funext fun a => Fin.ext ?_)
  match a with
  | ⟨0, _⟩ => rfl
  | ⟨1, _⟩ => rfl

theorem read0_3_apply (t : Fin cfg0.N) (G : Vec Ideal S100000x128 .f32) (r : Fin 20000) (q : Fin 128) :
    ((cfg0.win 3).blk t).view.read (Elt Ideal) G (ix2 r q) = G (((cfg0.win 3).blk t).view.emb (ix2 r q)) := by
  rw [View.read_apply]
  rfl

theorem flushed0_eq (c : Dev nD) (t : Fin cfg0.N) (hf : (cfg0.win 3).flush t = true) :
    (dat0 V c).flushed 3 t
      = ((cfg0.win 3).blk t).view.read (Elt Ideal) (scatG (idxArr0 V c) (featArr0 V c) (biasArr0 V c)) := by
  have hl : t.val % 4000 = 3999 := (flushH0_3 t).mp hf
  have ht : t.val < 20000 := lt_of_lt_of_eq t.isLt N_0
  show (cfg0.win 3).cut (grid0.coords t) ((dat0 V c).after 3 t) = _
  rw [after0_3]
  funext y
  obtain ⟨r, q, rfl⟩ : ∃ (r : Fin 20000) (q : Fin 128), y = ix2 r q := ⟨y 0, y 1, eq_ix2 y⟩
  have hlt : t.val / 4000 * 20000 + r.val < 100000 := by have := r.isLt; omega
  have hk : ((cfg0.win 3).blk t).view.emb (ix2 r q)
      = (ix2 (⟨t.val / 4000 * 20000 + r.val, hlt⟩ : Fin 100000) q : Shape.Idx S100000x128) := by
    funext a; apply Fin.ext
    match a with
    | ⟨0, _⟩ => show win0_3.index t (0 : Fin 2) * 20000 + 1 * r.val = t.val / 4000 * 20000 + r.val; rw [(pt0 t).2.2.2]; omega
    | ⟨1, _⟩ => show 0 * 128 + 1 * q.val = q.val; omega
  refine (cut0_3_apply t _ r q).trans ((out0_apply V c t hl r q hlt).trans ?_)
  refine Eq.trans ?_ (read0_3_apply t _ r q).symm
  exact congrArg _ hk.symm

theorem arr0 (c : Dev nD) :
    (dat0 (F := Ideal) V c).arrAt 3 cfg0.N = scatG (idxArr0 V c) (featArr0 V c) (biasArr0 V c) :=
  (dat0 V c).arrAt_eq_of_cover 3 _ (flushed0_eq V c) fun i => by
    have hi0 : (i 0).val < 100000 := (i 0).isLt
    have hi1 : (i 1).val < 128 := (i 1).isLt
    have hN : cfg0.N = 20000 := N_0
    obtain ⟨t, ht⟩ : ∃ t : Fin cfg0.N, t.val = (i 0).val / 20000 * 4000 + 3999 :=
      ⟨⟨(i 0).val / 20000 * 4000 + 3999, by rw [hN]; omega⟩, rfl⟩
    refine ⟨t, (flushH0_3 t).mpr (by rw [ht]; omega), ?_⟩
    show i ∈ ((View.whole main_v44).slice (win0_3.rect t)).set
    rw [View.set_slice_whole, Rect.mem_set_unit]
    intro a
    match a with
    | ⟨0, _⟩ =>
      show win0_3.index t (0 : Fin 2) * 20000 ≤ (i 0).val ∧ (i 0).val < win0_3.index t (0 : Fin 2) * 20000 + 20000
      rw [(pt0 t).2.2.2, ht]
      omega
    | ⟨1, _⟩ =>
      show 0 * 128 ≤ (i 1).val ∧ (i 1).val < 0 * 128 + 128
      omega

end Cert.KernelIdeal.Hand
-- ==== Proof.KI.ValS2.lean ====
import proofs.«417880_j4011499454825_1_alg».proof.Proof.KI.Reg2
import proofs.«417880_j4011499454825_1_alg».proof.Proof.KI.ScatterGen

noncomputable section

namespace Cert.KernelIdeal.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

abbrev featArr2 (c : Dev nD) : Vec Ideal S1700000x128 .bf16 := V c (Pipeline.arrRef spec2 0)
abbrev idxArr2 (c : Dev nD) : Vec Ideal S1700000x1 .i32 := V c (Pipeline.arrRef spec2 1)
abbrev biasArr2 (c : Dev nD) : Vec Ideal S1x128 .f32 := V c (Pipeline.arrRef spec2 2)

/-- Point t is step t mod 4250 of tile t / 4250. -/
theorem pt2 (t : Fin cfg2.N) : (grid2.coords t 0).val = t.val / 4250 ∧ win2_0.index t (0 : Fin 2) = t.val % 4250
    ∧ win2_1.index t (0 : Fin 2) = t.val % 4250 ∧ win2_3.index t (0 : Fin 2) = t.val / 4250 := by
  have ht : t.val < 21250 := lt_of_lt_of_eq t.isLt N_2
  have h0 : (grid2.coords t 0).val = t.val / 4250 := by show t.val / 4250 % 5 = t.val / 4250; omega
  have h1 : (grid2.coords t 1).val = t.val % 4250 := by show t.val / 1 % 4250 = t.val % 4250; omega
  exact ⟨h0, (toNat32 (by omega)).trans h1, (toNat32 (by omega)).trans h1, (toNat32 (by omega)).trans h0⟩

theorem feat_blk2 (c : Dev nD) (t : Fin cfg2.N) (e : Fin 400) (q : Fin 128) (h : t.val % 4250 * 400 + e.val < 1700000) :
    iblk2 V c 0 t (ix2 e q) = featArr2 V c (ix2 ⟨t.val % 4250 * 400 + e.val, h⟩ q) := by
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 400 + 1 * e.val = t.val % 4250 * 400 + e.val; rw [(pt2 t).2.1]; omega
  | ⟨1, _⟩ => show 0 * 128 + 1 * q.val = q.val; omega

theorem idx_blk2 (c : Dev nD) (t : Fin cfg2.N) (e : Fin 400) (h : t.val % 4250 * 400 + e.val < 1700000) :
    iblk2 V c 1 t (ix2 e (0 : Fin 1)) = idxArr2 V c (ix2 ⟨t.val % 4250 * 400 + e.val, h⟩ (0 : Fin 1)) := by
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 400 + 1 * e.val = t.val % 4250 * 400 + e.val; rw [(pt2 t).2.2.1]; omega
  | ⟨1, _⟩ => rfl

theorem bias_blk2 (c : Dev nD) (t : Fin cfg2.N) (q : Fin 128) :
    iblk2 V c 2 t (ix2 (0 : Fin 1) q) = biasArr2 V c (ix2 (0 : Fin 1) q) := by
  unfold iblk2
  rw [View.read_apply]
  show V c (Pipeline.arrRef spec2 2) _ = V c (Pipeline.arrRef spec2 2) _
  refine congrArg _ (funext fun a => Fin.ext ?_)
  match a with
  | ⟨0, _⟩ => rfl
  | ⟨1, _⟩ => show 0 * 128 + 1 * q.val = q.val; omega

theorem pay1_2 (n : Fin 20000) (q : Fin 128) : k2_pay1 (F := Ideal) (ix2 n q) = 0 := pay1G (T := 20000) (C := 128) _ n q

theorem hR2 : 4250 * 400 = 1700000 := by norm_num

abbrev hit2 (c : Dev nD) (r : ℕ) (q : Fin 128) : Fin 1700000 → EReal := hitG (idxArr2 V c) (featArr2 V c) r q

/-- One step at point t adds to entry (r, q) of the scratch the share of output row 20000·(t / 4250) + r held by block t mod 4250. -/
theorem upd2_apply (c : Dev nD) (t : Fin cfg2.N) (acc : Vec Ideal S20000x128 .f32) (r : Fin 20000) (q : Fin 128) :
    upd2 (grid2.coords t) (iblk2 V c 1 t) acc (iblk2 V c 0 t) (ix2 r q)
      = acc (ix2 r q) + blockSum 4250 400 hR2 (hit2 V c (t.val / 4250 * 20000 + r.val) q) (t.val % 4250) := by
  have ht : t.val < 21250 := lt_of_lt_of_eq t.isLt N_2
  have hc := (pt2 t).1
  have hr := r.isLt
  unfold upd2
  rw [View.ld_unit_zero (S := S400x1) vec00, View.ld_unit_zero (S := S20000x128) vec00, View.ld_unit_zero (S := S400x128) vec00]
  refine (pay2G (E := 400) (T := 20000) (C := 128) dot_S400x20000_S400x128_S20000x128_0_0_1_1_n_n_wf _ _ _ _ _ _ _ (grid2.coords t 0).val (iblk2 V c 1 t) acc (iblk2 V c 0 t) r q
    (by rw [hc]; omega)).trans (congrArg (acc (ix2 r q) + ·) ?_)
  rw [blockSum_of_lt 4250 400 hR2 _ _ (Nat.mod_lt _ (by norm_num)), hc]
  refine Finset.sum_congr rfl fun e _ => ?_
  have he := e.isLt
  have hi := idx_blk2 V c t e (by omega)
  have hf := feat_blk2 V c t e q (by omega)
  rw [hi, hf]
  rfl

/-- After point t the scratch at (r, q) is the sum of those shares over the blocks 0..t mod 4250. -/
theorem acc2_eq (c : Dev nD) (r : Fin 20000) (q : Fin 128) (t : Fin cfg2.N) :
    accAt2 V c t.val t.isLt (ix2 r q)
      = ∑ e ∈ Finset.range (t.val % 4250 + 1), blockSum 4250 400 hR2 (hit2 V c (t.val / 4250 * 20000 + r.val) q) e :=
  tile_run_mod (M := EReal) 4250 (by norm_num) (fun n h => accAt2 V c n h (ix2 r q))
    (fun a e => blockSum 4250 400 hR2 (hit2 V c (a * 20000 + r.val) q) e)
    (fun n h hm => (congrFun (accAt2_first V c ⟨n, h⟩ hm) (ix2 r q)).trans
      ((upd2_apply V c ⟨n, h⟩ _ r q).trans (by rw [pay1_2, zero_add])))
    (fun n h hm => (congrFun (accAt2_next V c ⟨n, h⟩ hm) (ix2 r q)).trans (upd2_apply V c ⟨n, h⟩ _ r q))
    t.val t.isLt

/-- At the last step of a tile the stored block is the tile's rows of the specification: all 1700000 update rows have been seen. -/
theorem out2_apply (c : Dev nD) (t : Fin cfg2.N) (hl : t.val % 4250 = 4249) (r : Fin 20000) (q : Fin 128)
    (h : t.val / 4250 * 20000 + r.val < 100000) :
    out2_3 (accAt2 V c t.val t.isLt) (iblk2 V c 2 t) (ix2 r q)
      = (scatGRelu (idxArr2 V c) (featArr2 V c) (biasArr2 V c) : Shape.Idx S100000x128 → EReal)
          (ix2 (⟨t.val / 4250 * 20000 + r.val, h⟩ : Fin 100000) q) := by
  unfold out2_3
  rw [View.canon_unit_zero vec00, View.ld_unit_zero (S := S20000x128) vec00, View.ld_unit_zero (S := S1x128) vec00]
  refine (pay3ReluG (T := 20000) (C := 128) _ _ _ _ r q).trans (congrArg (max · 0) ?_)
  refine Eq.trans ?_ (scatG_apply (idxArr2 V c) (featArr2 V c) (biasArr2 V c) (⟨t.val / 4250 * 20000 + r.val, h⟩ : Fin 100000) q).symm
  refine congrArg₂ (· + ·) ((acc2_eq V c r q t).trans ?_) (bias_blk2 V c t q)
  rw [hl]
  exact sum_blockSum 4250 400 hR2 (hit2 V c (t.val / 4250 * 20000 + r.val) q)

theorem cut2_3_apply (t : Fin cfg2.N) (X : Vec Ideal S20000x128 .f32) (r : Fin 20000) (q : Fin 128) :
    (cfg2.win 3).cut (grid2.coords t) X (ix2 r q) = X (ix2 r q) := by
  show X ((cfg2.win 3).xinj (grid2.coords t) (ix2 r q)) = X (ix2 r q)
  refine congrArg X (funext fun a => Fin.ext ?_)
  match a with
  | ⟨0, _⟩ => rfl
  | ⟨1, _⟩ => rfl

theorem read2_3_apply (t : Fin cfg2.N) (G : Vec Ideal S100000x128 .f32) (r : Fin 20000) (q : Fin 128) :
    ((cfg2.win 3).blk t).view.read (Elt Ideal) G (ix2 r q) = G (((cfg2.win 3).blk t).view.emb (ix2 r q)) := by
  rw [View.read_apply]
  rfl

theorem flushed2_eq (c : Dev nD) (t : Fin cfg2.N) (hf : (cfg2.win 3).flush t = true) :
    (dat2 V c).flushed 3 t
      = ((cfg2.win 3).blk t).view.read (Elt Ideal) (scatGRelu (idxArr2 V c) (featArr2 V c) (biasArr2 V c)) := by
  have hl : t.val % 4250 = 4249 := (flushH2_3 t).mp hf
  have ht : t.val < 21250 := lt_of_lt_of_eq t.isLt N_2
  show (cfg2.win 3).cut (grid2.coords t) ((dat2 V c).after 3 t) = _
  rw [after2_3]
  funext y
  obtain ⟨r, q, rfl⟩ : ∃ (r : Fin 20000) (q : Fin 128), y = ix2 r q := ⟨y 0, y 1, eq_ix2 y⟩
  have hlt : t.val / 4250 * 20000 + r.val < 100000 := by have := r.isLt; omega
  have hk : ((cfg2.win 3).blk t).view.emb (ix2 r q)
      = (ix2 (⟨t.val / 4250 * 20000 + r.val, hlt⟩ : Fin 100000) q : Shape.Idx S100000x128) := by
    funext a; apply Fin.ext
    match a with
    | ⟨0, _⟩ => show win2_3.index t (0 : Fin 2) * 20000 + 1 * r.val = t.val / 4250 * 20000 + r.val; rw [(pt2 t).2.2.2]; omega
    | ⟨1, _⟩ => show 0 * 128 + 1 * q.val = q.val; omega
  refine (cut2_3_apply t _ r q).trans ((out2_apply V c t hl r q hlt).trans ?_)
  refine Eq.trans ?_ (read2_3_apply t _ r q).symm
  exact congrArg _ hk.symm

theorem arr2 (c : Dev nD) :
    (dat2 (F := Ideal) V c).arrAt 3 cfg2.N = scatGRelu (idxArr2 V c) (featArr2 V c) (biasArr2 V c) :=
  (dat2 V c).arrAt_eq_of_cover 3 _ (flushed2_eq V c) fun i => by
    have hi0 : (i 0).val < 100000 := (i 0).isLt
    have hi1 : (i 1).val < 128 := (i 1).isLt
    have hN : cfg2.N = 21250 := N_2
    obtain ⟨t, ht⟩ : ∃ t : Fin cfg2.N, t.val = (i 0).val / 20000 * 4250 + 4249 :=
      ⟨⟨(i 0).val / 20000 * 4250 + 4249, by rw [hN]; omega⟩, rfl⟩
    refine ⟨t, (flushH2_3 t).mpr (by rw [ht]; omega), ?_⟩
    show i ∈ ((View.whole main_v63).slice (win2_3.rect t)).set
    rw [View.set_slice_whole, Rect.mem_set_unit]
    intro a
    match a with
    | ⟨0, _⟩ =>
      show win2_3.index t (0 : Fin 2) * 20000 ≤ (i 0).val ∧ (i 0).val < win2_3.index t (0 : Fin 2) * 20000 + 20000
      rw [(pt2 t).2.2.2, ht]
      omega
    | ⟨1, _⟩ =>
      show 0 * 128 ≤ (i 1).val ∧ (i 1).val < 0 * 128 + 128
      omega

end Cert.KernelIdeal.Hand
-- ==== Proof.KI.ValS4.lean ====
import proofs.«417880_j4011499454825_1_alg».proof.Proof.KI.Reg4
import proofs.«417880_j4011499454825_1_alg».proof.Proof.KI.ScatterGen

noncomputable section

namespace Cert.KernelIdeal.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

abbrev featArr4 (c : Dev nD) : Vec Ideal S1700000x128 .bf16 := V c (Pipeline.arrRef spec4 0)
abbrev idxArr4 (c : Dev nD) : Vec Ideal S1700000x1 .i32 := V c (Pipeline.arrRef spec4 1)
abbrev biasArr4 (c : Dev nD) : Vec Ideal S1x128 .f32 := V c (Pipeline.arrRef spec4 2)

/-- Point t is step t mod 4250 of tile t / 4250. -/
theorem pt4 (t : Fin cfg4.N) : (grid4.coords t 0).val = t.val / 4250 ∧ win4_0.index t (0 : Fin 2) = t.val % 4250
    ∧ win4_1.index t (0 : Fin 2) = t.val % 4250 ∧ win4_3.index t (0 : Fin 2) = t.val / 4250 := by
  have ht : t.val < 21250 := lt_of_lt_of_eq t.isLt N_4
  have h0 : (grid4.coords t 0).val = t.val / 4250 := by show t.val / 4250 % 5 = t.val / 4250; omega
  have h1 : (grid4.coords t 1).val = t.val % 4250 := by show t.val / 1 % 4250 = t.val % 4250; omega
  exact ⟨h0, (toNat32 (by omega)).trans h1, (toNat32 (by omega)).trans h1, (toNat32 (by omega)).trans h0⟩

theorem feat_blk4 (c : Dev nD) (t : Fin cfg4.N) (e : Fin 400) (q : Fin 128) (h : t.val % 4250 * 400 + e.val < 1700000) :
    iblk4 V c 0 t (ix2 e q) = featArr4 V c (ix2 ⟨t.val % 4250 * 400 + e.val, h⟩ q) := by
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 400 + 1 * e.val = t.val % 4250 * 400 + e.val; rw [(pt4 t).2.1]; omega
  | ⟨1, _⟩ => show 0 * 128 + 1 * q.val = q.val; omega

theorem idx_blk4 (c : Dev nD) (t : Fin cfg4.N) (e : Fin 400) (h : t.val % 4250 * 400 + e.val < 1700000) :
    iblk4 V c 1 t (ix2 e (0 : Fin 1)) = idxArr4 V c (ix2 ⟨t.val % 4250 * 400 + e.val, h⟩ (0 : Fin 1)) := by
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 400 + 1 * e.val = t.val % 4250 * 400 + e.val; rw [(pt4 t).2.2.1]; omega
  | ⟨1, _⟩ => rfl

theorem bias_blk4 (c : Dev nD) (t : Fin cfg4.N) (q : Fin 128) :
    iblk4 V c 2 t (ix2 (0 : Fin 1) q) = biasArr4 V c (ix2 (0 : Fin 1) q) := by
  unfold iblk4
  rw [View.read_apply]
  show V c (Pipeline.arrRef spec4 2) _ = V c (Pipeline.arrRef spec4 2) _
  refine congrArg _ (funext fun a => Fin.ext ?_)
  match a with
  | ⟨0, _⟩ => rfl
  | ⟨1, _⟩ => show 0 * 128 + 1 * q.val = q.val; omega

theorem pay1_4 (n : Fin 20000) (q : Fin 128) : k4_pay1 (F := Ideal) (ix2 n q) = 0 := pay1G (T := 20000) (C := 128) _ n q

theorem hR4 : 4250 * 400 = 1700000 := by norm_num

abbrev hit4 (c : Dev nD) (r : ℕ) (q : Fin 128) : Fin 1700000 → EReal := hitG (idxArr4 V c) (featArr4 V c) r q

/-- One step at point t adds to entry (r, q) of the scratch the share of output row 20000·(t / 4250) + r held by block t mod 4250. -/
theorem upd4_apply (c : Dev nD) (t : Fin cfg4.N) (acc : Vec Ideal S20000x128 .f32) (r : Fin 20000) (q : Fin 128) :
    upd4 (grid4.coords t) (iblk4 V c 1 t) acc (iblk4 V c 0 t) (ix2 r q)
      = acc (ix2 r q) + blockSum 4250 400 hR4 (hit4 V c (t.val / 4250 * 20000 + r.val) q) (t.val % 4250) := by
  have ht : t.val < 21250 := lt_of_lt_of_eq t.isLt N_4
  have hc := (pt4 t).1
  have hr := r.isLt
  unfold upd4
  rw [View.ld_unit_zero (S := S400x1) vec00, View.ld_unit_zero (S := S20000x128) vec00, View.ld_unit_zero (S := S400x128) vec00]
  refine (pay2G (E := 400) (T := 20000) (C := 128) dot_S400x20000_S400x128_S20000x128_0_0_1_1_n_n_wf _ _ _ _ _ _ _ (grid4.coords t 0).val (iblk4 V c 1 t) acc (iblk4 V c 0 t) r q
    (by rw [hc]; omega)).trans (congrArg (acc (ix2 r q) + ·) ?_)
  rw [blockSum_of_lt 4250 400 hR4 _ _ (Nat.mod_lt _ (by norm_num)), hc]
  refine Finset.sum_congr rfl fun e _ => ?_
  have he := e.isLt
  have hi := idx_blk4 V c t e (by omega)
  have hf := feat_blk4 V c t e q (by omega)
  rw [hi, hf]
  rfl

/-- After point t the scratch at (r, q) is the sum of those shares over the blocks 0..t mod 4250. -/
theorem acc4_eq (c : Dev nD) (r : Fin 20000) (q : Fin 128) (t : Fin cfg4.N) :
    accAt4 V c t.val t.isLt (ix2 r q)
      = ∑ e ∈ Finset.range (t.val % 4250 + 1), blockSum 4250 400 hR4 (hit4 V c (t.val / 4250 * 20000 + r.val) q) e :=
  tile_run_mod (M := EReal) 4250 (by norm_num) (fun n h => accAt4 V c n h (ix2 r q))
    (fun a e => blockSum 4250 400 hR4 (hit4 V c (a * 20000 + r.val) q) e)
    (fun n h hm => (congrFun (accAt4_first V c ⟨n, h⟩ hm) (ix2 r q)).trans
      ((upd4_apply V c ⟨n, h⟩ _ r q).trans (by rw [pay1_4, zero_add])))
    (fun n h hm => (congrFun (accAt4_next V c ⟨n, h⟩ hm) (ix2 r q)).trans (upd4_apply V c ⟨n, h⟩ _ r q))
    t.val t.isLt

/-- At the last step of a tile the stored block is the tile's rows of the specification: all 1700000 update rows have been seen. -/
theorem out4_apply (c : Dev nD) (t : Fin cfg4.N) (hl : t.val % 4250 = 4249) (r : Fin 20000) (q : Fin 128)
    (h : t.val / 4250 * 20000 + r.val < 100000) :
    out4_3 (accAt4 V c t.val t.isLt) (iblk4 V c 2 t) (ix2 r q)
      = (scatGRelu (idxArr4 V c) (featArr4 V c) (biasArr4 V c) : Shape.Idx S100000x128 → EReal)
          (ix2 (⟨t.val / 4250 * 20000 + r.val, h⟩ : Fin 100000) q) := by
  unfold out4_3
  rw [View.canon_unit_zero vec00, View.ld_unit_zero (S := S20000x128) vec00, View.ld_unit_zero (S := S1x128) vec00]
  refine (pay3ReluG (T := 20000) (C := 128) _ _ _ _ r q).trans (congrArg (max · 0) ?_)
  refine Eq.trans ?_ (scatG_apply (idxArr4 V c) (featArr4 V c) (biasArr4 V c) (⟨t.val / 4250 * 20000 + r.val, h⟩ : Fin 100000) q).symm
  refine congrArg₂ (· + ·) ((acc4_eq V c r q t).trans ?_) (bias_blk4 V c t q)
  rw [hl]
  exact sum_blockSum 4250 400 hR4 (hit4 V c (t.val / 4250 * 20000 + r.val) q)

theorem cut4_3_apply (t : Fin cfg4.N) (X : Vec Ideal S20000x128 .f32) (r : Fin 20000) (q : Fin 128) :
    (cfg4.win 3).cut (grid4.coords t) X (ix2 r q) = X (ix2 r q) := by
  show X ((cfg4.win 3).xinj (grid4.coords t) (ix2 r q)) = X (ix2 r q)
  refine congrArg X (funext fun a => Fin.ext ?_)
  match a with
  | ⟨0, _⟩ => rfl
  | ⟨1, _⟩ => rfl

theorem read4_3_apply (t : Fin cfg4.N) (G : Vec Ideal S100000x128 .f32) (r : Fin 20000) (q : Fin 128) :
    ((cfg4.win 3).blk t).view.read (Elt Ideal) G (ix2 r q) = G (((cfg4.win 3).blk t).view.emb (ix2 r q)) := by
  rw [View.read_apply]
  rfl

theorem flushed4_eq (c : Dev nD) (t : Fin cfg4.N) (hf : (cfg4.win 3).flush t = true) :
    (dat4 V c).flushed 3 t
      = ((cfg4.win 3).blk t).view.read (Elt Ideal) (scatGRelu (idxArr4 V c) (featArr4 V c) (biasArr4 V c)) := by
  have hl : t.val % 4250 = 4249 := (flushH4_3 t).mp hf
  have ht : t.val < 21250 := lt_of_lt_of_eq t.isLt N_4
  show (cfg4.win 3).cut (grid4.coords t) ((dat4 V c).after 3 t) = _
  rw [after4_3]
  funext y
  obtain ⟨r, q, rfl⟩ : ∃ (r : Fin 20000) (q : Fin 128), y = ix2 r q := ⟨y 0, y 1, eq_ix2 y⟩
  have hlt : t.val / 4250 * 20000 + r.val < 100000 := by have := r.isLt; omega
  have hk : ((cfg4.win 3).blk t).view.emb (ix2 r q)
      = (ix2 (⟨t.val / 4250 * 20000 + r.val, hlt⟩ : Fin 100000) q : Shape.Idx S100000x128) := by
    funext a; apply Fin.ext
    match a with
    | ⟨0, _⟩ => show win4_3.index t (0 : Fin 2) * 20000 + 1 * r.val = t.val / 4250 * 20000 + r.val; rw [(pt4 t).2.2.2]; omega
    | ⟨1, _⟩ => show 0 * 128 + 1 * q.val = q.val; omega
  refine (cut4_3_apply t _ r q).trans ((out4_apply V c t hl r q hlt).trans ?_)
  refine Eq.trans ?_ (read4_3_apply t _ r q).symm
  exact congrArg _ hk.symm

theorem arr4 (c : Dev nD) :
    (dat4 (F := Ideal) V c).arrAt 3 cfg4.N = scatGRelu (idxArr4 V c) (featArr4 V c) (biasArr4 V c) :=
  (dat4 V c).arrAt_eq_of_cover 3 _ (flushed4_eq V c) fun i => by
    have hi0 : (i 0).val < 100000 := (i 0).isLt
    have hi1 : (i 1).val < 128 := (i 1).isLt
    have hN : cfg4.N = 21250 := N_4
    obtain ⟨t, ht⟩ : ∃ t : Fin cfg4.N, t.val = (i 0).val / 20000 * 4250 + 4249 :=
      ⟨⟨(i 0).val / 20000 * 4250 + 4249, by rw [hN]; omega⟩, rfl⟩
    refine ⟨t, (flushH4_3 t).mpr (by rw [ht]; omega), ?_⟩
    show i ∈ ((View.whole main_v80).slice (win4_3.rect t)).set
    rw [View.set_slice_whole, Rect.mem_set_unit]
    intro a
    match a with
    | ⟨0, _⟩ =>
      show win4_3.index t (0 : Fin 2) * 20000 ≤ (i 0).val ∧ (i 0).val < win4_3.index t (0 : Fin 2) * 20000 + 20000
      rw [(pt4 t).2.2.2, ht]
      omega
    | ⟨1, _⟩ =>
      show 0 * 128 ≤ (i 1).val ∧ (i 1).val < 0 * 128 + 128
      omega

end Cert.KernelIdeal.Hand
-- ==== Proof.KI.ValS6.lean ====
import proofs.«417880_j4011499454825_1_alg».proof.Proof.KI.Reg6
import proofs.«417880_j4011499454825_1_alg».proof.Proof.KI.ScatterGen

noncomputable section

namespace Cert.KernelIdeal.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

abbrev featArr6 (c : Dev nD) : Vec Ideal S1700000x128 .bf16 := V c (Pipeline.arrRef spec6 0)
abbrev idxArr6 (c : Dev nD) : Vec Ideal S1700000x1 .i32 := V c (Pipeline.arrRef spec6 1)
abbrev biasArr6 (c : Dev nD) : Vec Ideal S1x128 .f32 := V c (Pipeline.arrRef spec6 2)

/-- Point t is step t mod 4250 of tile t / 4250. -/
theorem pt6 (t : Fin cfg6.N) : (grid6.coords t 0).val = t.val / 4250 ∧ win6_0.index t (0 : Fin 2) = t.val % 4250
    ∧ win6_1.index t (0 : Fin 2) = t.val % 4250 ∧ win6_3.index t (0 : Fin 2) = t.val / 4250 := by
  have ht : t.val < 21250 := lt_of_lt_of_eq t.isLt N_6
  have h0 : (grid6.coords t 0).val = t.val / 4250 := by show t.val / 4250 % 5 = t.val / 4250; omega
  have h1 : (grid6.coords t 1).val = t.val % 4250 := by show t.val / 1 % 4250 = t.val % 4250; omega
  exact ⟨h0, (toNat32 (by omega)).trans h1, (toNat32 (by omega)).trans h1, (toNat32 (by omega)).trans h0⟩

theorem feat_blk6 (c : Dev nD) (t : Fin cfg6.N) (e : Fin 400) (q : Fin 128) (h : t.val % 4250 * 400 + e.val < 1700000) :
    iblk6 V c 0 t (ix2 e q) = featArr6 V c (ix2 ⟨t.val % 4250 * 400 + e.val, h⟩ q) := by
  unfold iblk6
  rw [View.read_apply]
  show V c (Pipeline.arrRef spec6 0) _ = V c (Pipeline.arrRef spec6 0) _
  refine congrArg _ (funext fun a => Fin.ext ?_)
  match a with
  | ⟨0, _⟩ => show win6_0.index t (0 : Fin 2) * 400 + 1 * e.val = t.val % 4250 * 400 + e.val; rw [(pt6 t).2.1]; omega
  | ⟨1, _⟩ => show 0 * 128 + 1 * q.val = q.val; omega

theorem idx_blk6 (c : Dev nD) (t : Fin cfg6.N) (e : Fin 400) (h : t.val % 4250 * 400 + e.val < 1700000) :
    iblk6 V c 1 t (ix2 e (0 : Fin 1)) = idxArr6 V c (ix2 ⟨t.val % 4250 * 400 + e.val, h⟩ (0 : Fin 1)) := by
  unfold iblk6
  rw [View.read_apply]
  show V c (Pipeline.arrRef spec6 1) _ = V c (Pipeline.arrRef spec6 1) _
  refine congrArg _ (funext fun a => Fin.ext ?_)
  match a with
  | ⟨0, _⟩ => show win6_1.index t (0 : Fin 2) * 400 + 1 * e.val = t.val % 4250 * 400 + e.val; rw [(pt6 t).2.2.1]; omega
  | ⟨1, _⟩ => rfl

theorem bias_blk6 (c : Dev nD) (t : Fin cfg6.N) (q : Fin 128) :
    iblk6 V c 2 t (ix2 (0 : Fin 1) q) = biasArr6 V c (ix2 (0 : Fin 1) q) := by
  unfold iblk6
  rw [View.read_apply]
  show V c (Pipeline.arrRef spec6 2) _ = V c (Pipeline.arrRef spec6 2) _
  refine congrArg _ (funext fun a => Fin.ext ?_)
  match a with
  | ⟨0, _⟩ => rfl
  | ⟨1, _⟩ => show 0 * 128 + 1 * q.val = q.val; omega

theorem pay1_6 (n : Fin 20000) (q : Fin 128) : k6_pay1 (F := Ideal) (ix2 n q) = 0 := pay1G (T := 20000) (C := 128) _ n q

theorem hR6 : 4250 * 400 = 1700000 := by norm_num

abbrev hit6 (c : Dev nD) (r : ℕ) (q : Fin 128) : Fin 1700000 → EReal := hitG (idxArr6 V c) (featArr6 V c) r q

/-- One step at point t adds to entry (r, q) of the scratch the share of output row 20000·(t / 4250) + r held by block t mod 4250. -/
theorem upd6_apply (c : Dev nD) (t : Fin cfg6.N) (acc : Vec Ideal S20000x128 .f32) (r : Fin 20000) (q : Fin 128) :
    upd6 (grid6.coords t) (iblk6 V c 1 t) acc (iblk6 V c 0 t) (ix2 r q)
      = acc (ix2 r q) + blockSum 4250 400 hR6 (hit6 V c (t.val / 4250 * 20000 + r.val) q) (t.val % 4250) := by
  have ht : t.val < 21250 := lt_of_lt_of_eq t.isLt N_6
  have hc := (pt6 t).1
  have hr := r.isLt
  unfold upd6
  rw [View.ld_unit_zero (S := S400x1) vec00, View.ld_unit_zero (S := S20000x128) vec00, View.ld_unit_zero (S := S400x128) vec00]
  refine (pay2G (E := 400) (T := 20000) (C := 128) dot_S400x20000_S400x128_S20000x128_0_0_1_1_n_n_wf _ _ _ _ _ _ _ (grid6.coords t 0).val (iblk6 V c 1 t) acc (iblk6 V c 0 t) r q
    (by rw [hc]; omega)).trans (congrArg (acc (ix2 r q) + ·) ?_)
  rw [blockSum_of_lt 4250 400 hR6 _ _ (Nat.mod_lt _ (by norm_num)), hc]
  refine Finset.sum_congr rfl fun e _ => ?_
  have he := e.isLt
  have hi := idx_blk6 V c t e (by omega)
  have hf := feat_blk6 V c t e q (by omega)
  rw [hi, hf]
  rfl

/-- After point t the scratch at (r, q) is the sum of those shares over the blocks 0..t mod 4250. -/
theorem acc6_eq (c : Dev nD) (r : Fin 20000) (q : Fin 128) (t : Fin cfg6.N) :
    accAt6 V c t.val t.isLt (ix2 r q)
      = ∑ e ∈ Finset.range (t.val % 4250 + 1), blockSum 4250 400 hR6 (hit6 V c (t.val / 4250 * 20000 + r.val) q) e :=
  tile_run_mod (M := EReal) 4250 (by norm_num) (fun n h => accAt6 V c n h (ix2 r q))
    (fun a e => blockSum 4250 400 hR6 (hit6 V c (a * 20000 + r.val) q) e)
    (fun n h hm => (congrFun (accAt6_first V c ⟨n, h⟩ hm) (ix2 r q)).trans
      ((upd6_apply V c ⟨n, h⟩ _ r q).trans (by rw [pay1_6, zero_add])))
    (fun n h hm => (congrFun (accAt6_next V c ⟨n, h⟩ hm) (ix2 r q)).trans (upd6_apply V c ⟨n, h⟩ _ r q))
    t.val t.isLt

/-- At the last step of a tile the stored block is the tile's rows of the specification: all 1700000 update rows have been seen. -/
theorem out6_apply (c : Dev nD) (t : Fin cfg6.N) (hl : t.val % 4250 = 4249) (r : Fin 20000) (q : Fin 128)
    (h : t.val / 4250 * 20000 + r.val < 100000) :
    out6_3 (accAt6 V c t.val t.isLt) (iblk6 V c 2 t) (ix2 r q)
      = (scatG (idxArr6 V c) (featArr6 V c) (biasArr6 V c) : Shape.Idx S100000x128 → EReal)
          (ix2 (⟨t.val / 4250 * 20000 + r.val, h⟩ : Fin 100000) q) := by
  unfold out6_3
  rw [View.canon_unit_zero vec00, View.ld_unit_zero (S := S20000x128) vec00, View.ld_unit_zero (S := S1x128) vec00]
  refine (pay3G (T := 20000) (C := 128) _ _ _ _ r q).trans ?_
  refine Eq.trans ?_ (scatG_apply (idxArr6 V c) (featArr6 V c) (biasArr6 V c) (⟨t.val / 4250 * 20000 + r.val, h⟩ : Fin 100000) q).symm
  refine congrArg₂ (· + ·) ((acc6_eq V c r q t).trans ?_) (bias_blk6 V c t q)
  rw [hl]
  exact sum_blockSum 4250 400 hR6 (hit6 V c (t.val / 4250 * 20000 + r.val) q)

theorem cut6_3_apply (t : Fin cfg6.N) (X : Vec Ideal S20000x128 .f32) (r : Fin 20000) (q : Fin 128) :
    (cfg6.win 3).cut (grid6.coords t) X (ix2 r q) = X (ix2 r q) := by
  show X ((cfg6.win 3).xinj (grid6.coords t) (ix2 r q)) = X (ix2 r q)
  refine congrArg X (funext fun a => Fin.ext ?_)
  match a with
  | ⟨0, _⟩ => rfl
  | ⟨1, _⟩ => rfl

theorem read6_3_apply (t : Fin cfg6.N) (G : Vec Ideal S100000x128 .f32) (r : Fin 20000) (q : Fin 128) :
    ((cfg6.win 3).blk t).view.read (Elt Ideal) G (ix2 r q) = G (((cfg6.win 3).blk t).view.emb (ix2 r q)) := by
  rw [View.read_apply]
  rfl

theorem flushed6_eq (c : Dev nD) (t : Fin cfg6.N) (hf : (cfg6.win 3).flush t = true) :
    (dat6 V c).flushed 3 t
      = ((cfg6.win 3).blk t).view.read (Elt Ideal) (scatG (idxArr6 V c) (featArr6 V c) (biasArr6 V c)) := by
  have hl : t.val % 4250 = 4249 := (flushH6_3 t).mp hf
  have ht : t.val < 21250 := lt_of_lt_of_eq t.isLt N_6
  show (cfg6.win 3).cut (grid6.coords t) ((dat6 V c).after 3 t) = _
  rw [after6_3]
  funext y
  obtain ⟨r, q, rfl⟩ : ∃ (r : Fin 20000) (q : Fin 128), y = ix2 r q := ⟨y 0, y 1, eq_ix2 y⟩
  have hlt : t.val / 4250 * 20000 + r.val < 100000 := by have := r.isLt; omega
  have hk : ((cfg6.win 3).blk t).view.emb (ix2 r q)
      = (ix2 (⟨t.val / 4250 * 20000 + r.val, hlt⟩ : Fin 100000) q : Shape.Idx S100000x128) := by
    funext a; apply Fin.ext
    match a with
    | ⟨0, _⟩ => show win6_3.index t (0 : Fin 2) * 20000 + 1 * r.val = t.val / 4250 * 20000 + r.val; rw [(pt6 t).2.2.2]; omega
    | ⟨1, _⟩ => show 0 * 128 + 1 * q.val = q.val; omega
  refine (cut6_3_apply t _ r q).trans ((out6_apply V c t hl r q hlt).trans ?_)
  refine Eq.trans ?_ (read6_3_apply t _ r q).symm
  exact congrArg _ hk.symm

theorem arr6 (c : Dev nD) :
    (dat6 (F := Ideal) V c).arrAt 3 cfg6.N = scatG (idxArr6 V c) (featArr6 V c) (biasArr6 V c) :=
  (dat6 V c).arrAt_eq_of_cover 3 _ (flushed6_eq V c) fun i => by
    have hi0 : (i 0).val < 100000 := (i 0).isLt
    have hi1 : (i 1).val < 128 := (i 1).isLt
    have hN : cfg6.N = 21250 := N_6
    obtain ⟨t, ht⟩ : ∃ t : Fin cfg6.N, t.val = (i 0).val / 20000 * 4250 + 4249 :=
      ⟨⟨(i 0).val / 20000 * 4250 + 4249, by rw [hN]; omega⟩, rfl⟩
    refine ⟨t, (flushH6_3 t).mpr (by rw [ht]; omega), ?_⟩
    show i ∈ ((View.whole main_v97).slice (win6_3.rect t)).set
    rw [View.set_slice_whole, Rect.mem_set_unit]
    intro a
    match a with
    | ⟨0, _⟩ =>
      show win6_3.index t (0 : Fin 2) * 20000 ≤ (i 0).val ∧ (i 0).val < win6_3.index t (0 : Fin 2) * 20000 + 20000
      rw [(pt6 t).2.2.2, ht]
      omega
    | ⟨1, _⟩ =>
      show 0 * 128 ≤ (i 1).val ∧ (i 1).val < 0 * 128 + 128
      omega

end Cert.KernelIdeal.Hand
-- ==== Proof.KI.ValS7.lean ====
import proofs.«417880_j4011499454825_1_alg».proof.Proof.KI.Reg7
import proofs.«417880_j4011499454825_1_alg».proof.Proof.KI.ScatterGen

noncomputable section

namespace Cert.KernelIdeal.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

abbrev featArr7 (c : Dev nD) : Vec Ideal S100000x128 .bf16 := V c (Pipeline.arrRef spec7 0)
abbrev idxArr7 (c : Dev nD) : Vec Ideal S100000x1 .i32 := V c (Pipeline.arrRef spec7 1)
abbrev biasArr7 (c : Dev nD) : Vec Ideal S1x128 .f32 := V c (Pipeline.arrRef spec7 2)

/-- Point t is step t mod 5 of tile t / 5. -/
theorem pt7 (t : Fin cfg7.N) : (grid7.coords t 0).val = t.val / 5 ∧ win7_0.index t (0 : Fin 2) = t.val % 5
    ∧ win7_1.index t (0 : Fin 2) = t.val % 5 ∧ win7_3.index t (0 : Fin 2) = t.val / 5 := by
  have ht : t.val < 5 := lt_of_lt_of_eq t.isLt N_7
  have h0 : (grid7.coords t 0).val = t.val / 5 := by show t.val / 5 % 1 = t.val / 5; omega
  have h1 : (grid7.coords t 1).val = t.val % 5 := by show t.val / 1 % 5 = t.val % 5; omega
  exact ⟨h0, (toNat32 (by omega)).trans h1, (toNat32 (by omega)).trans h1, (toNat32 (by omega)).trans h0⟩

theorem feat_blk7 (c : Dev nD) (t : Fin cfg7.N) (e : Fin 20000) (q : Fin 128) (h : t.val % 5 * 20000 + e.val < 100000) :
    iblk7 V c 0 t (ix2 e q) = featArr7 V c (ix2 ⟨t.val % 5 * 20000 + e.val, h⟩ q) := by
  unfold iblk7
  rw [View.read_apply]
  show V c (Pipeline.arrRef spec7 0) _ = V c (Pipeline.arrRef spec7 0) _
  refine congrArg _ (funext fun a => Fin.ext ?_)
  match a with
  | ⟨0, _⟩ => show win7_0.index t (0 : Fin 2) * 20000 + 1 * e.val = t.val % 5 * 20000 + e.val; rw [(pt7 t).2.1]; omega
  | ⟨1, _⟩ => show 0 * 128 + 1 * q.val = q.val; omega

theorem idx_blk7 (c : Dev nD) (t : Fin cfg7.N) (e : Fin 20000) (h : t.val % 5 * 20000 + e.val < 100000) :
    iblk7 V c 1 t (ix2 e (0 : Fin 1)) = idxArr7 V c (ix2 ⟨t.val % 5 * 20000 + e.val, h⟩ (0 : Fin 1)) := by
  unfold iblk7
  rw [View.read_apply]
  show V c (Pipeline.arrRef spec7 1) _ = V c (Pipeline.arrRef spec7 1) _
  refine congrArg _ (funext fun a => Fin.ext ?_)
  match a with
  | ⟨0, _⟩ => show win7_1.index t (0 : Fin 2) * 20000 + 1 * e.val = t.val % 5 * 20000 + e.val; rw [(pt7 t).2.2.1]; omega
  | ⟨1, _⟩ => rfl

theorem bias_blk7 (c : Dev nD) (t : Fin cfg7.N) (q : Fin 128) :
    iblk7 V c 2 t (ix2 (0 : Fin 1) q) = biasArr7 V c (ix2 (0 : Fin 1) q) := by
  unfold iblk7
  rw [View.read_apply]
  show V c (Pipeline.arrRef spec7 2) _ = V c (Pipeline.arrRef spec7 2) _
  refine congrArg _ (funext fun a => Fin.ext ?_)
  match a with
  | ⟨0, _⟩ => rfl
  | ⟨1, _⟩ => show 0 * 128 + 1 * q.val = q.val; omega

theorem pay1_7 (n : Fin 512) (q : Fin 128) : k7_pay1 (F := Ideal) (ix2 n q) = 0 := pay1G (T := 512) (C := 128) _ n q

theorem hR7 : 5 * 20000 = 100000 := by norm_num

abbrev hit7 (c : Dev nD) (r : ℕ) (q : Fin 128) : Fin 100000 → EReal := hitG (idxArr7 V c) (featArr7 V c) r q

/-- One step at point t adds to entry (r, q) of the scratch the share of output row 512·(t / 5) + r held by block t mod 5. -/
theorem upd7_apply (c : Dev nD) (t : Fin cfg7.N) (acc : Vec Ideal S512x128 .f32) (r : Fin 512) (q : Fin 128) :
    upd7 (grid7.coords t) (iblk7 V c 1 t) acc (iblk7 V c 0 t) (ix2 r q)
      = acc (ix2 r q) + blockSum 5 20000 hR7 (hit7 V c (t.val / 5 * 512 + r.val) q) (t.val % 5) := by
  have ht : t.val < 5 := lt_of_lt_of_eq t.isLt N_7
  have hc := (pt7 t).1
  have hr := r.isLt
  unfold upd7
  rw [View.ld_unit_zero (S := S20000x1) vec00, View.ld_unit_zero (S := S512x128) vec00, View.ld_unit_zero (S := S20000x128) vec00]
  refine (pay2G (E := 20000) (T := 512) (C := 128) dot_S20000x512_S20000x128_S512x128_0_0_1_1_n_n_wf _ _ _ _ _ _ _ (grid7.coords t 0).val (iblk7 V c 1 t) acc (iblk7 V c 0 t) r q
    (by rw [hc]; omega)).trans (congrArg (acc (ix2 r q) + ·) ?_)
  rw [blockSum_of_lt 5 20000 hR7 _ _ (Nat.mod_lt _ (by norm_num)), hc]
  refine Finset.sum_congr rfl fun e _ => ?_
  have he := e.isLt
  have hi := idx_blk7 V c t e (by omega)
  have hf := feat_blk7 V c t e q (by omega)
  rw [hi, hf]
  rfl

/-- After point t the scratch at (r, q) is the sum of those shares over the blocks 0..t mod 5. -/
theorem acc7_eq (c : Dev nD) (r : Fin 512) (q : Fin 128) (t : Fin cfg7.N) :
    accAt7 V c t.val t.isLt (ix2 r q)
      = ∑ e ∈ Finset.range (t.val % 5 + 1), blockSum 5 20000 hR7 (hit7 V c (t.val / 5 * 512 + r.val) q) e :=
  tile_run_mod (M := EReal) 5 (by norm_num) (fun n h => accAt7 V c n h (ix2 r q))
    (fun a e => blockSum 5 20000 hR7 (hit7 V c (a * 512 + r.val) q) e)
    (fun n h hm => (congrFun (accAt7_first V c ⟨n, h⟩ hm) (ix2 r q)).trans
      ((upd7_apply V c ⟨n, h⟩ _ r q).trans (by rw [pay1_7, zero_add])))
    (fun n h hm => (congrFun (accAt7_next V c ⟨n, h⟩ hm) (ix2 r q)).trans (upd7_apply V c ⟨n, h⟩ _ r q))
    t.val t.isLt

/-- At the last step of a tile the stored block is the tile's rows of the specification: all 100000 update rows have been seen. -/
theorem out7_apply (c : Dev nD) (t : Fin cfg7.N) (hl : t.val % 5 = 4) (r : Fin 512) (q : Fin 128)
    (h : t.val / 5 * 512 + r.val < 512) :
    out7_3 (accAt7 V c t.val t.isLt) (iblk7 V c 2 t) (ix2 r q)
      = (scatG (idxArr7 V c) (featArr7 V c) (biasArr7 V c) : Shape.Idx S512x128 → EReal)
          (ix2 (⟨t.val / 5 * 512 + r.val, h⟩ : Fin 512) q) := by
  unfold out7_3
  rw [View.canon_unit_zero vec00, View.ld_unit_zero (S := S512x128) vec00, View.ld_unit_zero (S := S1x128) vec00]
  refine (pay3G (T := 512) (C := 128) _ _ _ _ r q).trans ?_
  refine Eq.trans ?_ (scatG_apply (idxArr7 V c) (featArr7 V c) (biasArr7 V c) (⟨t.val / 5 * 512 + r.val, h⟩ : Fin 512) q).symm
  refine congrArg₂ (· + ·) ((acc7_eq V c r q t).trans ?_) (bias_blk7 V c t q)
  rw [hl]
  exact sum_blockSum 5 20000 hR7 (hit7 V c (t.val / 5 * 512 + r.val) q)

theorem cut7_3_apply (t : Fin cfg7.N) (X : Vec Ideal S512x128 .f32) (r : Fin 512) (q : Fin 128) :
    (cfg7.win 3).cut (grid7.coords t) X (ix2 r q) = X (ix2 r q) := by
  show X ((cfg7.win 3).xinj (grid7.coords t) (ix2 r q)) = X (ix2 r q)
  refine congrArg X (funext fun a => Fin.ext ?_)
  match a with
  | ⟨0, _⟩ => rfl
  | ⟨1, _⟩ => rfl

theorem read7_3_apply (t : Fin cfg7.N) (G : Vec Ideal S512x128 .f32) (r : Fin 512) (q : Fin 128) :
    ((cfg7.win 3).blk t).view.read (Elt Ideal) G (ix2 r q) = G (((cfg7.win 3).blk t).view.emb (ix2 r q)) := by
  rw [View.read_apply]
  rfl

theorem flushed7_eq (c : Dev nD) (t : Fin cfg7.N) (hf : (cfg7.win 3).flush t = true) :
    (dat7 V c).flushed 3 t
      = ((cfg7.win 3).blk t).view.read (Elt Ideal) (scatG (idxArr7 V c) (featArr7 V c) (biasArr7 V c)) := by
  have hl : t.val % 5 = 4 := (flushH7_3 t).mp hf
  have ht : t.val < 5 := lt_of_lt_of_eq t.isLt N_7
  show (cfg7.win 3).cut (grid7.coords t) ((dat7 V c).after 3 t) = _
  rw [after7_3]
  funext y
  obtain ⟨r, q, rfl⟩ : ∃ (r : Fin 512) (q : Fin 128), y = ix2 r q := ⟨y 0, y 1, eq_ix2 y⟩
  have hlt : t.val / 5 * 512 + r.val < 512 := by have := r.isLt; omega
  have hk : ((cfg7.win 3).blk t).view.emb (ix2 r q)
      = (ix2 (⟨t.val / 5 * 512 + r.val, hlt⟩ : Fin 512) q : Shape.Idx S512x128) := by
    funext a; apply Fin.ext
    match a with
    | ⟨0, _⟩ => show win7_3.index t (0 : Fin 2) * 512 + 1 * r.val = t.val / 5 * 512 + r.val; rw [(pt7 t).2.2.2]; omega
    | ⟨1, _⟩ => show 0 * 128 + 1 * q.val = q.val; omega
  refine (cut7_3_apply t _ r q).trans ((out7_apply V c t hl r q hlt).trans ?_)
  refine Eq.trans ?_ (read7_3_apply t _ r q).symm
  exact congrArg _ hk.symm

theorem arr7 (c : Dev nD) :
    (dat7 (F := Ideal) V c).arrAt 3 cfg7.N = scatG (idxArr7 V c) (featArr7 V c) (biasArr7 V c) :=
  (dat7 V c).arrAt_eq_of_cover 3 _ (flushed7_eq V c) fun i => by
    have hi0 : (i 0).val < 512 := (i 0).isLt
    have hi1 : (i 1).val < 128 := (i 1).isLt
    have hN : cfg7.N = 5 := N_7
    obtain ⟨t, ht⟩ : ∃ t : Fin cfg7.N, t.val = (i 0).val / 512 * 5 + 4 :=
      ⟨⟨(i 0).val / 512 * 5 + 4, by rw [hN]; omega⟩, rfl⟩
    refine ⟨t, (flushH7_3 t).mpr (by rw [ht]; omega), ?_⟩
    show i ∈ ((View.whole main_v102).slice (win7_3.rect t)).set
    rw [View.set_slice_whole, Rect.mem_set_unit]
    intro a
    match a with
    | ⟨0, _⟩ =>
      show win7_3.index t (0 : Fin 2) * 512 ≤ (i 0).val ∧ (i 0).val < win7_3.index t (0 : Fin 2) * 512 + 512
      rw [(pt7 t).2.2.2, ht]
      omega
    | ⟨1, _⟩ =>
      show 0 * 128 ≤ (i 1).val ∧ (i 1).val < 0 * 128 + 128
      omega

end Cert.KernelIdeal.Hand
-- ==== Proof.KI.ValD1.lean ====
import proofs.«417880_j4011499454825_1_alg».proof.Proof.KI.Reg1
import proofs.«417880_j4011499454825_1_alg».proof.Proof.KI.SpecD

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 400000 in
/-- Point `t` has rows `10000·t …` of `x` and of the output, and all of `W` and `b`. -/
theorem flushed1_eq (c : Dev nD) (t : Fin cfg1.N) :
    (dat1 (F := Ideal) V c).flushed 3 t = ((cfg1.win 3).blk t).view.read (Elt Ideal)
      (denseG (M := 100000) (K := 128) (C := 128) (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz2]
  simp only [View.ld_unit_zero (S := S10000x128) hz2, View.ld_unit_zero (S := S128x128) hz2, View.ld_unit_zero (S := S1x128) hz2]
  obtain ⟨e00, e01, e10, e11, e20, e21, e30, e31⟩ := idx_facts1 t
  funext j
  refine (congrFun (densePay_eq 10000 128 128 _ _ _ _ _ _) _).trans (denseG_block _ _ _ _ _ _ _ _ (fun k => ?_) ?_ ?_ ?_)
  · exact congrArg (V c (Pipeline.arrRef spec1 0)) (Shape.idx_ext₂
      (show win1_0.index t (0 : Fin 2) * 10000 + 1 * (j 0).val = win1_3.index t (0 : Fin 2) * 10000 + 1 * (j 0).val by omega)
      (show win1_0.index t (1 : Fin 2) * 128 + 1 * k.val = k.val by omega))
  · exact funext fun z => congrArg (V c (Pipeline.arrRef spec1 1)) (Shape.idx_ext₂
      (show win1_1.index t (0 : Fin 2) * 128 + 1 * (z 0).val = (z 0).val by omega)
      (show win1_1.index t (1 : Fin 2) * 128 + 1 * (z 1).val = (z 1).val by omega))
  · exact funext fun z => congrArg (V c (Pipeline.arrRef spec1 2)) (Shape.idx_ext₂
      (show win1_2.index t (0 : Fin 2) * 1 + 1 * (z 0).val = (z 0).val by omega)
      (show win1_2.index t (1 : Fin 2) * 128 + 1 * (z 1).val = (z 1).val by omega))
  · show (j 1).val = win1_3.index t (1 : Fin 2) * 128 + 1 * (j 1).val; omega

/-- Row `r` lies in the block of point `r / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  have ht : (i 0).val / 10000 < cfg1.N := by rw [hN]; omega
  obtain ⟨-, -, -, -, -, -, (e0 : _ = (i 0).val / 10000), e1⟩ := idx_facts1 ⟨(i 0).val / 10000, ht⟩
  refine ⟨⟨(i 0).val / 10000, ht⟩, (by decide +kernel : ∀ t : Fin grid1.N, win1_3.flush t = true) _, ?_⟩
  show i ∈ ((View.whole main_v49).slice (win1_3.rect ⟨(i 0).val / 10000, ht⟩)).set
  rw [View.set_slice_whole, Rect.mem_set_unit]
  intro a
  match a with
  | ⟨0, _⟩ =>
    show win1_3.index _ (0 : Fin 2) * 10000 ≤ (i 0).val ∧ (i 0).val < win1_3.index _ (0 : Fin 2) * 10000 + 10000
    rw [e0]; omega
  | ⟨1, _⟩ =>
    show win1_3.index _ (1 : Fin 2) * 128 ≤ (i 1).val ∧ (i 1).val < win1_3.index _ (1 : Fin 2) * 128 + 128
    rw [e1]; omega

set_option maxHeartbeats 400000 in
theorem arr1 (c : Dev nD) : (dat1 (F := Ideal) V c).arrAt 3 cfg1.N = denseG (M := 100000) (K := 128) (C := 128) (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.Hand

end
-- ==== Proof.KI.ValD3.lean ====
import proofs.«417880_j4011499454825_1_alg».proof.Proof.KI.Reg3
import proofs.«417880_j4011499454825_1_alg».proof.Proof.KI.SpecD

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 400000 in
/-- Point `t` has rows `10000·t …` of `x` and of the output, and all of `W` and `b`. -/
theorem flushed3_eq (c : Dev nD) (t : Fin cfg3.N) :
    (dat3 (F := Ideal) V c).flushed 3 t = ((cfg3.win 3).blk t).view.read (Elt Ideal)
      (denseG (M := 100000) (K := 128) (C := 128) (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz2]
  simp only [View.ld_unit_zero (S := S10000x128) hz2, View.ld_unit_zero (S := S128x128) hz2, View.ld_unit_zero (S := S1x128) hz2]
  obtain ⟨e00, e01, e10, e11, e20, e21, e30, e31⟩ := idx_facts3 t
  funext j
  refine (congrFun (densePay_eq 10000 128 128 _ _ _ _ _ _) _).trans (denseG_block _ _ _ _ _ _ _ _ (fun k => ?_) ?_ ?_ ?_)
  · exact congrArg (V c (Pipeline.arrRef spec3 0)) (Shape.idx_ext₂
      (show win3_0.index t (0 : Fin 2) * 10000 + 1 * (j 0).val = win3_3.index t (0 : Fin 2) * 10000 + 1 * (j 0).val by omega)
      (show win3_0.index t (1 : Fin 2) * 128 + 1 * k.val = k.val by omega))
  · exact funext fun z => congrArg (V c (Pipeline.arrRef spec3 1)) (Shape.idx_ext₂
      (show win3_1.index t (0 : Fin 2) * 128 + 1 * (z 0).val = (z 0).val by omega)
      (show win3_1.index t (1 : Fin 2) * 128 + 1 * (z 1).val = (z 1).val by omega))
  · exact funext fun z => congrArg (V c (Pipeline.arrRef spec3 2)) (Shape.idx_ext₂
      (show win3_2.index t (0 : Fin 2) * 1 + 1 * (z 0).val = (z 0).val by omega)
      (show win3_2.index t (1 : Fin 2) * 128 + 1 * (z 1).val = (z 1).val by omega))
  · show (j 1).val = win3_3.index t (1 : Fin 2) * 128 + 1 * (j 1).val; omega

/-- Row `r` lies in the block of point `r / 10000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  have ht : (i 0).val / 10000 < cfg3.N := by rw [hN]; omega
  obtain ⟨-, -, -, -, -, -, (e0 : _ = (i 0).val / 10000), e1⟩ := idx_facts3 ⟨(i 0).val / 10000, ht⟩
  refine ⟨⟨(i 0).val / 10000, ht⟩, (by decide +kernel : ∀ t : Fin grid3.N, win3_3.flush t = true) _, ?_⟩
  show i ∈ ((View.whole main_v66).slice (win3_3.rect ⟨(i 0).val / 10000, ht⟩)).set
  rw [View.set_slice_whole, Rect.mem_set_unit]
  intro a
  match a with
  | ⟨0, _⟩ =>
    show win3_3.index _ (0 : Fin 2) * 10000 ≤ (i 0).val ∧ (i 0).val < win3_3.index _ (0 : Fin 2) * 10000 + 10000
    rw [e0]; omega
  | ⟨1, _⟩ =>
    show win3_3.index _ (1 : Fin 2) * 128 ≤ (i 1).val ∧ (i 1).val < win3_3.index _ (1 : Fin 2) * 128 + 128
    rw [e1]; omega

set_option maxHeartbeats 400000 in
theorem arr3 (c : Dev nD) : (dat3 (F := Ideal) V c).arrAt 3 cfg3.N = denseG (M := 100000) (K := 128) (C := 128) (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.Hand

end
-- ==== Proof.KI.ValD5.lean ====
import proofs.«417880_j4011499454825_1_alg».proof.Proof.KI.Reg5
import proofs.«417880_j4011499454825_1_alg».proof.Proof.KI.SpecD

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 400000 in
/-- Point `t` has rows `10000·t …` of `x` and of the output, and all of `W` and `b`. -/
theorem flushed5_eq (c : Dev nD) (t : Fin cfg5.N) :
    (dat5 (F := Ideal) V c).flushed 3 t = ((cfg5.win 3).blk t).view.read (Elt Ideal)
      (denseG (M := 100000) (K := 128) (C := 128) (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero hz2]
  simp only [View.ld_unit_zero (S := S10000x128) hz2, View.ld_unit_zero (S := S128x128) hz2, View.ld_unit_zero (S := S1x128) hz2]
  obtain ⟨e00, e01, e10, e11, e20, e21, e30, e31⟩ := idx_facts5 t
  funext j
  refine (congrFun (densePay_eq 10000 128 128 _ _ _ _ _ _) _).trans (denseG_block _ _ _ _ _ _ _ _ (fun k => ?_) ?_ ?_ ?_)
  · exact congrArg (V c (Pipeline.arrRef spec5 0)) (Shape.idx_ext₂
      (show win5_0.index t (0 : Fin 2) * 10000 + 1 * (j 0).val = win5_3.index t (0 : Fin 2) * 10000 + 1 * (j 0).val by omega)
      (show win5_0.index t (1 : Fin 2) * 128 + 1 * k.val = k.val by omega))
  · exact funext fun z => congrArg (V c (Pipeline.arrRef spec5 1)) (Shape.idx_ext₂
      (show win5_1.index t (0 : Fin 2) * 128 + 1 * (z 0).val = (z 0).val by omega)
      (show win5_1.index t (1 : Fin 2) * 128 + 1 * (z 1).val = (z 1).val by omega))
  · exact funext fun z => congrArg (V c (Pipeline.arrRef spec5 2)) (Shape.idx_ext₂
      (show win5_2.index t (0 : Fin 2) * 1 + 1 * (z 0).val = (z 0).val by omega)
      (show win5_2.index t (1 : Fin 2) * 128 + 1 * (z 1).val = (z 1).val by omega))
  · show (j 1).val = win5_3.index t (1 : Fin 2) * 128 + 1 * (j 1).val; omega

/-- Row `r` lies in the block of point `r / 10000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 10 := N_5
  have ht : (i 0).val / 10000 < cfg5.N := by rw [hN]; omega
  obtain ⟨-, -, -, -, -, -, (e0 : _ = (i 0).val / 10000), e1⟩ := idx_facts5 ⟨(i 0).val / 10000, ht⟩
  refine ⟨⟨(i 0).val / 10000, ht⟩, (by decide +kernel : ∀ t : Fin grid5.N, win5_3.flush t = true) _, ?_⟩
  show i ∈ ((View.whole main_v83).slice (win5_3.rect ⟨(i 0).val / 10000, ht⟩)).set
  rw [View.set_slice_whole, Rect.mem_set_unit]
  intro a
  match a with
  | ⟨0, _⟩ =>
    show win5_3.index _ (0 : Fin 2) * 10000 ≤ (i 0).val ∧ (i 0).val < win5_3.index _ (0 : Fin 2) * 10000 + 10000
    rw [e0]; omega
  | ⟨1, _⟩ =>
    show win5_3.index _ (1 : Fin 2) * 128 ≤ (i 1).val ∧ (i 1).val < win5_3.index _ (1 : Fin 2) * 128 + 128
    rw [e1]; omega

set_option maxHeartbeats 400000 in
theorem arr5 (c : Dev nD) : (dat5 (F := Ideal) V c).arrAt 3 cfg5.N = denseG (M := 100000) (K := 128) (C := 128) (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.KernelIdeal.Hand

end
-- ==== Proof.KI.ValD8.lean ====
import proofs.«417880_j4011499454825_1_alg».proof.Proof.KI.Reg8
import proofs.«417880_j4011499454825_1_alg».proof.Proof.KI.SpecD

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

set_option maxHeartbeats 400000 in
/-- Point `t` has rows `512·t …` of `x` and of the output, and all of `W` and `b`. -/
theorem flushed8_eq (c : Dev nD) (t : Fin cfg8.N) :
    (dat8 (F := Ideal) V c).flushed 3 t = ((cfg8.win 3).blk t).view.read (Elt Ideal)
      (denseReluG (M := 512) (K := 128) (C := 128) (V c (Pipeline.arrRef spec8 0)) (V c (Pipeline.arrRef spec8 1)) (V c (Pipeline.arrRef spec8 2))) := by
  show (cfg8.win 3).cut (grid8.coords t) ((dat8 (F := Ideal) V c).after 3 t) = _
  rw [after8_3]
  unfold out8_3
  rw [View.canon_unit_zero hz2]
  simp only [View.ld_unit_zero (S := S512x128) hz2, View.ld_unit_zero (S := S128x128) hz2, View.ld_unit_zero (S := S1x128) hz2]
  obtain ⟨e00, e01, e10, e11, e20, e21, e30, e31⟩ := idx_facts8 t
  funext j
  refine (congrFun (denseReluPay_eq 512 128 128 _ _ _ _ _ _) _).trans (congrArg (fun s : EReal => max s 0) (denseG_block _ _ _ _ _ _ _ _ (fun k => ?_) ?_ ?_ ?_))
  · exact congrArg (V c (Pipeline.arrRef spec8 0)) (Shape.idx_ext₂
      (show win8_0.index t (0 : Fin 2) * 512 + 1 * (j 0).val = win8_3.index t (0 : Fin 2) * 512 + 1 * (j 0).val by omega)
      (show win8_0.index t (1 : Fin 2) * 128 + 1 * k.val = k.val by omega))
  · exact funext fun z => congrArg (V c (Pipeline.arrRef spec8 1)) (Shape.idx_ext₂
      (show win8_1.index t (0 : Fin 2) * 128 + 1 * (z 0).val = (z 0).val by omega)
      (show win8_1.index t (1 : Fin 2) * 128 + 1 * (z 1).val = (z 1).val by omega))
  · exact funext fun z => congrArg (V c (Pipeline.arrRef spec8 2)) (Shape.idx_ext₂
      (show win8_2.index t (0 : Fin 2) * 1 + 1 * (z 0).val = (z 0).val by omega)
      (show win8_2.index t (1 : Fin 2) * 128 + 1 * (z 1).val = (z 1).val by omega))
  · show (j 1).val = win8_3.index t (1 : Fin 2) * 128 + 1 * (j 1).val; omega

/-- Row `r` lies in the block of point `r / 512`. -/
theorem cover8 (i : S512x128.Idx) : ∃ t : Fin cfg8.N, (cfg8.win 3).flush t = true ∧ i ∈ ((cfg8.win 3).blk t).view.set := by
  have hi0 : (i 0).val < 512 := (i 0).isLt
  have hi1 : (i 1).val < 128 := (i 1).isLt
  have hN : cfg8.N = 1 := N_8
  have ht : (i 0).val / 512 < cfg8.N := by rw [hN]; omega
  obtain ⟨-, -, -, -, -, -, (e0 : _ = (i 0).val / 512), e1⟩ := idx_facts8 ⟨(i 0).val / 512, ht⟩
  refine ⟨⟨(i 0).val / 512, ht⟩, (by decide +kernel : ∀ t : Fin grid8.N, win8_3.flush t = true) _, ?_⟩
  show i ∈ ((View.whole main_v104).slice (win8_3.rect ⟨(i 0).val / 512, ht⟩)).set
  rw [View.set_slice_whole, Rect.mem_set_unit]
  intro a
  match a with
  | ⟨0, _⟩ =>
    show win8_3.index _ (0 : Fin 2) * 512 ≤ (i 0).val ∧ (i 0).val < win8_3.index _ (0 : Fin 2) * 512 + 512
    rw [e0]; omega
  | ⟨1, _⟩ =>
    show win8_3.index _ (1 : Fin 2) * 128 ≤ (i 1).val ∧ (i 1).val < win8_3.index _ (1 : Fin 2) * 128 + 128
    rw [e1]; omega

set_option maxHeartbeats 400000 in
theorem arr8 (c : Dev nD) : (dat8 (F := Ideal) V c).arrAt 3 cfg8.N = denseReluG (M := 512) (K := 128) (C := 128) (V c (Pipeline.arrRef spec8 0)) (V c (Pipeline.arrRef spec8 1)) (V c (Pipeline.arrRef spec8 2)) :=
  (dat8 (F := Ideal) V c).arrAt_eq_of_cover 3 _ (fun t _ => flushed8_eq V c t) cover8

end Cert.KernelIdeal.Hand

end
-- ==== Proof.KI.ValD9.lean ====
import proofs.«417880_j4011499454825_1_alg».proof.Proof.KI.Reg9
import proofs.«417880_j4011499454825_1_alg».proof.Proof.KI.SpecD

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

set_option maxHeartbeats 400000 in
/-- Point `t` has rows `512·t …` of `x` and of the output, and all of `W` and `b`. -/
theorem flushed9_eq (c : Dev nD) (t : Fin cfg9.N) :
    (dat9 (F := Ideal) V c).flushed 3 t = ((cfg9.win 3).blk t).view.read (Elt Ideal)
      (denseG (M := 512) (K := 128) (C := 10) (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero hz2]
  simp only [View.ld_unit_zero (S := S512x128) hz2, View.ld_unit_zero (S := S128x10) hz2, View.ld_unit_zero (S := S1x10) hz2]
  obtain ⟨e00, e01, e10, e11, e20, e21, e30, e31⟩ := idx_facts9 t
  funext j
  refine (congrFun (densePay_eq 512 128 10 _ _ _ _ _ _) _).trans (denseG_block _ _ _ _ _ _ _ _ (fun k => ?_) ?_ ?_ ?_)
  · exact congrArg (V c (Pipeline.arrRef spec9 0)) (Shape.idx_ext₂
      (show win9_0.index t (0 : Fin 2) * 512 + 1 * (j 0).val = win9_3.index t (0 : Fin 2) * 512 + 1 * (j 0).val by omega)
      (show win9_0.index t (1 : Fin 2) * 128 + 1 * k.val = k.val by omega))
  · exact funext fun z => congrArg (V c (Pipeline.arrRef spec9 1)) (Shape.idx_ext₂
      (show win9_1.index t (0 : Fin 2) * 128 + 1 * (z 0).val = (z 0).val by omega)
      (show win9_1.index t (1 : Fin 2) * 10 + 1 * (z 1).val = (z 1).val by omega))
  · exact funext fun z => congrArg (V c (Pipeline.arrRef spec9 2)) (Shape.idx_ext₂
      (show win9_2.index t (0 : Fin 2) * 1 + 1 * (z 0).val = (z 0).val by omega)
      (show win9_2.index t (1 : Fin 2) * 10 + 1 * (z 1).val = (z 1).val by omega))
  · show (j 1).val = win9_3.index t (1 : Fin 2) * 10 + 1 * (j 1).val; omega

/-- Row `r` lies in the block of point `r / 512`. -/
theorem cover9 (i : S512x10.Idx) : ∃ t : Fin cfg9.N, (cfg9.win 3).flush t = true ∧ i ∈ ((cfg9.win 3).blk t).view.set := by
  have hi0 : (i 0).val < 512 := (i 0).isLt
  have hi1 : (i 1).val < 10 := (i 1).isLt
  have hN : cfg9.N = 1 := N_9
  have ht : (i 0).val / 512 < cfg9.N := by rw [hN]; omega
  obtain ⟨-, -, -, -, -, -, (e0 : _ = (i 0).val / 512), e1⟩ := idx_facts9 ⟨(i 0).val / 512, ht⟩
  refine ⟨⟨(i 0).val / 512, ht⟩, (by decide +kernel : ∀ t : Fin grid9.N, win9_3.flush t = true) _, ?_⟩
  show i ∈ ((View.whole main_v106).slice (win9_3.rect ⟨(i 0).val / 512, ht⟩)).set
  rw [View.set_slice_whole, Rect.mem_set_unit]
  intro a
  match a with
  | ⟨0, _⟩ =>
    show win9_3.index _ (0 : Fin 2) * 512 ≤ (i 0).val ∧ (i 0).val < win9_3.index _ (0 : Fin 2) * 512 + 512
    rw [e0]; omega
  | ⟨1, _⟩ =>
    show win9_3.index _ (1 : Fin 2) * 10 ≤ (i 1).val ∧ (i 1).val < win9_3.index _ (1 : Fin 2) * 10 + 10
    rw [e1]; omega

set_option maxHeartbeats 400000 in
theorem arr9 (c : Dev nD) : (dat9 (F := Ideal) V c).arrAt 3 cfg9.N = denseG (M := 512) (K := 128) (C := 10) (V c (Pipeline.arrRef spec9 0)) (V c (Pipeline.arrRef spec9 1)) (V c (Pipeline.arrRef spec9 2)) :=
  (dat9 (F := Ideal) V c).arrAt_eq_of_cover 3 _ (fun t _ => flushed9_eq V c t) cover9

end Cert.KernelIdeal.Hand

end
-- ==== Proof.KI.KerOut.lean ====
import proofs.«417880_j4011499454825_1_alg».proof.Proof.KI.LaunchValue
import proofs.«417880_j4011499454825_1_alg».proof.Proof.KI.Carry
import proofs.«417880_j4011499454825_1_alg».proof.Proof.KI.RegionHost
import proofs.«417880_j4011499454825_1_alg».proof.Proof.KI.ValS0
import proofs.«417880_j4011499454825_1_alg».proof.Proof.KI.ValS2
import proofs.«417880_j4011499454825_1_alg».proof.Proof.KI.ValS4
import proofs.«417880_j4011499454825_1_alg».proof.Proof.KI.ValS6
import proofs.«417880_j4011499454825_1_alg».proof.Proof.KI.ValS7
import proofs.«417880_j4011499454825_1_alg».proof.Proof.KI.ValD1
import proofs.«417880_j4011499454825_1_alg».proof.Proof.KI.ValD3
import proofs.«417880_j4011499454825_1_alg».proof.Proof.KI.ValD5
import proofs.«417880_j4011499454825_1_alg».proof.Proof.KI.ValD8
import proofs.«417880_j4011499454825_1_alg».proof.Proof.KI.ValD9

set_option maxRecDepth 16384

noncomputable section

namespace Cert.KernelIdeal.Hand

open Idealize.ShloMosaic Idealize.ShloMosaic.TcCoe Idealize.ShloMosaic.StableHlo
open Cert.KernelIdeal Cert.KernelIdeal.Gen

variable [Cert.ReferenceIdeal.Facts₀]

theorem congr3 {α β γ δ : Type} (f : α → β → γ → δ) {a a' : α} {b b' : β} {c c' : γ} (ha : a = a') (hb : b = b')
    (hc : c = c') : f a b c = f a' b' c' := by subst ha hb hc; rfl

variable (m : (ℓ : Loc nD τ sig) → Buf (Elt Ideal) ℓ) (c : Dev nD)

abbrev kx0 : FVec Ideal S100000x128 .f32 := x0 (ar0 m c) (ar1 m c) (ar2 m c) (ar3 m c)
abbrev kx1 : FVec Ideal S100000x128 .f32 := reluN (gcn (kx0 m c) (ar5 m c) (ar6 m c) (ar1 m c))
abbrev kx2 : FVec Ideal S100000x128 .f32 := reluN (gcn (kx1 m c) (ar7 m c) (ar8 m c) (ar1 m c))
abbrev kx3 : FVec Ideal S100000x128 .f32 := gcn (kx2 m c) (ar9 m c) (ar10 m c) (ar1 m c)

theorem kept_arg (W : Valuation τ sig (Elt Ideal)) (r : Ref sig .tc)
    (hW : W (Proc.devRef .tc r) = W3 m c (Proc.devRef .tc r))
    (h0 : r ∉ hostOps0_W) (h1 : r ∉ hostOps0_1_W) (h2 : r ∉ hostOps0_2_W) :
    W (Proc.devRef .tc r) = W0 m c (Proc.devRef .tc r) := hW.trans (W3_arg m c r h0 h1 h2)

theorem in0_feat : Vin0 m c main_v40 = truncf .bf16 (feat0 (ar0 m c) (ar1 m c) (ar3 m c)) bitsLt_bf16_f32 :=
  (Vin0_0 m c).trans (s02_v40 (W2 m c) (ar1 m c) (ar0 m c) (ar3 m c) (W2_v1 m c) (W2_arg0 m c) (W2_arg3 m c))
theorem in0_idx : Vin0 m c main_v41 = shapeCast S1600000x1 (dstOf (ar1 m c)) shapeCasts_S1600000_S1600000x1 :=
  (Vin0_1 m c).trans (s02_v41 (W2 m c) (ar1 m c) (W2_v3 m c))
theorem in0_bias : Vin0 m c main_v43 = zeroRow := (Vin0_2 m c).trans (s02_v43 (W2 m c))

theorem out0 : (dat0 (Vin0 m) c).arrAt 3 cfg0.N = nbr0 (ar0 m c) (ar1 m c) (ar3 m c) :=
  (arr0 (Vin0 m) c).trans ((congr3 scatG (in0_idx m c) (in0_feat m c) (in0_bias m c)).trans (reg0_host _ _ _ _ _ _))

theorem W5_v44 : W5 m c (Proc.devRef .tc main_v44) = nbr0 (ar0 m c) (ar1 m c) (ar3 m c) :=
  (W5_of m c main_v44 (by decide)).trans ((W4_out m c).trans (out0 m c))
theorem W4_arg2 : W4 m c (Proc.devRef .tc main_arg2) = ar2 m c :=
  kept_arg m c _ main_arg2 (W4_kept m c main_arg2 (by decide)) (by decide) (by decide) (by decide)
theorem W5_arg0 : W5 m c (Proc.devRef .tc main_arg0) = ar0 m c :=
  kept_arg m c _ main_arg0 (W5_kept m c main_arg0 (by decide)) (by decide) (by decide) (by decide)

theorem in1_0 : Vin1 m c main_v46 = kx0 m c :=
  (Vin1_0 m c).trans (s11_v46 (W5 m c) (ar0 m c) (ar1 m c) (ar2 m c) (ar3 m c)
    (s1_v45 (W4 m c) (ar2 m c) (W4_arg2 m c)) (W5_v44 m c) (W5_arg0 m c))
theorem in1_2 : Vin1 m c main_v48 = zeroRow := (Vin1_2 m c).trans (s12_v48 (W6 m c))

theorem out1 : (dat1 (Vin1 m) c).arrAt 3 cfg1.N = lin (kx0 m c) (ar5 m c) :=
  (arr1 (Vin1 m) c).trans ((congr3 denseG (in1_0 m c) (Vin1_1 m c) (in1_2 m c)).trans (regLin_host _ _ _ _))

theorem W8_v5 : W8 m c (Proc.devRef .tc main_v5) = sfull (ar1 m c) := (W8_kept m c main_v5 (by decide)).trans (W3_v5 m c)
theorem W8_v6 : W8 m c (Proc.devRef .tc main_v6) = dfull (ar1 m c) := (W8_kept m c main_v6 (by decide)).trans (W3_v6 m c)
theorem W8_v29 : W8 m c (Proc.devRef .tc main_v29) = edgeW (ar1 m c) := (W8_kept m c main_v29 (by decide)).trans (W3_v29 m c)
theorem W8_arg6 : W8 m c (Proc.devRef .tc main_arg6) = ar6 m c :=
  kept_arg m c _ main_arg6 (W8_kept m c main_arg6 (by decide)) (by decide) (by decide) (by decide)

theorem in2_feat : Vin2 m c main_v60 = truncf .bf16 (featL (lin (kx0 m c) (ar5 m c)) (ar1 m c)) bitsLt_bf16_f32 :=
  (Vin2_0 m c).trans (s2_v60 (W8 m c) (ar1 m c) _ (W8_v5 m c) (W8_v29 m c) ((W8_out m c).trans (out1 m c)))
theorem in2_idx : Vin2 m c main_v61 = shapeCast S1700000x1 (dfull (ar1 m c)) shapeCasts_S1700000_S1700000x1 :=
  (Vin2_1 m c).trans (s2_v61 (W8 m c) (ar1 m c) (W8_v6 m c))
theorem in2_bias : Vin2 m c main_v62 = shapeCast S1x128 (ar6 m c) shapeCasts_S128_S1x128 :=
  (Vin2_2 m c).trans (s2_v62 (W8 m c) (ar6 m c) (W8_arg6 m c))

theorem out2 : (dat2 (Vin2 m) c).arrAt 3 cfg2.N = kx1 m c :=
  (arr2 (Vin2 m) c).trans ((congr3 scatGRelu (in2_idx m c) (in2_feat m c) (in2_bias m c)).trans (regL_relu_host _ _ _ _ _ _))

theorem in3_2 : Vin3 m c main_v65 = zeroRow := (Vin3_2 m c).trans (s3_v65 (W10 m c))

theorem out3 : (dat3 (Vin3 m) c).arrAt 3 cfg3.N = lin (kx1 m c) (ar7 m c) :=
  (arr3 (Vin3 m) c).trans ((congr3 denseG ((Vin3_0 m c).trans (out2 m c)) (Vin3_1 m c) (in3_2 m c)).trans (regLin_host _ _ _ _))

theorem W12_v5 : W12 m c (Proc.devRef .tc main_v5) = sfull (ar1 m c) := (W12_kept m c main_v5 (by decide)).trans (W3_v5 m c)
theorem W12_v6 : W12 m c (Proc.devRef .tc main_v6) = dfull (ar1 m c) := (W12_kept m c main_v6 (by decide)).trans (W3_v6 m c)
theorem W12_v29 : W12 m c (Proc.devRef .tc main_v29) = edgeW (ar1 m c) := (W12_kept m c main_v29 (by decide)).trans (W3_v29 m c)
theorem W12_arg8 : W12 m c (Proc.devRef .tc main_arg8) = ar8 m c :=
  kept_arg m c _ main_arg8 (W12_kept m c main_arg8 (by decide)) (by decide) (by decide) (by decide)

theorem in4_feat : Vin4 m c main_v77 = truncf .bf16 (featL (lin (kx1 m c) (ar7 m c)) (ar1 m c)) bitsLt_bf16_f32 :=
  (Vin4_0 m c).trans (s4_v77 (W12 m c) (ar1 m c) _ (W12_v5 m c) (W12_v29 m c) ((W12_out m c).trans (out3 m c)))
theorem in4_idx : Vin4 m c main_v78 = shapeCast S1700000x1 (dfull (ar1 m c)) shapeCasts_S1700000_S1700000x1 :=
  (Vin4_1 m c).trans (s4_v78 (W12 m c) (ar1 m c) (W12_v6 m c))
theorem in4_bias : Vin4 m c main_v79 = shapeCast S1x128 (ar8 m c) shapeCasts_S128_S1x128 :=
  (Vin4_2 m c).trans (s4_v79 (W12 m c) (ar8 m c) (W12_arg8 m c))

theorem out4 : (dat4 (Vin4 m) c).arrAt 3 cfg4.N = kx2 m c :=
  (arr4 (Vin4 m) c).trans ((congr3 scatGRelu (in4_idx m c) (in4_feat m c) (in4_bias m c)).trans (regL_relu_host _ _ _ _ _ _))

theorem in5_2 : Vin5 m c main_v82 = zeroRow := (Vin5_2 m c).trans (s5_v82 (W14 m c))

theorem out5 : (dat5 (Vin5 m) c).arrAt 3 cfg5.N = lin (kx2 m c) (ar9 m c) :=
  (arr5 (Vin5 m) c).trans ((congr3 denseG ((Vin5_0 m c).trans (out4 m c)) (Vin5_1 m c) (in5_2 m c)).trans (regLin_host _ _ _ _))

theorem W16_v5 : W16 m c (Proc.devRef .tc main_v5) = sfull (ar1 m c) := (W16_kept m c main_v5 (by decide)).trans (W3_v5 m c)
theorem W16_v6 : W16 m c (Proc.devRef .tc main_v6) = dfull (ar1 m c) := (W16_kept m c main_v6 (by decide)).trans (W3_v6 m c)
theorem W16_v29 : W16 m c (Proc.devRef .tc main_v29) = edgeW (ar1 m c) := (W16_kept m c main_v29 (by decide)).trans (W3_v29 m c)
theorem W16_arg10 : W16 m c (Proc.devRef .tc main_arg10) = ar10 m c :=
  kept_arg m c _ main_arg10 (W16_kept m c main_arg10 (by decide)) (by decide) (by decide) (by decide)

theorem in6_feat : Vin6 m c main_v94 = truncf .bf16 (featL (lin (kx2 m c) (ar9 m c)) (ar1 m c)) bitsLt_bf16_f32 :=
  (Vin6_0 m c).trans (s6_v94 (W16 m c) (ar1 m c) _ (W16_v5 m c) (W16_v29 m c) ((W16_out m c).trans (out5 m c)))
theorem in6_idx : Vin6 m c main_v95 = shapeCast S1700000x1 (dfull (ar1 m c)) shapeCasts_S1700000_S1700000x1 :=
  (Vin6_1 m c).trans (s6_v95 (W16 m c) (ar1 m c) (W16_v6 m c))
theorem in6_bias : Vin6 m c main_v96 = shapeCast S1x128 (ar10 m c) shapeCasts_S128_S1x128 :=
  (Vin6_2 m c).trans (s6_v96 (W16 m c) (ar10 m c) (W16_arg10 m c))

theorem out6 : (dat6 (Vin6 m) c).arrAt 3 cfg6.N = kx3 m c :=
  (arr6 (Vin6 m) c).trans ((congr3 scatG (in6_idx m c) (in6_feat m c) (in6_bias m c)).trans (regL_host _ _ _ _ _ _))

theorem W18_arg4 : W18 m c (Proc.devRef .tc main_arg4) = ar4 m c :=
  kept_arg m c _ main_arg4 (W18_kept m c main_arg4 (by decide)) (by decide) (by decide) (by decide)

theorem in7_feat : Vin7 m c main_v98 = truncf (F := Ideal) .bf16 (kx3 m c) bitsLt_bf16_f32 :=
  (Vin7_0 m c).trans (s7_v98 (W18 m c) _ ((W18_out m c).trans (out6 m c)))
theorem in7_idx : Vin7 m c main_v99 = shapeCast S100000x1 (ar4 m c) shapeCasts_S100000_S100000x1 :=
  (Vin7_1 m c).trans (s7_v99 (W18 m c) (ar4 m c) (W18_arg4 m c))
theorem in7_bias : Vin7 m c main_v101 = zeroRow := (Vin7_2 m c).trans (s7_v101 (W18 m c))

theorem out7 : (dat7 (Vin7 m) c).arrAt 3 cfg7.N = poolG (kx3 m c) (ar4 m c) :=
  (arr7 (Vin7 m) c).trans ((congr3 scatG (in7_idx m c) (in7_feat m c) (in7_bias m c)).trans (regG_host _ _ _ _ _ _))

theorem W20_arg12 : W20 m c (Proc.devRef .tc main_arg12) = ar12 m c :=
  kept_arg m c _ main_arg12 (W20_kept m c main_arg12 (by decide)) (by decide) (by decide) (by decide)
theorem in8_2 : Vin8 m c main_v103 = shapeCast S1x128 (ar12 m c) shapeCasts_S128_S1x128 :=
  (Vin8_2 m c).trans (s8_v103 (W20 m c) (ar12 m c) (W20_arg12 m c))

theorem out8 : (dat8 (Vin8 m) c).arrAt 3 cfg8.N = hid (poolG (kx3 m c) (ar4 m c)) (ar11 m c) (ar12 m c) :=
  (arr8 (Vin8 m) c).trans ((congr3 denseReluG ((Vin8_0 m c).trans (out7 m c)) (Vin8_1 m c) (in8_2 m c)).trans (regHid_host _ _ _ _))

theorem W22_arg14 : W22 m c (Proc.devRef .tc main_arg14) = ar14 m c :=
  kept_arg m c _ main_arg14 (W22_kept m c main_arg14 (by decide)) (by decide) (by decide) (by decide)
theorem in9_2 : Vin9 m c main_v105 = shapeCast S1x10 (ar14 m c) shapeCasts_S10_S1x10 :=
  (Vin9_2 m c).trans (s9_v105 (W22 m c) (ar14 m c) (W22_arg14 m c))

theorem ker_out : res (F := Ideal) m c
    = OUT (ar0 m c) (ar1 m c) (ar2 m c) (ar3 m c) (ar4 m c) (ar5 m c) (ar6 m c) (ar7 m c) (ar8 m c) (ar9 m c) (ar10 m c)
        (ar11 m c) (ar12 m c) (ar13 m c) (ar14 m c) :=
  (arr9 (Vin9 m) c).trans ((congr3 denseG ((Vin9_0 m c).trans (out8 m c)) (Vin9_1 m c) (in9_2 m c)).trans (regOut_host _ _ _ _))

end Cert.KernelIdeal.Hand

end
-- ==== Proof.KI.RefOut.lean ====
import proofs.«417880_j4011499454825_1_alg».proof.Proof.KI.RefRunP
import proofs.«417880_j4011499454825_1_alg».proof.Proof.KI.Chain

noncomputable section

namespace Cert.KernelIdeal.Hand

open Idealize.ShloMosaic Idealize.ShloMosaic.TcCoe Idealize.SL.Sem Cert.ReferenceIdeal Cert.ReferenceIdeal.Gen

variable (m : (ℓ : Loc nD τ sig) → Buf (Elt Ideal) ℓ) (c : Dev nD)

abbrev refArg (r : Ref sig .tc) : Buf (Elt Ideal) ((c.tc : Thread nD τ).loc r) := m ((c.tc : Thread nD τ).loc r)

abbrev refOUT : FVec Ideal S512x10 .f32 :=
  OUT (refArg m c main_arg0) (refArg m c main_arg1) (refArg m c main_arg2) (refArg m c main_arg3) (refArg m c main_arg4) (refArg m c main_arg5) (refArg m c main_arg6) (refArg m c main_arg7) (refArg m c main_arg8) (refArg m c main_arg9) (refArg m c main_arg10) (refArg m c main_arg11) (refArg m c main_arg12) (refArg m c main_arg13) (refArg m c main_arg14)

abbrev refKept (m' : (ℓ : Loc nD τ sig) → Buf (Elt Ideal) ℓ) : Prop :=
  refArg m' c main_arg0 = refArg m c main_arg0 ∧ refArg m' c main_arg1 = refArg m c main_arg1 ∧ refArg m' c main_arg2 = refArg m c main_arg2 ∧ refArg m' c main_arg3 = refArg m c main_arg3 ∧ refArg m' c main_arg4 = refArg m c main_arg4 ∧ refArg m' c main_arg5 = refArg m c main_arg5 ∧ refArg m' c main_arg6 = refArg m c main_arg6 ∧ refArg m' c main_arg7 = refArg m c main_arg7 ∧ refArg m' c main_arg8 = refArg m c main_arg8 ∧ refArg m' c main_arg9 = refArg m c main_arg9 ∧ refArg m' c main_arg10 = refArg m c main_arg10 ∧ refArg m' c main_arg11 = refArg m c main_arg11 ∧ refArg m' c main_arg12 = refArg m c main_arg12 ∧ refArg m' c main_arg13 = refArg m c main_arg13 ∧ refArg m' c main_arg14 = refArg m c main_arg14

set_option maxRecDepth 8192 in
theorem ref_out : Cert.ReferenceIdeal.ValueP.res_main_v161 (F := Ideal) m c = refOUT m c := by
  unfold Cert.ReferenceIdeal.ValueP.res_main_v161 refOUT OUT outL hid poolG x3 gcn aggL featL lin x0 nbr0 feat0 segG segL segE edgeW dis deg
    reluN addRowN zerosG zerosN colN colL colE wrapL wrapE dfull sfull dstOf srcOf
  with_reducible rfl

theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v161) = refOUT m c ∧ refKept m c r.2.mem :=
  (θ_run defs _ _).mono (fun _ h c => ⟨(h c).1.trans (ref_out m c), (h c).2⟩) (Cert.ReferenceIdeal.ValueP.run m ρ)

theorem frame_ri (ρ : Dev nD → PrngReg) :
    θ_run (defs (F := Ideal)) (onTc (τ := τ) (main (F := Ideal))) ⟨m, fun _ => 0, ρ⟩ fun r => ∀ c : Dev nD, refKept m c r.2.mem :=
  (θ_run defs _ _).mono (fun _ h c => (h c).2) (Cert.ReferenceIdeal.ValueP.run m ρ)

end Cert.KernelIdeal.Hand

end
-- ==== Proof.lean ====
import proofs.«417880_j4011499454825_1_alg».proof.Defs
import proofs.«417880_j4011499454825_1_alg».proof.Proof.Gen.Kernel
import proofs.«417880_j4011499454825_1_alg».proof.Proof.Gen.KernelIdeal
import proofs.«417880_j4011499454825_1_alg».proof.Proof.Gen.ReferenceIdeal
import proofs.«417880_j4011499454825_1_alg».proof.Proof.Gen.Pre_finite_inputs
import proofs.«417880_j4011499454825_1_alg».proof.Proof.KB.Launch
import proofs.«417880_j4011499454825_1_alg».proof.Proof.KI.Launch
import proofs.«417880_j4011499454825_1_alg».proof.Proof.KI.KerOut
import proofs.«417880_j4011499454825_1_alg».proof.Proof.KI.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_r : Cert.frame_ReferenceIdeal := fun m ρ _ => Cert.KernelIdeal.Hand.frame_ri m ρ

theorem algebraic : Cert.algebraic_KernelIdeal_ReferenceIdeal := by
  intro m ρ m' ρ' _ hagree
  refine ⟨_, (θ_run (Cert.KernelIdeal.defs (F := Ideal)) _ _).mono
      (fun _ h c => ⟨(h c).1.trans (Cert.KernelIdeal.Hand.ker_out m c), (h c).2⟩)
      (Cert.KernelIdeal.Hand.value_all (F := Ideal) m ρ),
    (θ_run (Cert.ReferenceIdeal.defs (F := Ideal)) _ _).mono (fun _ h c => ⟨(h c).1.trans ?_, (h c).2⟩)
      (Cert.KernelIdeal.Hand.ref_run m' ρ')⟩
  unfold Cert.KernelIdeal.Hand.refOUT Cert.KernelIdeal.Hand.refArg
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
  frame_k, frame_ki, frame_r, trivial, algebraic⟩

end Cert.Proof

end
